-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_14" .f32 0x3D924925#32 ((1 / 14 : ℝ) : EReal)
  ∧ IdealRules.named_const.Statement Cert.KernelIdeal.κ "inv_14" .f32 0x3D924925#32 ((1 / 14 : ℝ) : EReal)
  ∧ IdealRules.named_const.Statement Cert.KernelIdeal.κ "inv_14" .f32 0x3D924925#32 ((1 / 14 : ℝ) : EReal)
  ∧ IdealRules.named_const.Statement Cert.KernelIdeal.κ "inv_14" .f32 0x3D924925#32 ((1 / 14 : ℝ) : EReal)
  ∧ IdealRules.named_const.Statement Cert.KernelIdeal.κ "inv_14" .f32 0x3D924925#32 ((1 / 14 : ℝ) : EReal)
  ∧ IdealRules.named_const.Statement Cert.KernelIdeal.κ "inv_14" .f32 0x3D924925#32 ((1 / 14 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v190) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x14x14x30 : Shape := ⟨4, ![4096, 14, 14, 30]⟩
abbrev S4096x14x14x4 : Shape := ⟨4, ![4096, 14, 14, 4]⟩
abbrev S4096x14x14x20 : Shape := ⟨4, ![4096, 14, 14, 20]⟩
abbrev S4096x14x14 : Shape := ⟨3, ![4096, 14, 14]⟩
abbrev S_ : Shape := ⟨0, ![]⟩

class Facts : Prop where
  bcast_S_S4096x14x14x30 : S_.BroadcastsInDim S4096x14x14x30 (![] : Fin 0 → Fin S4096x14x14x30.rank)
  reducesTo_S4096x14x14x30_S_d0_1_2_3 : S4096x14x14x30.ReducesTo [0, 1, 2, 3] S_
  h_S_ : 0 < S_.numel
  bcast_S_S4096x14x14x4 : S_.BroadcastsInDim S4096x14x14x4 (![] : Fin 0 → Fin S4096x14x14x4.rank)
  reducesTo_S4096x14x14x4_S_d0_1_2_3 : S4096x14x14x4.ReducesTo [0, 1, 2, 3] S_
  bcast_S_S4096x14x14x20 : S_.BroadcastsInDim S4096x14x14x20 (![] : Fin 0 → Fin S4096x14x14x20.rank)
  reducesTo_S4096x14x14x20_S_d0_1_2_3 : S4096x14x14x20.ReducesTo [0, 1, 2, 3] S_

variable [Facts]

def fn {F : FTy → Type} [FloatOps F] (main_arg0 : FVec F S4096x14x14x30 .f32) (main_arg1 : FVec F S4096x14x14x4 .f32) (main_arg2 : FVec F S4096x14x14x20 .f32) (main_arg3 : IVec S4096x14x14 1) : IVec S_ 1 :=
  let main_v0 : FVec F S4096x14x14x30 .f32 := Host.absf main_arg0
  let main_cst : FVec F S_ .f32 := constant S_ .f32 0x7F800000#32
  let main_v1 : FVec F S4096x14x14x30 .f32 := broadcastInDim S4096x14x14x30 ![] bcast_S_S4096x14x14x30 main_cst
  let main_v2 : IVec S4096x14x14x30 1 := cmpf .olt main_v0 main_v1
  let main_c : IVec S_ 1 := constantI S_ 1 1#1
  let main_v3 : IVec S_ 1 := (fun x v => Host.reduce IntOp.andi x v reducesTo_S4096x14x14x30_S_d0_1_2_3 h_S_) main_v2 main_c
  let main_v4 : FVec F S4096x14x14x4 .f32 := Host.absf main_arg1
  let main_cst_0 : FVec F S_ .f32 := constant S_ .f32 0x7F800000#32
  let main_v5 : FVec F S4096x14x14x4 .f32 := broadcastInDim S4096x14x14x4 ![] bcast_S_S4096x14x14x4 main_cst_0
  let main_v6 : IVec S4096x14x14x4 1 := cmpf .olt main_v4 main_v5
  let main_c_1 : IVec S_ 1 := constantI S_ 1 1#1
  let main_v7 : IVec S_ 1 := (fun x v => Host.reduce IntOp.andi x v reducesTo_S4096x14x14x4_S_d0_1_2_3 h_S_) main_v6 main_c_1
  let main_v8 : IVec S_ 1 := andi main_v3 main_v7
  let main_v9 : FVec F S4096x14x14x20 .f32 := Host.absf main_arg2
  let main_cst_2 : FVec F S_ .f32 := constant S_ .f32 0x7F800000#32
  let main_v10 : FVec F S4096x14x14x20 .f32 := broadcastInDim S4096x14x14x20 ![] bcast_S_S4096x14x14x20 main_cst_2
  let main_v11 : IVec S4096x14x14x20 1 := cmpf .olt main_v9 main_v10
  let main_c_3 : IVec S_ 1 := constantI S_ 1 1#1
  let main_v12 : IVec S_ 1 := (fun x v => Host.reduce IntOp.andi x v reducesTo_S4096x14x14x20_S_d0_1_2_3 h_S_) main_v11 main_c_3
  let main_v13 : IVec S_ 1 := andi main_v8 main_v12
  main_v13
-- ==== Kernel.lean ====
abbrev S4096x14x14x30 : Shape := ⟨4, ![4096, 14, 14, 30]⟩
abbrev S4096x14x14x4 : Shape := ⟨4, ![4096, 14, 14, 4]⟩
abbrev S4096x14x14x20 : Shape := ⟨4, ![4096, 14, 14, 20]⟩
abbrev S4096x14x14 : Shape := ⟨3, ![4096, 14, 14]⟩
abbrev S802816x30 : Shape := ⟨2, ![802816, 30]⟩
abbrev S30x802816 : Shape := ⟨2, ![30, 802816]⟩
abbrev S30x6272x128 : Shape := ⟨3, ![30, 6272, 128]⟩
abbrev S802816x4 : Shape := ⟨2, ![802816, 4]⟩
abbrev S4x802816 : Shape := ⟨2, ![4, 802816]⟩
abbrev S4x6272x128 : Shape := ⟨3, ![4, 6272, 128]⟩
abbrev S802816x20 : Shape := ⟨2, ![802816, 20]⟩
abbrev S20x802816 : Shape := ⟨2, ![20, 802816]⟩
abbrev S20x6272x128 : Shape := ⟨3, ![20, 6272, 128]⟩
abbrev S6272x128 : Shape := ⟨2, ![6272, 128]⟩
abbrev S2x8x128 : Shape := ⟨3, ![2, 8, 128]⟩
abbrev S30x224x128 : Shape := ⟨3, ![30, 224, 128]⟩
abbrev S4x224x128 : Shape := ⟨3, ![4, 224, 128]⟩
abbrev S20x224x128 : Shape := ⟨3, ![20, 224, 128]⟩
abbrev S224x128 : Shape := ⟨2, ![224, 128]⟩
abbrev S1x8x128 : Shape := ⟨3, ![1, 8, 128]⟩
abbrev S1x224x128 : Shape := ⟨3, ![1, 224, 128]⟩
abbrev S224 : Shape := ⟨1, ![224]⟩
abbrev S224x1 : Shape := ⟨2, ![224, 1]⟩
abbrev S1 : Shape := ⟨1, ![1]⟩
abbrev S1x1 : Shape := ⟨2, ![1, 1]⟩
abbrev S4 : Shape := ⟨1, ![4]⟩
abbrev S124 : Shape := ⟨1, ![124]⟩
abbrev S128 : Shape := ⟨1, ![128]⟩
abbrev S1x128 : Shape := ⟨2, ![1, 128]⟩
abbrev S7x128 : Shape := ⟨2, ![7, 128]⟩
abbrev S8x128 : Shape := ⟨2, ![8, 128]⟩
abbrev S2x1x4 : Shape := ⟨3, ![2, 1, 4]⟩
abbrev S2x4 : Shape := ⟨2, ![2, 4]⟩
abbrev S_ : Shape := ⟨0, ![]⟩
abbrev S5 : Shape := ⟨1, ![5]⟩

abbrev nBuf : Space → Nat
  | .hbm => 44
  | .vmem => 10
  | .smem => 0
  | _ => 0

abbrev bufTy : (tb : Table) → Fin (tcTables nBuf tb) → BufTy
  | .hbm, ⟨0, _⟩ => ⟨S4096x14x14x30, .f32⟩
  | .hbm, ⟨1, _⟩ => ⟨S4096x14x14x4, .f32⟩
  | .hbm, ⟨2, _⟩ => ⟨S4096x14x14x20, .f32⟩
  | .hbm, ⟨3, _⟩ => ⟨S4096x14x14, .i1⟩
  | .hbm, ⟨4, _⟩ => ⟨S802816x30, .f32⟩
  | .hbm, ⟨5, _⟩ => ⟨S30x802816, .f32⟩
  | .hbm, ⟨6, _⟩ => ⟨S30x6272x128, .f32⟩
  | .hbm, ⟨7, _⟩ => ⟨S802816x4, .f32⟩
  | .hbm, ⟨8, _⟩ => ⟨S4x802816, .f32⟩
  | .hbm, ⟨9, _⟩ => ⟨S4x6272x128, .f32⟩
  | .hbm, ⟨10, _⟩ => ⟨S802816x20, .f32⟩
  | .hbm, ⟨11, _⟩ => ⟨S20x802816, .f32⟩
  | .hbm, ⟨12, _⟩ => ⟨S20x6272x128, .f32⟩
  | .hbm, ⟨13, _⟩ => ⟨S6272x128, .i1⟩
  | .hbm, ⟨14, _⟩ => ⟨S6272x128, .f32⟩
  | .hbm, ⟨15, _⟩ => ⟨S2x8x128, .f32⟩
  | .hbm, ⟨16, _⟩ => ⟨S2x1x4, .f32⟩
  | .hbm, ⟨17, _⟩ => ⟨S2x4, .f32⟩
  | .hbm, ⟨18, _⟩ => ⟨S_, .f32⟩
  | .hbm, ⟨19, _⟩ => ⟨S4, .f32⟩
  | .hbm, ⟨20, _⟩ => ⟨S1, .f32⟩
  | .hbm, ⟨21, _⟩ => ⟨S_, .f32⟩
  | .hbm, ⟨22, _⟩ => ⟨S1, .f32⟩
  | .hbm, ⟨23, _⟩ => ⟨S_, .f32⟩
  | .hbm, ⟨24, _⟩ => ⟨S1, .f32⟩
  | .hbm, ⟨25, _⟩ => ⟨S_, .f32⟩
  | .hbm, ⟨26, _⟩ => ⟨S1, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S1, .f32⟩
  | .hbm, ⟨36, _⟩ => ⟨S1, .f32⟩
  | .hbm, ⟨37, _⟩ => ⟨S1, .f32⟩
  | .hbm, ⟨38, _⟩ => ⟨S1, .f32⟩
  | .hbm, ⟨39, _⟩ => ⟨S1, .f32⟩
  | .hbm, ⟨40, _⟩ => ⟨S5, .f32⟩
  | .hbm, ⟨41, _⟩ => ⟨S_, .f32⟩
  | .hbm, ⟨42, _⟩ => ⟨S5, .f32⟩
  | .hbm, ⟨43, _⟩ => ⟨S5, .f32⟩
  | .local _ .vmem, ⟨0, _⟩ => ⟨S30x224x128, .f32⟩
  | .local _ .vmem, ⟨1, _⟩ => ⟨S30x224x128, .f32⟩
  | .local _ .vmem, ⟨2, _⟩ => ⟨S4x224x128, .f32⟩
  | .local _ .vmem, ⟨3, _⟩ => ⟨S4x224x128, .f32⟩
  | .local _ .vmem, ⟨4, _⟩ => ⟨S20x224x128, .f32⟩
  | .local _ .vmem, ⟨5, _⟩ => ⟨S20x224x128, .f32⟩
  | .local _ .vmem, ⟨6, _⟩ => ⟨S224x128, .f32⟩
  | .local _ .vmem, ⟨7, _⟩ => ⟨S224x128, .f32⟩
  | .local _ .vmem, ⟨8, _⟩ => ⟨S1x8x128, .f32⟩
  | .local _ .vmem, ⟨9, _⟩ => ⟨S1x8x128, .f32⟩
  | _, _ => ⟨S4096x14x14x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_v23 : Ref sig .tc := ⟨.hbm, 29, rfl⟩
abbrev main_v24 : Ref sig .tc := ⟨.hbm, 30, rfl⟩
abbrev main_cst_1 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_2 : Ref sig .tc := ⟨.hbm, 41, rfl⟩
abbrev main_v34 : Ref sig .tc := ⟨.hbm, 42, rfl⟩
abbrev main_v35 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 14], ![false, false]⟩

def cc0_transform_0 (i : grid0.Coords) : Fin 3 → Nat :=
  let arg0 : BitVec 32 := BitVec.ofNat 32 (i 0).val
  let arg1 : BitVec 32 := BitVec.ofNat 32 (i 1).val
  let c14_i32 : BitVec 32 := 14#32
  let v0 : BitVec 32 := Scalar.muli arg0 c14_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c14_i32 : BitVec 32 := 14#32
  let v0 : BitVec 32 := Scalar.muli arg0 c14_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c14_i32 : BitVec 32 := 14#32
  let v0 : BitVec 32 := Scalar.muli arg0 c14_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.muli arg0 c14_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S30x224x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x224x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S20x224x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S224x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S4096x14x14x30_S802816x30 : S4096x14x14x30.ShapeCasts S802816x30
  transposes_S802816x30_S30x802816_1_0 : S802816x30.Transposes [1, 0] S30x802816
  shapeCasts_S30x802816_S30x6272x128 : S30x802816.ShapeCasts S30x6272x128
  shapeCasts_S4096x14x14x4_S802816x4 : S4096x14x14x4.ShapeCasts S802816x4
  transposes_S802816x4_S4x802816_1_0 : S802816x4.Transposes [1, 0] S4x802816
  shapeCasts_S4x802816_S4x6272x128 : S4x802816.ShapeCasts S4x6272x128
  shapeCasts_S4096x14x14x20_S802816x20 : S4096x14x14x20.ShapeCasts S802816x20
  transposes_S802816x20_S20x802816_1_0 : S802816x20.Transposes [1, 0] S20x802816
  shapeCasts_S20x802816_S20x6272x128 : S20x802816.ShapeCasts S20x6272x128
  shapeCasts_S4096x14x14_S6272x128 : S4096x14x14.ShapeCasts S6272x128
  inb_S1x8x128_S1x8x128_0_0_0 : ∀ a, (![0, 0, 0] : Fin 3 → Nat) a + S1x8x128.size a ≤ S1x8x128.size a
  h_S1x8x128 : 0 < S1x8x128.numel
  inb_S224x128_S224x128_0_0 : ∀ a, (![0, 0] : Fin 2 → Nat) a + S224x128.size a ≤ S224x128.size a
  h_S224x128 : 0 < S224x128.numel
  shapeCasts_S224x128_S224x128 : S224x128.ShapeCasts S224x128
  inb_S30x224x128_S1x224x128_10_0_0 : ∀ a, (![10, 0, 0] : Fin 3 → Nat) a + S1x224x128.size a ≤ S30x224x128.size a
  h_S1x224x128 : 0 < S1x224x128.numel
  shapeCasts_S1x224x128_S224x128 : S1x224x128.ShapeCasts S224x128
  inb_S20x224x128_S1x224x128_0_0_0 : ∀ a, (![0, 0, 0] : Fin 3 → Nat) a + S1x224x128.size a ≤ S20x224x128.size a
  inb_S30x224x128_S1x224x128_11_0_0 : ∀ a, (![11, 0, 0] : Fin 3 → Nat) a + S1x224x128.size a ≤ S30x224x128.size a
  inb_S20x224x128_S1x224x128_1_0_0 : ∀ a, (![1, 0, 0] : Fin 3 → Nat) a + S1x224x128.size a ≤ S20x224x128.size a
  inb_S30x224x128_S1x224x128_12_0_0 : ∀ a, (![12, 0, 0] : Fin 3 → Nat) a + S1x224x128.size a ≤ S30x224x128.size a
  inb_S20x224x128_S1x224x128_2_0_0 : ∀ a, (![2, 0, 0] : Fin 3 → Nat) a + S1x224x128.size a ≤ S20x224x128.size a
  inb_S30x224x128_S1x224x128_13_0_0 : ∀ a, (![13, 0, 0] : Fin 3 → Nat) a + S1x224x128.size a ≤ S30x224x128.size a
  inb_S20x224x128_S1x224x128_3_0_0 : ∀ a, (![3, 0, 0] : Fin 3 → Nat) a + S1x224x128.size a ≤ S20x224x128.size a
  inb_S30x224x128_S1x224x128_14_0_0 : ∀ a, (![14, 0, 0] : Fin 3 → Nat) a + S1x224x128.size a ≤ S30x224x128.size a
  inb_S20x224x128_S1x224x128_4_0_0 : ∀ a, (![4, 0, 0] : Fin 3 → Nat) a + S1x224x128.size a ≤ S20x224x128.size a
  inb_S30x224x128_S1x224x128_15_0_0 : ∀ a, (![15, 0, 0] : Fin 3 → Nat) a + S1x224x128.size a ≤ S30x224x128.size a
  inb_S20x224x128_S1x224x128_5_0_0 : ∀ a, (![5, 0, 0] : Fin 3 → Nat) a + S1x224x128.size a ≤ S20x224x128.size a
  inb_S30x224x128_S1x224x128_16_0_0 : ∀ a, (![16, 0, 0] : Fin 3 → Nat) a + S1x224x128.size a ≤ S30x224x128.size a
  inb_S20x224x128_S1x224x128_6_0_0 : ∀ a, (![6, 0, 0] : Fin 3 → Nat) a + S1x224x128.size a ≤ S20x224x128.size a
  inb_S30x224x128_S1x224x128_17_0_0 : ∀ a, (![17, 0, 0] : Fin 3 → Nat) a + S1x224x128.size a ≤ S30x224x128.size a
  inb_S20x224x128_S1x224x128_7_0_0 : ∀ a, (![7, 0, 0] : Fin 3 → Nat) a + S1x224x128.size a ≤ S20x224x128.size a
  inb_S30x224x128_S1x224x128_18_0_0 : ∀ a, (![18, 0, 0] : Fin 3 → Nat) a + S1x224x128.size a ≤ S30x224x128.size a
  inb_S20x224x128_S1x224x128_8_0_0 : ∀ a, (![8, 0, 0] : Fin 3 → Nat) a + S1x224x128.size a ≤ S20x224x128.size a
  inb_S30x224x128_S1x224x128_19_0_0 : ∀ a, (![19, 0, 0] : Fin 3 → Nat) a + S1x224x128.size a ≤ S30x224x128.size a
  inb_S20x224x128_S1x224x128_9_0_0 : ∀ a, (![9, 0, 0] : Fin 3 → Nat) a + S1x224x128.size a ≤ S20x224x128.size a
  inb_S30x224x128_S1x224x128_20_0_0 : ∀ a, (![20, 0, 0] : Fin 3 → Nat) a + S1x224x128.size a ≤ S30x224x128.size a
  inb_S20x224x128_S1x224x128_10_0_0 : ∀ a, (![10, 0, 0] : Fin 3 → Nat) a + S1x224x128.size a ≤ S20x224x128.size a
  inb_S30x224x128_S1x224x128_21_0_0 : ∀ a, (![21, 0, 0] : Fin 3 → Nat) a + S1x224x128.size a ≤ S30x224x128.size a
  inb_S20x224x128_S1x224x128_11_0_0 : ∀ a, (![11, 0, 0] : Fin 3 → Nat) a + S1x224x128.size a ≤ S20x224x128.size a
  inb_S30x224x128_S1x224x128_22_0_0 : ∀ a, (![22, 0, 0] : Fin 3 → Nat) a + S1x224x128.size a ≤ S30x224x128.size a
  inb_S20x224x128_S1x224x128_12_0_0 : ∀ a, (![12, 0, 0] : Fin 3 → Nat) a + S1x224x128.size a ≤ S20x224x128.size a
  inb_S30x224x128_S1x224x128_23_0_0 : ∀ a, (![23, 0, 0] : Fin 3 → Nat) a + S1x224x128.size a ≤ S30x224x128.size a
  inb_S20x224x128_S1x224x128_13_0_0 : ∀ a, (![13, 0, 0] : Fin 3 → Nat) a + S1x224x128.size a ≤ S20x224x128.size a
  inb_S30x224x128_S1x224x128_24_0_0 : ∀ a, (![24, 0, 0] : Fin 3 → Nat) a + S1x224x128.size a ≤ S30x224x128.size a
  inb_S20x224x128_S1x224x128_14_0_0 : ∀ a, (![14, 0, 0] : Fin 3 → Nat) a + S1x224x128.size a ≤ S20x224x128.size a
  inb_S30x224x128_S1x224x128_25_0_0 : ∀ a, (![25, 0, 0] : Fin 3 → Nat) a + S1x224x128.size a ≤ S30x224x128.size a
  inb_S20x224x128_S1x224x128_15_0_0 : ∀ a, (![15, 0, 0] : Fin 3 → Nat) a + S1x224x128.size a ≤ S20x224x128.size a
  inb_S30x224x128_S1x224x128_26_0_0 : ∀ a, (![26, 0, 0] : Fin 3 → Nat) a + S1x224x128.size a ≤ S30x224x128.size a
  inb_S20x224x128_S1x224x128_16_0_0 : ∀ a, (![16, 0, 0] : Fin 3 → Nat) a + S1x224x128.size a ≤ S20x224x128.size a
  inb_S30x224x128_S1x224x128_27_0_0 : ∀ a, (![27, 0, 0] : Fin 3 → Nat) a + S1x224x128.size a ≤ S30x224x128.size a
  inb_S20x224x128_S1x224x128_17_0_0 : ∀ a, (![17, 0, 0] : Fin 3 → Nat) a + S1x224x128.size a ≤ S20x224x128.size a
  inb_S30x224x128_S1x224x128_28_0_0 : ∀ a, (![28, 0, 0] : Fin 3 → Nat) a + S1x224x128.size a ≤ S30x224x128.size a
  inb_S20x224x128_S1x224x128_18_0_0 : ∀ a, (![18, 0, 0] : Fin 3 → Nat) a + S1x224x128.size a ≤ S20x224x128.size a
  inb_S30x224x128_S1x224x128_29_0_0 : ∀ a, (![29, 0, 0] : Fin 3 → Nat) a + S1x224x128.size a ≤ S30x224x128.size a
  inb_S20x224x128_S1x224x128_19_0_0 : ∀ a, (![19, 0, 0] : Fin 3 → Nat) a + S1x224x128.size a ≤ S20x224x128.size a
  reduces_S224x128_S224 : S224x128.Reduces [1] S224
  shapeCasts_S224_S224x1 : S224.ShapeCasts S224x1
  reduces_S224x1_S1 : S224x1.Reduces [0] S1
  shapeCasts_S1_S1x1 : S1.ShapeCasts S1x1
  shapeCasts_S1x1_S1 : S1x1.ShapeCasts S1
  inb_S30x224x128_S1x224x128_4_0_0 : ∀ a, (![4, 0, 0] : Fin 3 → Nat) a + S1x224x128.size a ≤ S30x224x128.size a
  inb_S30x224x128_S1x224x128_9_0_0 : ∀ a, (![9, 0, 0] : Fin 3 → Nat) a + S1x224x128.size a ≤ S30x224x128.size a
  inb_S30x224x128_S1x224x128_0_0_0 : ∀ a, (![0, 0, 0] : Fin 3 → Nat) a + S1x224x128.size a ≤ S30x224x128.size a
  inb_S30x224x128_S1x224x128_1_0_0 : ∀ a, (![1, 0, 0] : Fin 3 → Nat) a + S1x224x128.size a ≤ S30x224x128.size a
  inb_S30x224x128_S1x224x128_2_0_0 : ∀ a, (![2, 0, 0] : Fin 3 → Nat) a + S1x224x128.size a ≤ S30x224x128.size a
  inb_S30x224x128_S1x224x128_3_0_0 : ∀ a, (![3, 0, 0] : Fin 3 → Nat) a + S1x224x128.size a ≤ S30x224x128.size a
  inb_S30x224x128_S1x224x128_5_0_0 : ∀ a, (![5, 0, 0] : Fin 3 → Nat) a + S1x224x128.size a ≤ S30x224x128.size a
  inb_S30x224x128_S1x224x128_6_0_0 : ∀ a, (![6, 0, 0] : Fin 3 → Nat) a + S1x224x128.size a ≤ S30x224x128.size a
  inb_S30x224x128_S1x224x128_7_0_0 : ∀ a, (![7, 0, 0] : Fin 3 → Nat) a + S1x224x128.size a ≤ S30x224x128.size a
  inb_S30x224x128_S1x224x128_8_0_0 : ∀ a, (![8, 0, 0] : Fin 3 → Nat) a + S1x224x128.size a ≤ S30x224x128.size a
  inb_S4x224x128_S1x224x128_0_0_0 : ∀ a, (![0, 0, 0] : Fin 3 → Nat) a + S1x224x128.size a ≤ S4x224x128.size a
  inb_S4x224x128_S1x224x128_1_0_0 : ∀ a, (![1, 0, 0] : Fin 3 → Nat) a + S1x224x128.size a ≤ S4x224x128.size a
  inb_S4x224x128_S1x224x128_2_0_0 : ∀ a, (![2, 0, 0] : Fin 3 → Nat) a + S1x224x128.size a ≤ S4x224x128.size a
  inb_S4x224x128_S1x224x128_3_0_0 : ∀ a, (![3, 0, 0] : Fin 3 → Nat) a + S1x224x128.size a ≤ S4x224x128.size a
  concatenates_S1_S1_S1_S1_S4_d0 : Shape.Concatenates [S1, S1, S1, S1] S4 0
  concatenates_S4_S124_S128_d0 : Shape.Concatenates [S4, S124] S128 0
  shapeCasts_S128_S1x128 : S128.ShapeCasts S1x128
  concatenates_S1x128_S7x128_S8x128_d0 : Shape.Concatenates [S1x128, S7x128] S8x128 0
  shapeCasts_S8x128_S1x8x128 : S8x128.ShapeCasts S1x8x128
  shapeCasts_S1x8x128_S1x8x128 : S1x8x128.ShapeCasts S1x8x128
  slices_S2x8x128_S2x1x4_0_0_0 : S2x8x128.Slices ![0, 0, 0] S2x1x4
  shapeCasts_S2x1x4_S2x4 : S2x1x4.ShapeCasts S2x4
  reducesTo_S2x4_S4_d0 : S2x4.ReducesTo [0] S4
  h_S_ : 0 < S_.numel
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  bcast_S_S1 : S_.BroadcastsInDim S1 (![] : Fin 0 → Fin S1.rank)
  concatenates_S1_S1_S1_S1_S1_S5_d0 : Shape.Concatenates [S1, S1, S1, S1, S1] S5 0
  bcast_S_S5 : S_.BroadcastsInDim S5 (![] : Fin 0 → Fin S5.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S30x224x128.size a ≤ S30x6272x128.size a
  hwx0_0 : ∀ i : grid0.Coords, EltTy.bits .f32 = 32 ∨ (Rect.block (s := S30x6272x128) S30x224x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x224x128.size a ≤ S4x6272x128.size a
  hwx0_1 : ∀ i : grid0.Coords, EltTy.bits .f32 = 32 ∨ (Rect.block (s := S4x6272x128) S4x224x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S20x224x128.size a ≤ S20x6272x128.size a
  hwx0_2 : ∀ i : grid0.Coords, EltTy.bits .f32 = 32 ∨ (Rect.block (s := S20x6272x128) S20x224x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S224x128.size a ≤ S6272x128.size a
  hwx0_3 : ∀ i : grid0.Coords, EltTy.bits .f32 = 32 ∨ (Rect.block (s := S6272x128) S224x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S2x8x128.size a
  hwx0_4 : ∀ i : grid0.Coords, EltTy.bits .f32 = 32 ∨ (Rect.block (s := S2x8x128) S1x8x128.size (cc0_transform_4 i) (hinb0_4 i)).WholeWords (EltTy.packing .f32)

variable [Facts₀]

abbrev win0_0 : Pipeline.Window sig grid0 :=
  Pipeline.Window.ofSpec (Memref.whole main_v2) S30x224x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4x224x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S20x224x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S224x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x14x14x30 : Shape := ⟨4, ![4096, 14, 14, 30]⟩
abbrev S4096x14x14x4 : Shape := ⟨4, ![4096, 14, 14, 4]⟩
abbrev S4096x14x14x20 : Shape := ⟨4, ![4096, 14, 14, 20]⟩
abbrev S4096x14x14 : Shape := ⟨3, ![4096, 14, 14]⟩
abbrev S4096x14x14x5 : Shape := ⟨4, ![4096, 14, 14, 5]⟩
abbrev S_ : Shape := ⟨0, ![]⟩
abbrev S4096x14x14x1 : Shape := ⟨4, ![4096, 14, 14, 1]⟩
abbrev S4096x14x14x2 : Shape := ⟨4, ![4096, 14, 14, 2]⟩
abbrev S1 : Shape := ⟨1, ![1]⟩
abbrev S5 : Shape := ⟨1, ![5]⟩

abbrev nBuf : Space → Nat
  | .hbm => 222
  | .vmem => 0
  | .smem => 0
  | _ => 0

abbrev hbmTy0_0 (i : Nat) : BufTy := match i % 128 with
  | 0 => ⟨S4096x14x14x30, .f32⟩
  | 1 => ⟨S4096x14x14x4, .f32⟩
  | 2 => ⟨S4096x14x14x20, .f32⟩
  | 3 => ⟨S4096x14x14, .i1⟩
  | 4 => ⟨S4096x14x14x5, .f32⟩
  | 5 => ⟨S4096x14x14x5, .f32⟩
  | 6 => ⟨S4096x14x14x20, .f32⟩
  | 7 => ⟨S4096x14x14, .f32⟩
  | 8 => ⟨S4096x14x14x20, .f32⟩
  | 9 => ⟨S4096x14x14x20, .f32⟩
  | 10 => ⟨S_, .f32⟩
  | 11 => ⟨S4096x14x14, .f32⟩
  | 12 => ⟨S4096x14x14, .f32⟩
  | 13 => ⟨S_, .f32⟩
  | 14 => ⟨S_, .f32⟩
  | 15 => ⟨S_, .f32⟩
  | 16 => ⟨S4096x14x14, .f32⟩
  | 17 => ⟨S4096x14x14, .f32⟩
  | 18 => ⟨S4096x14x14x1, .f32⟩
  | 19 => ⟨S4096x14x14, .f32⟩
  | 20 => ⟨S4096x14x14, .f32⟩
  | 21 => ⟨S4096x14x14, .f32⟩
  | 22 => ⟨S_, .f32⟩
  | 23 => ⟨S_, .f32⟩
  | 24 => ⟨S_, .f32⟩
  | 25 => ⟨S4096x14x14, .f32⟩
  | 26 => ⟨S4096x14x14, .f32⟩
  | 27 => ⟨S4096x14x14x1, .f32⟩
  | 28 => ⟨S4096x14x14, .f32⟩
  | 29 => ⟨S4096x14x14, .f32⟩
  | 30 => ⟨S4096x14x14, .f32⟩
  | 31 => ⟨S_, .f32⟩
  | 32 => ⟨S_, .f32⟩
  | 33 => ⟨S_, .f32⟩
  | 34 => ⟨S4096x14x14x4, .f32⟩
  | 35 => ⟨S4096x14x14x2, .f32⟩
  | 36 => ⟨S_, .f32⟩
  | 37 => ⟨S4096x14x14x2, .f32⟩
  | 38 => ⟨S4096x14x14x2, .f32⟩
  | 39 => ⟨S4096x14x14x2, .f32⟩
  | 40 => ⟨S_, .f32⟩
  | 41 => ⟨S4096x14x14x2, .f32⟩
  | 42 => ⟨S4096x14x14x2, .f32⟩
  | 43 => ⟨S4096x14x14x2, .f32⟩
  | 44 => ⟨S_, .f32⟩
  | 45 => ⟨S4096x14x14x2, .f32⟩
  | 46 => ⟨S4096x14x14x2, .f32⟩
  | 47 => ⟨S4096x14x14x2, .f32⟩
  | 48 => ⟨S4096x14x14x4, .f32⟩
  | 49 => ⟨S4096x14x14x4, .f32⟩
  | 50 => ⟨S4096x14x14x2, .f32⟩
  | 51 => ⟨S_, .f32⟩
  | 52 => ⟨S4096x14x14x2, .f32⟩
  | 53 => ⟨S4096x14x14x2, .f32⟩
  | 54 => ⟨S4096x14x14x2, .f32⟩
  | 55 => ⟨S_, .f32⟩
  | 56 => ⟨S4096x14x14x2, .f32⟩
  | 57 => ⟨S4096x14x14x2, .f32⟩
  | 58 => ⟨S4096x14x14x2, .f32⟩
  | 59 => ⟨S_, .f32⟩
  | 60 => ⟨S4096x14x14x2, .f32⟩
  | 61 => ⟨S4096x14x14x2, .f32⟩
  | 62 => ⟨S4096x14x14x2, .f32⟩
  | 63 => ⟨S4096x14x14x4, .f32⟩
  | 64 => ⟨S4096x14x14x2, .f32⟩
  | 65 => ⟨S_, .f32⟩
  | 66 => ⟨S4096x14x14x2, .f32⟩
  | 67 => ⟨S4096x14x14x2, .f32⟩
  | 68 => ⟨S4096x14x14x2, .f32⟩
  | 69 => ⟨S_, .f32⟩
  | 70 => ⟨S4096x14x14x2, .f32⟩
  | 71 => ⟨S4096x14x14x2, .f32⟩
  | 72 => ⟨S4096x14x14x2, .f32⟩
  | 73 => ⟨S_, .f32⟩
  | 74 => ⟨S4096x14x14x2, .f32⟩
  | 75 => ⟨S4096x14x14x2, .f32⟩
  | 76 => ⟨S4096x14x14x2, .f32⟩
  | 77 => ⟨S4096x14x14x4, .f32⟩
  | 78 => ⟨S4096x14x14x2, .f32⟩
  | 79 => ⟨S4096x14x14x2, .f32⟩
  | 80 => ⟨S4096x14x14x2, .f32⟩
  | 81 => ⟨S4096x14x14x2, .f32⟩
  | 82 => ⟨S4096x14x14x2, .f32⟩
  | 83 => ⟨S4096x14x14x2, .f32⟩
  | 84 => ⟨S4096x14x14x2, .f32⟩
  | 85 => ⟨S_, .f32⟩
  | 86 => ⟨S_, .f32⟩
  | 87 => ⟨S4096x14x14x2, .f32⟩
  | 88 => ⟨S4096x14x14x2, .f32⟩
  | 89 => ⟨S4096x14x14x1, .f32⟩
  | 90 => ⟨S4096x14x14, .f32⟩
  | 91 => ⟨S4096x14x14x1, .f32⟩
  | 92 => ⟨S4096x14x14, .f32⟩
  | 93 => ⟨S4096x14x14, .f32⟩
  | 94 => ⟨S4096x14x14x1, .f32⟩
  | 95 => ⟨S4096x14x14, .f32⟩
  | 96 => ⟨S4096x14x14x1, .f32⟩
  | 97 => ⟨S4096x14x14, .f32⟩
  | 98 => ⟨S4096x14x14, .f32⟩
  | 99 => ⟨S4096x14x14x1, .f32⟩
  | 100 => ⟨S4096x14x14, .f32⟩
  | 101 => ⟨S4096x14x14x1, .f32⟩
  | 102 => ⟨S4096x14x14, .f32⟩
  | 103 => ⟨S4096x14x14, .f32⟩
  | 104 => ⟨S4096x14x14, .f32⟩
  | 105 => ⟨S4096x14x14x1, .f32⟩
  | 106 => ⟨S4096x14x14, .f32⟩
  | 107 => ⟨S4096x14x14x1, .f32⟩
  | 108 => ⟨S4096x14x14, .f32⟩
  | 109 => ⟨S4096x14x14, .f32⟩
  | 110 => ⟨S4096x14x14x1, .f32⟩
  | 111 => ⟨S4096x14x14, .f32⟩
  | 112 => ⟨S4096x14x14x1, .f32⟩
  | 113 => ⟨S4096x14x14, .f32⟩
  | 114 => ⟨S4096x14x14, .f32⟩
  | 115 => ⟨S4096x14x14, .f32⟩
  | 116 => ⟨S4096x14x14, .f32⟩
  | 117 => ⟨S4096x14x14, .f32⟩
  | 118 => ⟨S4096x14x14, .f32⟩
  | 119 => ⟨S4096x14x14x2, .f32⟩
  | 120 => ⟨S4096x14x14x2, .f32⟩
  | 121 => ⟨S4096x14x14x2, .f32⟩
  | 122 => ⟨S4096x14x14x2, .f32⟩
  | 123 => ⟨S4096x14x14x2, .f32⟩
  | 124 => ⟨S4096x14x14x2, .f32⟩
  | 125 => ⟨S4096x14x14x2, .f32⟩
  | 126 => ⟨S_, .f32⟩
  | 127 => ⟨S_, .f32⟩
  | _ => ⟨S4096x14x14x30, .f32⟩

abbrev hbmTy0_1 (i : Nat) : BufTy := match i % 128 with
  | 0 => ⟨S4096x14x14x2, .f32⟩
  | 1 => ⟨S4096x14x14x2, .f32⟩
  | 2 => ⟨S4096x14x14x1, .f32⟩
  | 3 => ⟨S4096x14x14, .f32⟩
  | 4 => ⟨S4096x14x14x1, .f32⟩
  | 5 => ⟨S4096x14x14, .f32⟩
  | 6 => ⟨S4096x14x14, .f32⟩
  | 7 => ⟨S4096x14x14x1, .f32⟩
  | 8 => ⟨S4096x14x14, .f32⟩
  | 9 => ⟨S4096x14x14x1, .f32⟩
  | 10 => ⟨S4096x14x14, .f32⟩
  | 11 => ⟨S4096x14x14, .f32⟩
  | 12 => ⟨S4096x14x14x1, .f32⟩
  | 13 => ⟨S4096x14x14, .f32⟩
  | 14 => ⟨S4096x14x14x1, .f32⟩
  | 15 => ⟨S4096x14x14, .f32⟩
  | 16 => ⟨S4096x14x14, .f32⟩
  | 17 => ⟨S4096x14x14, .f32⟩
  | 18 => ⟨S4096x14x14x1, .f32⟩
  | 19 => ⟨S4096x14x14, .f32⟩
  | 20 => ⟨S4096x14x14x1, .f32⟩
  | 21 => ⟨S4096x14x14, .f32⟩
  | 22 => ⟨S4096x14x14, .f32⟩
  | 23 => ⟨S4096x14x14x1, .f32⟩
  | 24 => ⟨S4096x14x14, .f32⟩
  | 25 => ⟨S4096x14x14x1, .f32⟩
  | 26 => ⟨S4096x14x14, .f32⟩
  | 27 => ⟨S4096x14x14, .f32⟩
  | 28 => ⟨S4096x14x14, .f32⟩
  | 29 => ⟨S4096x14x14, .f32⟩
  | 30 => ⟨S4096x14x14, .f32⟩
  | 31 => ⟨S4096x14x14, .f32⟩
  | 32 => ⟨S4096x14x14, .i1⟩
  | 33 => ⟨S4096x14x14x1, .i1⟩
  | 34 => ⟨S4096x14x14x5, .i1⟩
  | 35 => ⟨S4096x14x14x5, .f32⟩
  | 36 => ⟨S4096x14x14, .f32⟩
  | 37 => ⟨S4096x14x14x1, .f32⟩
  | 38 => ⟨S4096x14x14, .f32⟩
  | 39 => ⟨S4096x14x14x1, .f32⟩
  | 40 => ⟨S4096x14x14, .f32⟩
  | 41 => ⟨S4096x14x14x1, .f32⟩
  | 42 => ⟨S4096x14x14, .f32⟩
  | 43 => ⟨S4096x14x14x1, .f32⟩
  | 44 => ⟨S4096x14x14, .f32⟩
  | 45 => ⟨S4096x14x14x1, .f32⟩
  | 46 => ⟨S4096x14x14, .f32⟩
  | 47 => ⟨S4096x14x14x1, .f32⟩
  | 48 => ⟨S4096x14x14, .f32⟩
  | 49 => ⟨S4096x14x14x1, .f32⟩
  | 50 => ⟨S4096x14x14, .f32⟩
  | 51 => ⟨S4096x14x14x1, .f32⟩
  | 52 => ⟨S4096x14x14, .f32⟩
  | 53 => ⟨S4096x14x14, .f32⟩
  | 54 => ⟨S4096x14x14, .f32⟩
  | 55 => ⟨S4096x14x14, .f32⟩
  | 56 => ⟨S4096x14x14, .f32⟩
  | 57 => ⟨S4096x14x14, .f32⟩
  | 58 => ⟨S4096x14x14, .f32⟩
  | 59 => ⟨S4096x14x14, .f32⟩
  | 60 => ⟨S4096x14x14, .f32⟩
  | 61 => ⟨S4096x14x14, .f32⟩
  | 62 => ⟨S4096x14x14, .f32⟩
  | 63 => ⟨S4096x14x14, .f32⟩
  | 64 => ⟨S4096x14x14, .f32⟩
  | 65 => ⟨S4096x14x14, .f32⟩
  | 66 => ⟨S4096x14x14, .f32⟩
  | 67 => ⟨S4096x14x14, .f32⟩
  | 68 => ⟨S4096x14x14, .f32⟩
  | 69 => ⟨S_, .f32⟩
  | 70 => ⟨S_, .f32⟩
  | 71 => ⟨S4096x14x14x1, .f32⟩
  | 72 => ⟨S4096x14x14, .f32⟩
  | 73 => ⟨S4096x14x14, .f32⟩
  | 74 => ⟨S4096x14x14, .f32⟩
  | 75 => ⟨S4096x14x14, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S1, .f32⟩
  | 86 => ⟨S1, .f32⟩
  | 87 => ⟨S1, .f32⟩
  | 88 => ⟨S1, .f32⟩
  | 89 => ⟨S1, .f32⟩
  | 90 => ⟨S5, .f32⟩
  | 91 => ⟨S_, .f32⟩
  | 92 => ⟨S5, .f32⟩
  | 93 => ⟨S5, .f32⟩
  | _ => ⟨S4096x14x14x30, .f32⟩

abbrev hbmTy (i : Nat) : BufTy := match i / 128 with
  | 0 => hbmTy0_0 i
  | 1 => hbmTy0_1 i
  | _ => ⟨S4096x14x14x30, .f32⟩

abbrev bufTy : (tb : Table) → Fin (tcTables nBuf tb) → BufTy
  | .hbm, ⟨i, _⟩ => hbmTy i
  | _, _ => ⟨S4096x14x14x30, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_8 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_9 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_10 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_11 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_12 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_13 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_14 : Ref sig .tc := ⟨.hbm, 85, rfl⟩
abbrev main_call0_v0 : Ref sig .tc := ⟨.hbm, 86, rfl⟩
abbrev main_call0_v1 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_cst_15 : Ref sig .tc := ⟨.hbm, 126, rfl⟩
abbrev main_call1_v0 : Ref sig .tc := ⟨.hbm, 127, rfl⟩
abbrev main_call1_v1 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_call2_v0 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_v158 : Ref sig .tc := ⟨.hbm, 184, rfl⟩
abbrev main_v159 : Ref sig .tc := ⟨.hbm, 185, rfl⟩
abbrev main_v160 : Ref sig .tc := ⟨.hbm, 186, rfl⟩
abbrev main_v161 : Ref sig .tc := ⟨.hbm, 187, rfl⟩
abbrev main_v162 : Ref sig .tc := ⟨.hbm, 188, rfl⟩
abbrev main_v163 : Ref sig .tc := ⟨.hbm, 189, rfl⟩
abbrev main_v164 : Ref sig .tc := ⟨.hbm, 190, rfl⟩
abbrev main_v165 : Ref sig .tc := ⟨.hbm, 191, rfl⟩
abbrev main_v166 : Ref sig .tc := ⟨.hbm, 192, rfl⟩
abbrev main_v167 : Ref sig .tc := ⟨.hbm, 193, rfl⟩
abbrev main_v168 : Ref sig .tc := ⟨.hbm, 194, rfl⟩
abbrev main_v169 : Ref sig .tc := ⟨.hbm, 195, rfl⟩
abbrev main_v170 : Ref sig .tc := ⟨.hbm, 196, rfl⟩
abbrev main_cst_16 : Ref sig .tc := ⟨.hbm, 197, rfl⟩
abbrev main_v171 : Ref sig .tc := ⟨.hbm, 198, rfl⟩
abbrev main_v172 : Ref sig .tc := ⟨.hbm, 199, rfl⟩
abbrev main_v173 : Ref sig .tc := ⟨.hbm, 200, rfl⟩
abbrev main_v174 : Ref sig .tc := ⟨.hbm, 201, rfl⟩
abbrev main_v175 : Ref sig .tc := ⟨.hbm, 202, rfl⟩
abbrev main_v176 : Ref sig .tc := ⟨.hbm, 203, rfl⟩
abbrev main_cst_17 : Ref sig .tc := ⟨.hbm, 204, rfl⟩
abbrev main_v177 : Ref sig .tc := ⟨.hbm, 205, rfl⟩
abbrev main_cst_18 : Ref sig .tc := ⟨.hbm, 206, rfl⟩
abbrev main_v178 : Ref sig .tc := ⟨.hbm, 207, rfl⟩
abbrev main_v179 : Ref sig .tc := ⟨.hbm, 208, rfl⟩
abbrev main_cst_19 : Ref sig .tc := ⟨.hbm, 209, rfl⟩
abbrev main_v180 : Ref sig .tc := ⟨.hbm, 210, rfl⟩
abbrev main_v181 : Ref sig .tc := ⟨.hbm, 211, rfl⟩
abbrev main_v182 : Ref sig .tc := ⟨.hbm, 212, rfl⟩
abbrev main_v183 : Ref sig .tc := ⟨.hbm, 213, rfl⟩
abbrev main_v184 : Ref sig .tc := ⟨.hbm, 214, rfl⟩
abbrev main_v185 : Ref sig .tc := ⟨.hbm, 215, rfl⟩
abbrev main_v186 : Ref sig .tc := ⟨.hbm, 216, rfl⟩
abbrev main_v187 : Ref sig .tc := ⟨.hbm, 217, rfl⟩
abbrev main_v188 : Ref sig .tc := ⟨.hbm, 218, rfl⟩
abbrev main_cst_20 : Ref sig .tc := ⟨.hbm, 219, rfl⟩
abbrev main_v189 : Ref sig .tc := ⟨.hbm, 220, rfl⟩
abbrev main_v190 : Ref sig .tc := ⟨.hbm, 221, rfl⟩

abbrev nD : Nat := 1
abbrev τ : Topo := Topo.v7x

variable {F : FTy → Type} [FloatOps F]

class Facts₀ : Prop where
  slices_S4096x14x14x30_S4096x14x14x5_0_0_0_0 : S4096x14x14x30.Slices ![0, 0, 0, 0] S4096x14x14x5
  slices_S4096x14x14x30_S4096x14x14x5_0_0_0_5 : S4096x14x14x30.Slices ![0, 0, 0, 5] S4096x14x14x5
  slices_S4096x14x14x30_S4096x14x14x20_0_0_0_10 : S4096x14x14x30.Slices ![0, 0, 0, 10] S4096x14x14x20
  reducesTo_S4096x14x14x20_S4096x14x14_d3 : S4096x14x14x20.ReducesTo [3] S4096x14x14
  h_S_ : 0 < S_.numel
  reducesTo_S4096x14x14_S_d0_1_2 : S4096x14x14.ReducesTo [0, 1, 2] S_
  bcast_S_S4096x14x14 : S_.BroadcastsInDim S4096x14x14 (![] : Fin 0 → Fin S4096x14x14.rank)
  slices_S4096x14x14x5_S4096x14x14x1_0_0_0_4 : S4096x14x14x5.Slices ![0, 0, 0, 4] S4096x14x14x1
  shapeCasts_S4096x14x14x1_S4096x14x14 : S4096x14x14x1.ShapeCasts S4096x14x14
  slices_S4096x14x14x5_S4096x14x14x4_0_0_0_0 : S4096x14x14x5.Slices ![0, 0, 0, 0] S4096x14x14x4
  slices_S4096x14x14x4_S4096x14x14x2_0_0_0_0 : S4096x14x14x4.Slices ![0, 0, 0, 0] S4096x14x14x2
  bcast_S_S4096x14x14x2 : S_.BroadcastsInDim S4096x14x14x2 (![] : Fin 0 → Fin S4096x14x14x2.rank)
  slices_S4096x14x14x4_S4096x14x14x2_0_0_0_2 : S4096x14x14x4.Slices ![0, 0, 0, 2] S4096x14x14x2
  concatenates_S4096x14x14x2_S4096x14x14x2_S4096x14x14x4_d3 : Shape.Concatenates [S4096x14x14x2, S4096x14x14x2] S4096x14x14x4 3
  slices_S4096x14x14x2_S4096x14x14x1_0_0_0_0 : S4096x14x14x2.Slices ![0, 0, 0, 0] S4096x14x14x1
  slices_S4096x14x14x2_S4096x14x14x1_0_0_0_1 : S4096x14x14x2.Slices ![0, 0, 0, 1] S4096x14x14x1
  slices_S4096x14x14x4_S4096x14x14x1_0_0_0_2 : S4096x14x14x4.Slices ![0, 0, 0, 2] S4096x14x14x1
  slices_S4096x14x14x4_S4096x14x14x1_0_0_0_0 : S4096x14x14x4.Slices ![0, 0, 0, 0] S4096x14x14x1
  slices_S4096x14x14x4_S4096x14x14x1_0_0_0_3 : S4096x14x14x4.Slices ![0, 0, 0, 3] S4096x14x14x1
  slices_S4096x14x14x4_S4096x14x14x1_0_0_0_1 : S4096x14x14x4.Slices ![0, 0, 0, 1] S4096x14x14x1
  bcast_S4096x14x14_S4096x14x14x1_0_1_2 : S4096x14x14.BroadcastsInDim S4096x14x14x1 (![0, 1, 2] : Fin 3 → Fin S4096x14x14x1.rank)
  bcast_S4096x14x14x1_S4096x14x14x5_0_1_2_3 : S4096x14x14x1.BroadcastsInDim S4096x14x14x5 (![0, 1, 2, 3] : Fin 4 → Fin S4096x14x14x5.rank)
  slices_S4096x14x14x5_S4096x14x14x1_0_0_0_0 : S4096x14x14x5.Slices ![0, 0, 0, 0] S4096x14x14x1
  slices_S4096x14x14x5_S4096x14x14x1_0_0_0_1 : S4096x14x14x5.Slices ![0, 0, 0, 1] S4096x14x14x1
  slices_S4096x14x14x5_S4096x14x14x1_0_0_0_2 : S4096x14x14x5.Slices ![0, 0, 0, 2] S4096x14x14x1
  slices_S4096x14x14x5_S4096x14x14x1_0_0_0_3 : S4096x14x14x5.Slices ![0, 0, 0, 3] S4096x14x14x1
  bcast_S_S1 : S_.BroadcastsInDim S1 (![] : Fin 0 → Fin S1.rank)
  concatenates_S1_S1_S1_S1_S1_S5_d0 : Shape.Concatenates [S1, S1, S1, S1, S1] S5 0
  bcast_S_S5 : S_.BroadcastsInDim S5 (![] : Fin 0 → Fin S5.rank)

variable [Facts₀]

class Facts : Prop extends Facts₀ where

variable [Facts]
-- ==== Proof.Kernel.Runs.lean ====
import proofs.«404733_j85177791414999_3_alg».proof.Proof.Gen.Kernel.Launch
import proofs.«404733_j85177791414999_3_alg».proof.Proof.Gen.Kernel.Skeleton
import proofs.«404733_j85177791414999_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) := StableHlo.after (List.flatten [hostOps0]) (fun b => m (c, b))

abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c)⟩) h

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 14 = 0 :=
  (by decide +kernel : ∀ t : Fin grid0.N, cond0_0 (grid0.coords t) ↔ t.val % 14 = 0)

abbrev VO0_4 : View sig .tc .vmem S1x8x128 .f32 := (Memref.whole cc0_stg4_0 : Memref sig .tc .vmem S1x8x128 .f32).view
abbrev ms0_0 (t : Fin cfg0.N) : Memref sig .tc .vmem S30x224x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x224x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S20x224x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S224x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x128 .f32 := win0_4.stage (cfg0.slots t 4)
abbrev hs0_4 (t : Fin cfg0.N) : (ms0_4 t).IsWhole := hstage0_4 ((cfg0.slots t 4).cast nbuf0_4)

end Cert.Kernel.Hand

end
-- ==== Proof.Kernel.RunA.lean ====
import proofs.«404733_j85177791414999_3_alg».proof.Proof.Kernel.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in

noncomputable def kernelRun0_A (c : Dev nD) (i : grid0.Coords) (arg2 : Memref sig .tc .vmem S30x224x128 .f32) (harg2 : arg2.IsWhole) (arg3 : Memref sig .tc .vmem S4x224x128 .f32) (harg3 : arg3.IsWhole) (arg4 : Memref sig .tc .vmem S20x224x128 .f32) (harg4 : arg4.IsWhole) (arg5 : Memref sig .tc .vmem S224x128 .f32) (harg5 : arg5.IsWhole) (arg6 : Memref sig .tc .vmem S1x8x128 .f32) (harg6 : arg6.IsWhole) (hc0 : cond0_0 i)
    (x0 : Vec F S30x224x128 .f32) (x1 : Vec F S4x224x128 .f32) (x2 : Vec F S20x224x128 .f32) (x3 : Vec F S224x128 .f32) :
    { L4 : List (View.Piece (Elt F) S1x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__yolo_kernel i arg2 harg2 arg3 harg3 arg4 harg4 arg5 harg5 arg6 harg6) K } := by
  refine ⟨?_, fun E K => ?run⟩
  case run =>
    simp only [cc0__yolo_kernel_eq_skeleton]; unfold cc0__yolo_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Hand

end
-- ==== Proof.Kernel.RunB.lean ====
import proofs.«404733_j85177791414999_3_alg».proof.Proof.Kernel.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in

noncomputable def kernelRun0_B (c : Dev nD) (i : grid0.Coords) (arg2 : Memref sig .tc .vmem S30x224x128 .f32) (harg2 : arg2.IsWhole) (arg3 : Memref sig .tc .vmem S4x224x128 .f32) (harg3 : arg3.IsWhole) (arg4 : Memref sig .tc .vmem S20x224x128 .f32) (harg4 : arg4.IsWhole) (arg5 : Memref sig .tc .vmem S224x128 .f32) (harg5 : arg5.IsWhole) (arg6 : Memref sig .tc .vmem S1x8x128 .f32) (harg6 : arg6.IsWhole) (hc0 : ¬cond0_0 i)
    (x0 : Vec F S30x224x128 .f32) (x1 : Vec F S4x224x128 .f32) (x2 : Vec F S20x224x128 .f32) (x3 : Vec F S224x128 .f32) (xo4 : Vec F S1x8x128 .f32) :
    { L4 : List (View.Piece (Elt F) S1x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__yolo_kernel i arg2 harg2 arg3 harg3 arg4 harg4 arg5 harg5 arg6 harg6) K } := by
  refine ⟨?_, fun E K => ?run⟩
  case run =>
    simp only [cc0__yolo_kernel_eq_skeleton]; unfold cc0__yolo_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Hand

end
-- ==== Proof.Kernel.Frame.lean ====
import proofs.«404733_j85177791414999_3_alg».proof.Proof.Kernel.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cover0_A_4 (c : Dev nD) (i : grid0.Coords) (arg2 : Memref sig .tc .vmem S30x224x128 .f32) (harg2 : arg2.IsWhole) (arg3 : Memref sig .tc .vmem S4x224x128 .f32) (harg3 : arg3.IsWhole) (arg4 : Memref sig .tc .vmem S20x224x128 .f32) (harg4 : arg4.IsWhole) (arg5 : Memref sig .tc .vmem S224x128 .f32) (harg5 : arg5.IsWhole) (arg6 : Memref sig .tc .vmem S1x8x128 .f32) (harg6 : arg6.IsWhole) (hc0 : cond0_0 i)
    (x0 : Vec F S30x224x128 .f32) (x1 : Vec F S4x224x128 .f32) (x2 : Vec F S20x224x128 .f32) (x3 : Vec F S224x128 .f32) (y : S1x8x128.Idx) :
    ∃ pc ∈ (kernelRun0_A c i arg2 harg2 arg3 harg3 arg4 harg4 arg5 harg5 arg6 harg6 hc0 x0 x1 x2 x3).1, y ∈ pc.1.set :=
  View.cover_of_tiledL (kernelRun0_A c i arg2 harg2 arg3 harg3 arg4 harg4 arg5 harg5 arg6 harg6 hc0 x0 x1 x2 x3).1 S1x8x128.size (by sl_kernel_rfl) y

def out0_A_4 (c : Dev nD) (i : grid0.Coords) (arg2 : Memref sig .tc .vmem S30x224x128 .f32) (harg2 : arg2.IsWhole) (arg3 : Memref sig .tc .vmem S4x224x128 .f32) (harg3 : arg3.IsWhole) (arg4 : Memref sig .tc .vmem S20x224x128 .f32) (harg4 : arg4.IsWhole) (arg5 : Memref sig .tc .vmem S224x128 .f32) (harg5 : arg5.IsWhole) (arg6 : Memref sig .tc .vmem S1x8x128 .f32) (harg6 : arg6.IsWhole) (hc0 : cond0_0 i)
    (x0 : Vec F S30x224x128 .f32) (x1 : Vec F S4x224x128 .f32) (x2 : Vec F S20x224x128 .f32) (x3 : Vec F S224x128 .f32) : Vec F S1x8x128 .f32 :=
  VO0_4.read (Elt F) (VO0_4.writes (Elt F) VO0_4.junk (kernelRun0_A c i arg2 harg2 arg3 harg3 arg4 harg4 arg5 harg5 arg6 harg6 hc0 x0 x1 x2 x3).1)

theorem cover0_B_4 (c : Dev nD) (i : grid0.Coords) (arg2 : Memref sig .tc .vmem S30x224x128 .f32) (harg2 : arg2.IsWhole) (arg3 : Memref sig .tc .vmem S4x224x128 .f32) (harg3 : arg3.IsWhole) (arg4 : Memref sig .tc .vmem S20x224x128 .f32) (harg4 : arg4.IsWhole) (arg5 : Memref sig .tc .vmem S224x128 .f32) (harg5 : arg5.IsWhole) (arg6 : Memref sig .tc .vmem S1x8x128 .f32) (harg6 : arg6.IsWhole) (hc0 : ¬cond0_0 i)
    (x0 : Vec F S30x224x128 .f32) (x1 : Vec F S4x224x128 .f32) (x2 : Vec F S20x224x128 .f32) (x3 : Vec F S224x128 .f32) (xo4 : Vec F S1x8x128 .f32) (y : S1x8x128.Idx) :
    ∃ pc ∈ (kernelRun0_B c i arg2 harg2 arg3 harg3 arg4 harg4 arg5 harg5 arg6 harg6 hc0 x0 x1 x2 x3 xo4).1, y ∈ pc.1.set :=
  View.cover_of_tiledL (kernelRun0_B c i arg2 harg2 arg3 harg3 arg4 harg4 arg5 harg5 arg6 harg6 hc0 x0 x1 x2 x3 xo4).1 S1x8x128.size (by sl_kernel_rfl) y

def out0_B_4 (c : Dev nD) (i : grid0.Coords) (arg2 : Memref sig .tc .vmem S30x224x128 .f32) (harg2 : arg2.IsWhole) (arg3 : Memref sig .tc .vmem S4x224x128 .f32) (harg3 : arg3.IsWhole) (arg4 : Memref sig .tc .vmem S20x224x128 .f32) (harg4 : arg4.IsWhole) (arg5 : Memref sig .tc .vmem S224x128 .f32) (harg5 : arg5.IsWhole) (arg6 : Memref sig .tc .vmem S1x8x128 .f32) (harg6 : arg6.IsWhole) (hc0 : ¬cond0_0 i)
    (x0 : Vec F S30x224x128 .f32) (x1 : Vec F S4x224x128 .f32) (x2 : Vec F S20x224x128 .f32) (x3 : Vec F S224x128 .f32) (xo4 : Vec F S1x8x128 .f32) : Vec F S1x8x128 .f32 :=
  VO0_4.read (Elt F) (VO0_4.writes (Elt F) VO0_4.junk (kernelRun0_B c i arg2 harg2 arg3 harg3 arg4 harg4 arg5 harg5 arg6 harg6 hc0 x0 x1 x2 x3 xo4).1)

def outsAt0 (c : Dev nD) : (n : ℕ) → n < cfg0.N → Vec F S1x8x128 .f32
  | 0, hn => out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩)
  | n + 1, hn =>
    if h0 : (n + 1) % 14 = 0 then
      out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩)
    else
      out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn))

theorem outsAt0_A (c : Dev nD) (t : Fin cfg0.N) (h0 : t.val % 14 = 0) :
    outsAt0 m c t.val t.isLt = out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t) (iblk m c 3 t) := by
  obtain ⟨n, hn⟩ := t
  cases n with
  | zero => exact rfl
  | succ n => exact (dif_pos h0).trans rfl

theorem outsAt0_B (c : Dev nD) (t : Fin cfg0.N) (h0 : ¬t.val % 14 = 0) :
    outsAt0 m c t.val t.isLt = out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t) (iblk m c 3 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

theorem before0_4_B (c : Dev nD) (t : Fin cfg0.N) (h0 : ¬t.val % 14 = 0) (d) :
    (dats m 0 c).before 4 t d = (outsAt0 m c (t.val - 1) (Nat.lt_of_le_of_lt (Nat.sub_le _ _) t.isLt)) := by
  have hN : t.val < 28 := lt_of_lt_of_eq t.isLt (show cfg0.N = 28 from N_0)
  rw [Dat.before_out_kept _ 4 rfl t (by omega) (Bool.eq_false_iff.mpr fun h => by have := (flush0_4 _).mp h; dsimp only at this; omega)
    (fun _ => rfl) (fun _ _ => rfl)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  have hN : t.val < 28 := lt_of_lt_of_eq t.isLt (show cfg0.N = 28 from N_0)
  by_cases h0 : t.val % 14 = 0
  · rw [outsAt0_A m c t h0]
    unfold out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A_4 c _ _ _ _ _ _ _ _ _ _ _ _ _ _ _ _)
  · rw [outsAt0_B m c t h0]
    simp only [before0_4_B m c t h0]
    unfold out0_B_4
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

set_option backward.isDefEq.respectTransparency.types false in

theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Hand

end
-- ==== Proof.KernelIdeal.Runs.lean ====
import proofs.«404733_j85177791414999_3_alg».proof.Proof.Gen.KernelIdeal.Launch
import proofs.«404733_j85177791414999_3_alg».proof.Proof.Gen.KernelIdeal.Skeleton
import proofs.«404733_j85177791414999_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) := StableHlo.after (List.flatten [hostOps0]) (fun b => m (c, b))

abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c)⟩) h

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 14 = 0 :=
  (by decide +kernel : ∀ t : Fin grid0.N, cond0_0 (grid0.coords t) ↔ t.val % 14 = 0)

abbrev VO0_4 : View sig .tc .vmem S1x8x128 .f32 := (Memref.whole cc0_stg4_0 : Memref sig .tc .vmem S1x8x128 .f32).view
abbrev ms0_0 (t : Fin cfg0.N) : Memref sig .tc .vmem S30x224x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x224x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S20x224x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S224x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x128 .f32 := win0_4.stage (cfg0.slots t 4)
abbrev hs0_4 (t : Fin cfg0.N) : (ms0_4 t).IsWhole := hstage0_4 ((cfg0.slots t 4).cast nbuf0_4)

end Cert.KernelIdeal.Hand

end
-- ==== Proof.KernelIdeal.RunA.lean ====
import proofs.«404733_j85177791414999_3_alg».proof.Proof.KernelIdeal.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in

noncomputable def kernelRun0_A (c : Dev nD) (i : grid0.Coords) (arg2 : Memref sig .tc .vmem S30x224x128 .f32) (harg2 : arg2.IsWhole) (arg3 : Memref sig .tc .vmem S4x224x128 .f32) (harg3 : arg3.IsWhole) (arg4 : Memref sig .tc .vmem S20x224x128 .f32) (harg4 : arg4.IsWhole) (arg5 : Memref sig .tc .vmem S224x128 .f32) (harg5 : arg5.IsWhole) (arg6 : Memref sig .tc .vmem S1x8x128 .f32) (harg6 : arg6.IsWhole) (hc0 : cond0_0 i)
    (x0 : Vec F S30x224x128 .f32) (x1 : Vec F S4x224x128 .f32) (x2 : Vec F S20x224x128 .f32) (x3 : Vec F S224x128 .f32) :
    { L4 : List (View.Piece (Elt F) S1x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__yolo_kernel i arg2 harg2 arg3 harg3 arg4 harg4 arg5 harg5 arg6 harg6) K } := by
  refine ⟨?_, fun E K => ?run⟩
  case run =>
    simp only [cc0__yolo_kernel_eq_skeleton]; unfold cc0__yolo_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Hand

end
-- ==== Proof.KernelIdeal.RunB.lean ====
import proofs.«404733_j85177791414999_3_alg».proof.Proof.KernelIdeal.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in

noncomputable def kernelRun0_B (c : Dev nD) (i : grid0.Coords) (arg2 : Memref sig .tc .vmem S30x224x128 .f32) (harg2 : arg2.IsWhole) (arg3 : Memref sig .tc .vmem S4x224x128 .f32) (harg3 : arg3.IsWhole) (arg4 : Memref sig .tc .vmem S20x224x128 .f32) (harg4 : arg4.IsWhole) (arg5 : Memref sig .tc .vmem S224x128 .f32) (harg5 : arg5.IsWhole) (arg6 : Memref sig .tc .vmem S1x8x128 .f32) (harg6 : arg6.IsWhole) (hc0 : ¬cond0_0 i)
    (x0 : Vec F S30x224x128 .f32) (x1 : Vec F S4x224x128 .f32) (x2 : Vec F S20x224x128 .f32) (x3 : Vec F S224x128 .f32) (xo4 : Vec F S1x8x128 .f32) :
    { L4 : List (View.Piece (Elt F) S1x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__yolo_kernel i arg2 harg2 arg3 harg3 arg4 harg4 arg5 harg5 arg6 harg6) K } := by
  refine ⟨?_, fun E K => ?run⟩
  case run =>
    simp only [cc0__yolo_kernel_eq_skeleton]; unfold cc0__yolo_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Hand

end
-- ==== Proof.KernelIdeal.Frame.lean ====
import proofs.«404733_j85177791414999_3_alg».proof.Proof.KernelIdeal.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem cover0_A_4 (c : Dev nD) (i : grid0.Coords) (arg2 : Memref sig .tc .vmem S30x224x128 .f32) (harg2 : arg2.IsWhole) (arg3 : Memref sig .tc .vmem S4x224x128 .f32) (harg3 : arg3.IsWhole) (arg4 : Memref sig .tc .vmem S20x224x128 .f32) (harg4 : arg4.IsWhole) (arg5 : Memref sig .tc .vmem S224x128 .f32) (harg5 : arg5.IsWhole) (arg6 : Memref sig .tc .vmem S1x8x128 .f32) (harg6 : arg6.IsWhole) (hc0 : cond0_0 i)
    (x0 : Vec F S30x224x128 .f32) (x1 : Vec F S4x224x128 .f32) (x2 : Vec F S20x224x128 .f32) (x3 : Vec F S224x128 .f32) (y : S1x8x128.Idx) :
    ∃ pc ∈ (kernelRun0_A c i arg2 harg2 arg3 harg3 arg4 harg4 arg5 harg5 arg6 harg6 hc0 x0 x1 x2 x3).1, y ∈ pc.1.set :=
  View.cover_of_tiledL (kernelRun0_A c i arg2 harg2 arg3 harg3 arg4 harg4 arg5 harg5 arg6 harg6 hc0 x0 x1 x2 x3).1 S1x8x128.size (by sl_kernel_rfl) y

def out0_A_4 (c : Dev nD) (i : grid0.Coords) (arg2 : Memref sig .tc .vmem S30x224x128 .f32) (harg2 : arg2.IsWhole) (arg3 : Memref sig .tc .vmem S4x224x128 .f32) (harg3 : arg3.IsWhole) (arg4 : Memref sig .tc .vmem S20x224x128 .f32) (harg4 : arg4.IsWhole) (arg5 : Memref sig .tc .vmem S224x128 .f32) (harg5 : arg5.IsWhole) (arg6 : Memref sig .tc .vmem S1x8x128 .f32) (harg6 : arg6.IsWhole) (hc0 : cond0_0 i)
    (x0 : Vec F S30x224x128 .f32) (x1 : Vec F S4x224x128 .f32) (x2 : Vec F S20x224x128 .f32) (x3 : Vec F S224x128 .f32) : Vec F S1x8x128 .f32 :=
  VO0_4.read (Elt F) (VO0_4.writes (Elt F) VO0_4.junk (kernelRun0_A c i arg2 harg2 arg3 harg3 arg4 harg4 arg5 harg5 arg6 harg6 hc0 x0 x1 x2 x3).1)

theorem cover0_B_4 (c : Dev nD) (i : grid0.Coords) (arg2 : Memref sig .tc .vmem S30x224x128 .f32) (harg2 : arg2.IsWhole) (arg3 : Memref sig .tc .vmem S4x224x128 .f32) (harg3 : arg3.IsWhole) (arg4 : Memref sig .tc .vmem S20x224x128 .f32) (harg4 : arg4.IsWhole) (arg5 : Memref sig .tc .vmem S224x128 .f32) (harg5 : arg5.IsWhole) (arg6 : Memref sig .tc .vmem S1x8x128 .f32) (harg6 : arg6.IsWhole) (hc0 : ¬cond0_0 i)
    (x0 : Vec F S30x224x128 .f32) (x1 : Vec F S4x224x128 .f32) (x2 : Vec F S20x224x128 .f32) (x3 : Vec F S224x128 .f32) (xo4 : Vec F S1x8x128 .f32) (y : S1x8x128.Idx) :
    ∃ pc ∈ (kernelRun0_B c i arg2 harg2 arg3 harg3 arg4 harg4 arg5 harg5 arg6 harg6 hc0 x0 x1 x2 x3 xo4).1, y ∈ pc.1.set :=
  View.cover_of_tiledL (kernelRun0_B c i arg2 harg2 arg3 harg3 arg4 harg4 arg5 harg5 arg6 harg6 hc0 x0 x1 x2 x3 xo4).1 S1x8x128.size (by sl_kernel_rfl) y

def out0_B_4 (c : Dev nD) (i : grid0.Coords) (arg2 : Memref sig .tc .vmem S30x224x128 .f32) (harg2 : arg2.IsWhole) (arg3 : Memref sig .tc .vmem S4x224x128 .f32) (harg3 : arg3.IsWhole) (arg4 : Memref sig .tc .vmem S20x224x128 .f32) (harg4 : arg4.IsWhole) (arg5 : Memref sig .tc .vmem S224x128 .f32) (harg5 : arg5.IsWhole) (arg6 : Memref sig .tc .vmem S1x8x128 .f32) (harg6 : arg6.IsWhole) (hc0 : ¬cond0_0 i)
    (x0 : Vec F S30x224x128 .f32) (x1 : Vec F S4x224x128 .f32) (x2 : Vec F S20x224x128 .f32) (x3 : Vec F S224x128 .f32) (xo4 : Vec F S1x8x128 .f32) : Vec F S1x8x128 .f32 :=
  VO0_4.read (Elt F) (VO0_4.writes (Elt F) VO0_4.junk (kernelRun0_B c i arg2 harg2 arg3 harg3 arg4 harg4 arg5 harg5 arg6 harg6 hc0 x0 x1 x2 x3 xo4).1)

def outsAt0 (c : Dev nD) : (n : ℕ) → n < cfg0.N → Vec F S1x8x128 .f32
  | 0, hn => out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩)
  | n + 1, hn =>
    if h0 : (n + 1) % 14 = 0 then
      out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩)
    else
      out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn))

theorem outsAt0_A (c : Dev nD) (t : Fin cfg0.N) (h0 : t.val % 14 = 0) :
    outsAt0 m c t.val t.isLt = out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t) (iblk m c 3 t) := by
  obtain ⟨n, hn⟩ := t
  cases n with
  | zero => exact rfl
  | succ n => exact (dif_pos h0).trans rfl

theorem outsAt0_B (c : Dev nD) (t : Fin cfg0.N) (h0 : ¬t.val % 14 = 0) :
    outsAt0 m c t.val t.isLt = out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t) (iblk m c 3 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

theorem before0_4_B (c : Dev nD) (t : Fin cfg0.N) (h0 : ¬t.val % 14 = 0) (d) :
    (dats m 0 c).before 4 t d = (outsAt0 m c (t.val - 1) (Nat.lt_of_le_of_lt (Nat.sub_le _ _) t.isLt)) := by
  have hN : t.val < 28 := lt_of_lt_of_eq t.isLt (show cfg0.N = 28 from N_0)
  rw [Dat.before_out_kept _ 4 rfl t (by omega) (Bool.eq_false_iff.mpr fun h => by have := (flush0_4 _).mp h; dsimp only at this; omega)
    (fun _ => rfl) (fun _ _ => rfl)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  have hN : t.val < 28 := lt_of_lt_of_eq t.isLt (show cfg0.N = 28 from N_0)
  by_cases h0 : t.val % 14 = 0
  · rw [outsAt0_A m c t h0]
    unfold out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A_4 c _ _ _ _ _ _ _ _ _ _ _ _ _ _ _ _)
  · rw [outsAt0_B m c t h0]
    simp only [before0_4_B m c t h0]
    unfold out0_B_4
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

set_option backward.isDefEq.respectTransparency.types false in

theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Hand

end
-- ==== Proof.Cell.lean ====
import Idealize.ShloMosaic.PureOps.Ideal
import Idealize.ShloMosaic.PureOps.Ideal.Laws
import Idealize.ShloMosaic.Lib.ValueIdx

noncomputable section

namespace Cert.Yolo

open Idealize.ShloMosaic

abbrev half : EReal := Ideal.ofBits .f32 0x3F000000#32

abbrev one : EReal := Ideal.ofBits .f32 0x3F800000#32

abbrev inv14 : EReal := ((1 / 14 : ℝ) : EReal)

def lo (x w : EReal) : EReal := x * inv14 - half * w

def hi (x w : EReal) : EReal := x * inv14 + half * w

def iou (ax ay aw ah bx by' bw bh : EReal) : EReal :=
  let w := max (min (hi ax aw) (hi bx bw) - max (lo ax aw) (lo bx bw)) 0
  let h := max (min (hi ay ah) (hi by' bh) - max (lo ay ah) (lo by' bh)) 0
  let inter := w * h
  let areaA := (hi ax aw - lo ax aw) * (hi ay ah - lo ay ah)
  let areaB := (hi bx bw - lo bx bw) * (hi by' bh - lo by' bh)
  Ideal.div inter (areaA + areaB - inter)

abbrev ch10 (c : Fin 20) : Fin 30 := ⟨10 + c.val, by omega⟩

def iou1 (p : Fin 30 → EReal) (tb : Fin 4 → EReal) : EReal := iou (p 0) (p 1) (p 2) (p 3) (tb 0) (tb 1) (tb 2) (tb 3)

def iou2 (p : Fin 30 → EReal) (tb : Fin 4 → EReal) : EReal := iou (p 5) (p 6) (p 7) (p 8) (tb 0) (tb 1) (tb 2) (tb 3)

def sel (p : Fin 30 → EReal) (tb : Fin 4 → EReal) : BitVec 1 := Ideal.cmp .oge (iou1 p tb) (iou2 p tb)

def best (p : Fin 30 → EReal) (tb : Fin 4 → EReal) (k : Fin 5) : EReal :=
  Scalar.select (sel p tb) (p ⟨k.val, by omega⟩) (p ⟨5 + k.val, by omega⟩)

def bestIou (p : Fin 30 → EReal) (tb : Fin 4 → EReal) : EReal := Scalar.select (sel p tb) (iou1 p tb) (iou2 p tb)

def clsCell (p : Fin 30 → EReal) (q : Fin 20 → EReal) (μ : EReal) : EReal :=
  μ * (0 + ∑ c : Fin 20, (p (ch10 c) - q c) * (p (ch10 c) - q c))

def no1Cell (p : Fin 30 → EReal) (μ : EReal) : EReal := ((one - μ) * p 4) * ((one - μ) * p 4)

def no2Cell (p : Fin 30 → EReal) (μ : EReal) : EReal := ((one - μ) * p 9) * ((one - μ) * p 9)

def regCell (p : Fin 30 → EReal) (tb : Fin 4 → EReal) (μ : EReal) : EReal :=
  μ * ((((best p tb 0 - tb 0) * (best p tb 0 - tb 0) + (best p tb 1 - tb 1) * (best p tb 1 - tb 1))
      + (Ideal.sqrt (best p tb 2) - Ideal.sqrt (tb 2)) * (Ideal.sqrt (best p tb 2) - Ideal.sqrt (tb 2)))
      + (Ideal.sqrt (best p tb 3) - Ideal.sqrt (tb 3)) * (Ideal.sqrt (best p tb 3) - Ideal.sqrt (tb 3)))

def objCell (p : Fin 30 → EReal) (tb : Fin 4 → EReal) (μ : EReal) : EReal :=
  μ * ((best p tb 4 - bestIou p tb) * (best p tb 4 - bestIou p tb))

def result (tc tn tr to' : EReal) (i : Fin 5) : EReal :=
  Ideal.div
    (match i with
      | 0 => ((tc + half * tn) + Ideal.ofBits .f32 0x40A00000#32 * tr) + to'
      | 1 => tr
      | 2 => to'
      | 3 => tn
      | 4 => tc)
    (Ideal.ofBits .f32 0x45800000#32)

abbrev CellIdx : Type := (⟨3, ![4096, 14, 14]⟩ : Shape).Idx

variable (P : CellIdx → Fin 30 → EReal) (TB : CellIdx → Fin 4 → EReal) (Q : CellIdx → Fin 20 → EReal) (M : CellIdx → EReal)

def totCls : EReal := 0 + ∑ i : CellIdx, clsCell (P i) (Q i) (M i)

def totNo : EReal := (0 + ∑ i : CellIdx, no1Cell (P i) (M i)) + (0 + ∑ i : CellIdx, no2Cell (P i) (M i))

def totReg : EReal := 0 + ∑ i : CellIdx, regCell (P i) (TB i) (M i)

def totObj : EReal := 0 + ∑ i : CellIdx, objCell (P i) (TB i) (M i)

def loss (i : Fin 5) : EReal := result (totCls P Q M) (totNo P M) (totReg P TB M) (totObj P TB M) i

def argP (a0 : (⟨4, ![4096, 14, 14, 30]⟩ : Shape).Idx → EReal) (i : CellIdx) (ch : Fin 30) : EReal :=
  a0 (ValueIdx.ix4 (i 0) (i 1) (i 2) ch)

def argTB (a1 : (⟨4, ![4096, 14, 14, 4]⟩ : Shape).Idx → EReal) (i : CellIdx) (ch : Fin 4) : EReal :=
  a1 (ValueIdx.ix4 (i 0) (i 1) (i 2) ch)

def argQ (a2 : (⟨4, ![4096, 14, 14, 20]⟩ : Shape).Idx → EReal) (i : CellIdx) (ch : Fin 20) : EReal :=
  a2 (ValueIdx.ix4 (i 0) (i 1) (i 2) ch)

def argM (a3 : (⟨3, ![4096, 14, 14]⟩ : Shape).Idx → BitVec 1) (i : CellIdx) : EReal :=
  (((a3 i).toNat : ℝ) : EReal)

def flatAt (t : Fin 28) (r : Fin 224) (l : Fin 128) : ℕ := (t.val * 224 + r.val) * 128 + l.val

theorem flatAt_lt (t : Fin 28) (r : Fin 224) (l : Fin 128) : flatAt t r l < 802816 := by
  unfold flatAt; omega

def cellAt (t : Fin 28) (r : Fin 224) (l : Fin 128) : CellIdx :=
  ValueIdx.ix3 (⟨flatAt t r l / 196, by have := flatAt_lt t r l; omega⟩ : Fin 4096)
    (⟨flatAt t r l / 14 % 14, Nat.mod_lt _ (by decide)⟩ : Fin 14) (⟨flatAt t r l % 14, Nat.mod_lt _ (by decide)⟩ : Fin 14)

end Cert.Yolo

end
-- ==== Proof.BlockSum.lean ====
import proofs.«404733_j85177791414999_3_alg».proof.Proof.Gen.KernelIdeal.Skeleton
import proofs.«404733_j85177791414999_3_alg».proof.Proof.Cell
import Idealize.ShloMosaic.Lib.ValueIdx
import Idealize.ShloMosaic.Lib.Pipeline.Value
import Idealize.ShloMosaic.Lib.ValueLayout
import Idealize.ShloMosaic.PureOps.Ideal.Laws
import Mathlib.Algebra.BigOperators.Fin

noncomputable section

namespace Cert.KernelIdeal.Blk

open Cert.KernelIdeal Cert.KernelIdeal.Gen Idealize.ShloMosaic Idealize.ShloMosaic.ValueIdx

section Generic
variable {F : FTy → Type} [FloatOps F] [Named F]

def patchOf (ldP : Fin 30 → Vec F S1x224x128 .f32) (ldB : Fin 4 → Vec F S1x224x128 .f32)
    (ldC : Fin 20 → Vec F S1x224x128 .f32) (mk : Vec F S224x128 .f32) (old : Vec F S1x8x128 .f32) :
    FVec F S1x8x128 .f32 :=
  have v4 : FVec F S224x128 .f32 := k0_pay2 mk
  have v6 : FVec F S224x128 .f32 := k0_pay3 mk
  have v28 : FVec F S224x128 .f32 := k0_pay4 (ldP 10) (ldC 0) (ldP 11) (ldC 1) (ldP 12) (ldC 2)
  have v56 : FVec F S224x128 .f32 := k0_pay5 v28 (ldP 13) (ldC 3) (ldP 14) (ldC 4) (ldP 15) (ldC 5) (ldP 16) (ldC 6)
  have v62 : FVec F S224x128 .f32 := k0_pay6 (ldP 17) (ldC 7)
  have v91 : FVec F S224x128 .f32 :=
    k0_pay7 v56 v62 (ldP 18) (ldC 8) (ldP 19) (ldC 9) (ldP 20) (ldC 10) (ldP 21) (ldC 11)
  have v93 : FVec F S224x128 .f32 := k0_pay8 (ldP 22)
  have v126 : FVec F S224x128 .f32 :=
    k0_pay9 v91 v93 (ldC 12) (ldP 23) (ldC 13) (ldP 24) (ldC 14) (ldP 25) (ldC 15) (ldP 26) (ldC 16)
  have v153 : FVec F S1 .f32 := k0_pay10 v4 v126 (ldP 27) (ldC 17) (ldP 28) (ldC 18) (ldP 29) (ldC 19)
  have v155 : FVec F S224x128 .f32 := k0_pay11 (ldP 4)
  have v157 : FVec F S224x128 .f32 := k0_pay12 (ldP 9)
  have v159 : FVec F S224x128 .f32 := k0_pay13 v6 (ldP 9)
  have v161 : FVec F S224 .f32 := k0_pay14 v6 (ldP 4)
  have v172 : FVec F S1 .f32 := k0_pay15 v159 v161
  have v174 : FVec F S224x128 .f32 := k0_pay16 (ldP 0)
  have v176 : FVec F S224x128 .f32 := k0_pay17 (ldP 1)
  have v178 : FVec F S224x128 .f32 := k0_pay18 (ldP 2)
  have v180 : FVec F S224x128 .f32 := k0_pay19 (ldP 3)
  have v182 : FVec F S224x128 .f32 := k0_pay20 (ldP 5)
  have v184 : FVec F S224x128 .f32 := k0_pay21 (ldP 6)
  have v186 : FVec F S224x128 .f32 := k0_pay22 (ldP 7)
  have v188 : FVec F S224x128 .f32 := k0_pay23 (ldP 8)
  have v190 : FVec F S224x128 .f32 := k0_pay24 (ldB 0)
  have v192 : FVec F S224x128 .f32 := k0_pay25 (ldB 1)
  have v194 : FVec F S224x128 .f32 := k0_pay26 (ldB 2)
  have v196 : FVec F S224x128 .f32 := k0_pay27 (ldB 3)
  have v203 : FVec F S224x128 .f32 := k0_pay30 v174 v178
  have v206 : FVec F S224x128 .f32 := k0_pay31 v176 v180
  have v209 : FVec F S224x128 .f32 := k0_pay32 v174 v178
  have v212 : FVec F S224x128 .f32 := k0_pay33 v176 v180
  have v219 : FVec F S224x128 .f32 := k0_pay36 v182 v186
  have v222 : FVec F S224x128 .f32 := k0_pay37 v184 v188
  have v225 : FVec F S224x128 .f32 := k0_pay38 v182 v186
  have v228 : FVec F S224x128 .f32 := k0_pay39 v184 v188
  have v229 : FVec F S224x128 .f32 := k0_pay40 (F := F)
  have v264 : FVec F S224x128 .f32 := k0_pay47 v190 v192 v194 v196 v203 v206 v209 v212 v229
  have v275 : FVec F S224x128 .f32 := k0_pay48 v190 v192 v194 v196 v219 v222 v225 v228 v229
  have v278 : FVec F S224x128 .f32 := k0_pay49 v219 v222 v225 v228
  have v279 : FVec F S224x128 .f32 := k0_pay50 v190 v194 v229
  have v280 : FVec F S224x128 .f32 := k0_pay51 v192 v196
  k0_pay52 v4 v153 v155 v157 v172 v174 v176 v178 v180 v182 v184 v186 v188 v190 v192 v194 v196 v264 v275 v278 v279
    v280 old

end Generic

theorem inv14_eq : Named.named (F := Ideal) κ "inv_14" (φ := .f32) 0x3D924925#32 = ((1 / 14 : ℝ) : EReal) :=
  IdealRules.named_const.ideal_named_scalar _ _ _ _ rfl

theorem sqrt_at {s : Shape} {φ : FTy} (a : FVec Ideal s φ) (i : s.Idx) :
    Idealize.ShloMosaic.sqrt a i = Ideal.sqrt (a i) := rfl

theorem cmpf_at {s : Shape} {φ : FTy} (p : CmpFPredicate) (a b : FVec Ideal s φ) (i : s.Idx) :
    cmpf p a b i = Ideal.cmp p (a i) (b i) := rfl

theorem slab_at (v : Vec Ideal S1x224x128 .f32) (h : S1x224x128.ShapeCasts S224x128) (r : Fin 224) (l : Fin 128) :
    shapeCast S224x128 v h (ix2 r l) = v (ix3 (0 : Fin 1) r l) :=
  shapeCast_1ab_ab_apply v h r l

theorem col_at {α : Type} (x : S224.Idx → α) (h : S224.ShapeCasts S224x1) (r : Fin 224) (u : Fin 1) :
    shapeCast S224x1 x h (ix2 r u) = x (ix1 r) :=
  shapeCast_apply x h _ _ (by
    have hu : u.val = 0 := by omega
    rw [Shape.rowMajor_val_one, Shape.rowMajor_val_two]
    show r.val = r.val * 1 + u.val
    omega)

theorem redAll_at (X : FVec Ideal S224x128 .f32) (h1 : S224x128.Reduces [1] S224) (hφ1 : FKind.Formats .f32)
    (hacc1 : (0x00000000#32 : BitVec 32) = FKind.add.neutral .f32 hφ1) (c1 : S224.ShapeCasts S224x1)
    (h2 : S224x1.Reduces [0] S1) (hφ2 : FKind.Formats .f32)
    (hacc2 : (0x00000000#32 : BitVec 32) = FKind.add.neutral .f32 hφ2) (c2 : S1.ShapeCasts S1x1)
    (c3 : S1x1.ShapeCasts S1) :
    shapeCast S1 (shapeCast S1x1 (multiReduction .add [0] S1
        (shapeCast S224x1 (multiReduction .add [1] S224 X 0x00000000#32 h1 hφ1 hacc1) c1)
        0x00000000#32 h2 hφ2 hacc2) c2) c3 (ix1 (0 : Fin 1))
      = ∑ r : Fin 224, ∑ l : Fin 128, X (ix2 r l) := by
  rw [shapeCast_1a_a_apply, shapeCast_a_1a_apply, Ideal.multiReduction_add_single]
  show ∑ r : Fin 224, _ = _
  refine Finset.sum_congr rfl fun r _ => ?_
  have e : h2.lift (ix1 (0 : Fin 1)) r = ix2 r (0 : Fin 1) := by
    funext a
    match a with
    | ⟨0, _⟩ => exact Fin.ext rfl
    | ⟨1, _⟩ => exact Fin.ext rfl
  rw [e, col_at, Ideal.multiReduction_add_single]
  show ∑ l : Fin 128, _ = _
  refine Finset.sum_congr rfl fun l _ => ?_
  have e' : h1.lift (ix1 r) l = ix2 r l := by
    funext a
    match a with
    | ⟨0, _⟩ => exact Fin.ext rfl
    | ⟨1, _⟩ => exact Fin.ext rfl
  rw [e']

theorem sum20 (f : Fin 20 → EReal) :
    ∑ c : Fin 20, f c = (((((((((((((((((((0 + f 0) + f 1) + f 2) + f 3) + f 4) + f 5) + f 6) + f 7) + f 8) + f 9)
      + f 10) + f 11) + f 12) + f 13) + f 14) + f 15) + f 16) + f 17) + f 18) + f 19 := by
  simp only [Fin.sum_univ_castSucc, Fin.sum_univ_zero]
  rfl

theorem tail_at (a b c d : FVec Ideal S1 .f32) (old : Vec Ideal S1x8x128 .f32) (z1 : FVec Ideal S124 .f32)
    (z2 : FVec Ideal S7x128 .f32) (h4 : Shape.Concatenates [S1, S1, S1, S1] S4 0)
    (h128 : Shape.Concatenates [S4, S124] S128 0) (c1 : S128.ShapeCasts S1x128)
    (h8 : Shape.Concatenates [S1x128, S7x128] S8x128 0) (c2 : S8x128.ShapeCasts S1x8x128)
    (c3 : S1x8x128.ShapeCasts S1x8x128) (k : Fin 4) :
    addf (shapeCast S1x8x128 old c3)
      (shapeCast S1x8x128 (concatenate S8x128 0 [⟨S1x128, shapeCast S1x128 (concatenate S128 0
        [⟨S4, concatenate S4 0 [⟨S1, a⟩, ⟨S1, b⟩, ⟨S1, c⟩, ⟨S1, d⟩] h4⟩, ⟨S124, z1⟩] h128) c1⟩, ⟨S7x128, z2⟩] h8) c2)
      (ix3 (0 : Fin 1) (0 : Fin 8) (⟨k.val, by omega⟩ : Fin 128))
    = old (ix3 (0 : Fin 1) (0 : Fin 8) (⟨k.val, by omega⟩ : Fin 128)) + (![a, b, c, d] k) (ix1 (0 : Fin 1)) := by
  rw [addf_apply, shapeCast_self, shapeCast_ab_1ab_apply]
  rw [concatenate_pair_apply_left (t := S8x128) (s₁ := S1x128) (s₂ := S7x128) (0 : Fin 2) _ _ h8 _ rfl
    (ix2 (0 : Fin 1) (⟨k.val, by omega⟩ : Fin 128)) (fun b => match b with | ⟨0, _⟩ => rfl | ⟨1, _⟩ => rfl)]
  rw [shapeCast_a_1a_apply]
  rw [concatenate_pair_apply_left (t := S128) (s₁ := S4) (s₂ := S124) (0 : Fin 1) _ _ h128 _ rfl
    (ix1 k) (fun b => match b with | ⟨0, _⟩ => rfl)]
  refine congrArg _ ?_
  match k with
  | ⟨0, _⟩ =>
    exact concatenate_apply_piece (t := S4) (0 : Fin 1) [⟨S1, a⟩, ⟨S1, b⟩, ⟨S1, c⟩, ⟨S1, d⟩] h4 _ 0 (by simp) S1 a rfl rfl 0 rfl (ix1 (0 : Fin 1))
      (fun b hb => absurd (Subsingleton.elim _ _) hb) rfl
  | ⟨1, _⟩ =>
    exact concatenate_apply_piece (t := S4) (0 : Fin 1) [⟨S1, a⟩, ⟨S1, b⟩, ⟨S1, c⟩, ⟨S1, d⟩] h4 _ 1 (by simp) S1 b rfl rfl 1 rfl (ix1 (0 : Fin 1))
      (fun b hb => absurd (Subsingleton.elim _ _) hb) rfl
  | ⟨2, _⟩ =>
    exact concatenate_apply_piece (t := S4) (0 : Fin 1) [⟨S1, a⟩, ⟨S1, b⟩, ⟨S1, c⟩, ⟨S1, d⟩] h4 _ 2 (by simp) S1 c rfl rfl 2 rfl (ix1 (0 : Fin 1))
      (fun b hb => absurd (Subsingleton.elim _ _) hb) rfl
  | ⟨3, _⟩ =>
    exact concatenate_apply_piece (t := S4) (0 : Fin 1) [⟨S1, a⟩, ⟨S1, b⟩, ⟨S1, c⟩, ⟨S1, d⟩] h4 _ 3 (by simp) S1 d rfl rfl 3 rfl (ix1 (0 : Fin 1))
      (fun b hb => absurd (Subsingleton.elim _ _) hb) rfl

theorem tail_at0 (a b c d : FVec Ideal S1 .f32) (old : Vec Ideal S1x8x128 .f32) (z1 : FVec Ideal S124 .f32)
    (z2 : FVec Ideal S7x128 .f32) (h4 : Shape.Concatenates [S1, S1, S1, S1] S4 0)
    (h128 : Shape.Concatenates [S4, S124] S128 0) (c1 : S128.ShapeCasts S1x128)
    (h8 : Shape.Concatenates [S1x128, S7x128] S8x128 0) (c2 : S8x128.ShapeCasts S1x8x128)
    (c3 : S1x8x128.ShapeCasts S1x8x128) :
    addf (shapeCast S1x8x128 old c3)
      (shapeCast S1x8x128 (concatenate S8x128 0 [⟨S1x128, shapeCast S1x128 (concatenate S128 0
        [⟨S4, concatenate S4 0 [⟨S1, a⟩, ⟨S1, b⟩, ⟨S1, c⟩, ⟨S1, d⟩] h4⟩, ⟨S124, z1⟩] h128) c1⟩, ⟨S7x128, z2⟩] h8) c2)
      (ix3 (0 : Fin 1) (0 : Fin 8) (⟨0, by omega⟩ : Fin 128))
    = old (ix3 (0 : Fin 1) (0 : Fin 8) (⟨0, by omega⟩ : Fin 128)) + a (ix1 (0 : Fin 1)) :=
  tail_at a b c d old z1 z2 h4 h128 c1 h8 c2 c3 0

theorem tail_at1 (a b c d : FVec Ideal S1 .f32) (old : Vec Ideal S1x8x128 .f32) (z1 : FVec Ideal S124 .f32)
    (z2 : FVec Ideal S7x128 .f32) (h4 : Shape.Concatenates [S1, S1, S1, S1] S4 0)
    (h128 : Shape.Concatenates [S4, S124] S128 0) (c1 : S128.ShapeCasts S1x128)
    (h8 : Shape.Concatenates [S1x128, S7x128] S8x128 0) (c2 : S8x128.ShapeCasts S1x8x128)
    (c3 : S1x8x128.ShapeCasts S1x8x128) :
    addf (shapeCast S1x8x128 old c3)
      (shapeCast S1x8x128 (concatenate S8x128 0 [⟨S1x128, shapeCast S1x128 (concatenate S128 0
        [⟨S4, concatenate S4 0 [⟨S1, a⟩, ⟨S1, b⟩, ⟨S1, c⟩, ⟨S1, d⟩] h4⟩, ⟨S124, z1⟩] h128) c1⟩, ⟨S7x128, z2⟩] h8) c2)
      (ix3 (0 : Fin 1) (0 : Fin 8) (⟨1, by omega⟩ : Fin 128))
    = old (ix3 (0 : Fin 1) (0 : Fin 8) (⟨1, by omega⟩ : Fin 128)) + b (ix1 (0 : Fin 1)) :=
  tail_at a b c d old z1 z2 h4 h128 c1 h8 c2 c3 1

theorem tail_at2 (a b c d : FVec Ideal S1 .f32) (old : Vec Ideal S1x8x128 .f32) (z1 : FVec Ideal S124 .f32)
    (z2 : FVec Ideal S7x128 .f32) (h4 : Shape.Concatenates [S1, S1, S1, S1] S4 0)
    (h128 : Shape.Concatenates [S4, S124] S128 0) (c1 : S128.ShapeCasts S1x128)
    (h8 : Shape.Concatenates [S1x128, S7x128] S8x128 0) (c2 : S8x128.ShapeCasts S1x8x128)
    (c3 : S1x8x128.ShapeCasts S1x8x128) :
    addf (shapeCast S1x8x128 old c3)
      (shapeCast S1x8x128 (concatenate S8x128 0 [⟨S1x128, shapeCast S1x128 (concatenate S128 0
        [⟨S4, concatenate S4 0 [⟨S1, a⟩, ⟨S1, b⟩, ⟨S1, c⟩, ⟨S1, d⟩] h4⟩, ⟨S124, z1⟩] h128) c1⟩, ⟨S7x128, z2⟩] h8) c2)
      (ix3 (0 : Fin 1) (0 : Fin 8) (⟨2, by omega⟩ : Fin 128))
    = old (ix3 (0 : Fin 1) (0 : Fin 8) (⟨2, by omega⟩ : Fin 128)) + c (ix1 (0 : Fin 1)) :=
  tail_at a b c d old z1 z2 h4 h128 c1 h8 c2 c3 2

theorem tail_at3 (a b c d : FVec Ideal S1 .f32) (old : Vec Ideal S1x8x128 .f32) (z1 : FVec Ideal S124 .f32)
    (z2 : FVec Ideal S7x128 .f32) (h4 : Shape.Concatenates [S1, S1, S1, S1] S4 0)
    (h128 : Shape.Concatenates [S4, S124] S128 0) (c1 : S128.ShapeCasts S1x128)
    (h8 : Shape.Concatenates [S1x128, S7x128] S8x128 0) (c2 : S8x128.ShapeCasts S1x8x128)
    (c3 : S1x8x128.ShapeCasts S1x8x128) :
    addf (shapeCast S1x8x128 old c3)
      (shapeCast S1x8x128 (concatenate S8x128 0 [⟨S1x128, shapeCast S1x128 (concatenate S128 0
        [⟨S4, concatenate S4 0 [⟨S1, a⟩, ⟨S1, b⟩, ⟨S1, c⟩, ⟨S1, d⟩] h4⟩, ⟨S124, z1⟩] h128) c1⟩, ⟨S7x128, z2⟩] h8) c2)
      (ix3 (0 : Fin 1) (0 : Fin 8) (⟨3, by omega⟩ : Fin 128))
    = old (ix3 (0 : Fin 1) (0 : Fin 8) (⟨3, by omega⟩ : Fin 128)) + d (ix1 (0 : Fin 1)) :=
  tail_at a b c d old z1 z2 h4 h128 c1 h8 c2 c3 3

def cellP (ldP : Fin 30 → Vec Ideal S1x224x128 .f32) (r : Fin 224) (l : Fin 128) : Fin 30 → EReal :=
  fun ch => ldP ch (ix3 (0 : Fin 1) r l)

def cellB (ldB : Fin 4 → Vec Ideal S1x224x128 .f32) (r : Fin 224) (l : Fin 128) : Fin 4 → EReal :=
  fun ch => ldB ch (ix3 (0 : Fin 1) r l)

def cellC (ldC : Fin 20 → Vec Ideal S1x224x128 .f32) (r : Fin 224) (l : Fin 128) : Fin 20 → EReal :=
  fun ch => ldC ch (ix3 (0 : Fin 1) r l)

def blockSum (k : Fin 4) (ldP : Fin 30 → Vec Ideal S1x224x128 .f32) (ldB : Fin 4 → Vec Ideal S1x224x128 .f32)
    (ldC : Fin 20 → Vec Ideal S1x224x128 .f32) (mk : Vec Ideal S224x128 .f32) : EReal :=
  match k with
  | 0 => 0 + ∑ r : Fin 224, (0 + ∑ l : Fin 128,
      Cert.Yolo.clsCell (cellP ldP r l) (cellC ldC r l) (mk (ix2 r l)))
  | 1 => (0 + ∑ r : Fin 224, (0 + ∑ l : Fin 128, Cert.Yolo.no1Cell (cellP ldP r l) (mk (ix2 r l))))
      + (0 + ∑ r : Fin 224, (0 + ∑ l : Fin 128, Cert.Yolo.no2Cell (cellP ldP r l) (mk (ix2 r l))))
  | 2 => 0 + ∑ r : Fin 224, (0 + ∑ l : Fin 128,
      Cert.Yolo.regCell (cellP ldP r l) (cellB ldB r l) (mk (ix2 r l)))
  | 3 => 0 + ∑ r : Fin 224, (0 + ∑ l : Fin 128,
      Cert.Yolo.objCell (cellP ldP r l) (cellB ldB r l) (mk (ix2 r l)))

section Totals
variable (ldP : Fin 30 → Vec Ideal S1x224x128 .f32) (ldB : Fin 4 → Vec Ideal S1x224x128 .f32)
  (ldC : Fin 20 → Vec Ideal S1x224x128 .f32) (mk : Vec Ideal S224x128 .f32)

theorem cls_total :
    k0_pay10 (k0_pay2 mk)
      (k0_pay9
        (k0_pay7
          (k0_pay5 (k0_pay4 (ldP 10) (ldC 0) (ldP 11) (ldC 1) (ldP 12) (ldC 2)) (ldP 13) (ldC 3) (ldP 14) (ldC 4)
            (ldP 15) (ldC 5) (ldP 16) (ldC 6))
          (k0_pay6 (ldP 17) (ldC 7)) (ldP 18) (ldC 8) (ldP 19) (ldC 9) (ldP 20) (ldC 10) (ldP 21) (ldC 11))
        (k0_pay8 (ldP 22)) (ldC 12) (ldP 23) (ldC 13) (ldP 24) (ldC 14) (ldP 25) (ldC 15) (ldP 26) (ldC 16))
      (ldP 27) (ldC 17) (ldP 28) (ldC 18) (ldP 29) (ldC 19) (ix1 (0 : Fin 1))
    = blockSum 0 ldP ldB ldC mk := by
  simp only [k0_pay10]
  refine (redAll_at _ _ _ _ _ _ _ _ _ _).trans ?_
  simp only [blockSum, zero_add]
  refine Finset.sum_congr rfl fun r _ => Finset.sum_congr rfl fun l _ => ?_
  simp only [k0_pay9, k0_pay8, k0_pay7, k0_pay6, k0_pay5, k0_pay4, k0_pay2, mulf_apply, addf_apply, subf_apply,
    broadcast_apply, shapeCast_1ab_ab_apply, shapeCast_self, Ideal.ofBits_def, Ideal.ofBits_zero_f32]
  unfold Cert.Yolo.clsCell
  rw [sum20]
  simp only [zero_add]
  rfl

theorem no_total :
    k0_pay15 (k0_pay13 (k0_pay3 mk) (ldP 9)) (k0_pay14 (k0_pay3 mk) (ldP 4)) (ix1 (0 : Fin 1))
    = blockSum 1 ldP ldB ldC mk := by
  simp only [k0_pay15, k0_pay14]
  refine (congrArg₂ (· + ·) (redAll_at _ _ _ _ _ _ _ _ _ _) (redAll_at _ _ _ _ _ _ _ _ _ _)).trans ?_
  simp only [blockSum, zero_add]
  refine congrArg₂ (· + ·) ?_ ?_
  · refine Finset.sum_congr rfl fun r _ => Finset.sum_congr rfl fun l _ => ?_
    simp only [k0_pay11, k0_pay3, k0_pay2, mulf_apply, subf_apply, broadcast_apply, shapeCast_1ab_ab_apply, shapeCast_self,
      Ideal.ofBits_def]
    rfl
  · refine Finset.sum_congr rfl fun r _ => Finset.sum_congr rfl fun l _ => ?_
    simp only [k0_pay13, k0_pay12, k0_pay3, k0_pay2, mulf_apply, subf_apply, broadcast_apply, shapeCast_1ab_ab_apply, shapeCast_self,
      Ideal.ofBits_def]
    rfl

end Totals

section Patch
variable (ldP : Fin 30 → Vec Ideal S1x224x128 .f32) (ldB : Fin 4 → Vec Ideal S1x224x128 .f32)
  (ldC : Fin 20 → Vec Ideal S1x224x128 .f32) (mk : Vec Ideal S224x128 .f32) (old : Vec Ideal S1x8x128 .f32)

theorem patchOf_apply (k : Fin 4) :
    patchOf (F := Ideal) ldP ldB ldC mk old (ix3 (0 : Fin 1) (0 : Fin 8) (⟨k.val, by omega⟩ : Fin 128))
    = old (ix3 (0 : Fin 1) (0 : Fin 8) (⟨k.val, by omega⟩ : Fin 128)) + blockSum k ldP ldB ldC mk := by
  match k with
  | ⟨0, _⟩ =>
    simp only [patchOf, k0_pay52]
    exact (tail_at0 _ _ _ _ _ _ _ _ _ _ _ _ _).trans (congrArg _ (cls_total ldP ldB ldC mk))
  | ⟨1, _⟩ =>
    simp only [patchOf, k0_pay52]
    exact (tail_at1 _ _ _ _ _ _ _ _ _ _ _ _ _).trans (congrArg _ (no_total ldP ldB ldC mk))
  | ⟨2, _⟩ =>
    simp only [patchOf, k0_pay52]
    refine (tail_at2 _ _ _ _ _ _ _ _ _ _ _ _ _).trans (congrArg _ ?_)
    refine (redAll_at _ _ _ _ _ _ _ _ _ _).trans ?_
    show _ = blockSum 2 ldP ldB ldC mk
    simp only [blockSum, zero_add]
    refine Finset.sum_congr rfl fun r _ => Finset.sum_congr rfl fun l _ => ?_
    simp only [k0_pay51, k0_pay50, k0_pay49, k0_pay48, k0_pay47, k0_pay46, k0_pay45, k0_pay44, k0_pay43, k0_pay42,
      k0_pay41, k0_pay40, k0_pay39, k0_pay38, k0_pay37, k0_pay36, k0_pay35, k0_pay34, k0_pay33, k0_pay32, k0_pay31,
      k0_pay30, k0_pay29, k0_pay28, k0_pay27, k0_pay26, k0_pay25, k0_pay24, k0_pay23, k0_pay22, k0_pay21, k0_pay20,
      k0_pay19, k0_pay18, k0_pay17, k0_pay16, k0_pay12, k0_pay11, k0_pay2, mulf_apply, addf_apply, subf_apply,
      divf_apply, maximumf_apply, minimumf_apply, select_apply, cmpf_at, sqrt_at, broadcast_apply,
      shapeCast_1ab_ab_apply, shapeCast_self, Ideal.ofBits_def, Ideal.ofBits_zero_f32, inv14_eq]
    rfl
  | ⟨3, _⟩ =>
    simp only [patchOf, k0_pay52]
    refine (tail_at3 _ _ _ _ _ _ _ _ _ _ _ _ _).trans (congrArg _ ?_)
    refine (redAll_at _ _ _ _ _ _ _ _ _ _).trans ?_
    show _ = blockSum 3 ldP ldB ldC mk
    simp only [blockSum, zero_add]
    refine Finset.sum_congr rfl fun r _ => Finset.sum_congr rfl fun l _ => ?_
    simp only [k0_pay51, k0_pay50, k0_pay49, k0_pay48, k0_pay47, k0_pay46, k0_pay45, k0_pay44, k0_pay43, k0_pay42,
      k0_pay41, k0_pay40, k0_pay39, k0_pay38, k0_pay37, k0_pay36, k0_pay35, k0_pay34, k0_pay33, k0_pay32, k0_pay31,
      k0_pay30, k0_pay29, k0_pay28, k0_pay27, k0_pay26, k0_pay25, k0_pay24, k0_pay23, k0_pay22, k0_pay21, k0_pay20,
      k0_pay19, k0_pay18, k0_pay17, k0_pay16, k0_pay12, k0_pay11, k0_pay2, mulf_apply, addf_apply, subf_apply,
      divf_apply, maximumf_apply, minimumf_apply, select_apply, cmpf_at, sqrt_at, broadcast_apply,
      shapeCast_1ab_ab_apply, shapeCast_self, Ideal.ofBits_def, Ideal.ofBits_zero_f32, inv14_eq]
    rfl

end Patch

end Cert.KernelIdeal.Blk

end
-- ==== Proof.KernelIdeal.OutEq.lean ====
import proofs.«404733_j85177791414999_3_alg».proof.Proof.KernelIdeal.Frame
import proofs.«404733_j85177791414999_3_alg».proof.Proof.Cell
import proofs.«404733_j85177791414999_3_alg».proof.Proof.BlockSum
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem

section Slabs
variable {F : FTy → Type} [FloatOps F] [Named F]

theorem zero3 : (![0, 0, 0] : Fin 3 → ℕ) = fun _ => 0 := by
  funext a
  match a with
  | ⟨0, _⟩ => rfl
  | ⟨1, _⟩ => rfl
  | ⟨2, _⟩ => rfl

theorem zero2 : (![0, 0] : Fin 2 → ℕ) = fun _ => 0 := by
  funext a
  match a with
  | ⟨0, _⟩ => rfl
  | ⟨1, _⟩ => rfl

theorem inbN {N : ℕ} (ch : Fin N) :
    ∀ a, (![ch.val, 0, 0] : Fin 3 → ℕ) a + S1x224x128.size a ≤ (⟨3, ![N, 224, 128]⟩ : Shape).size a := fun a =>
  match a with
  | ⟨0, _⟩ => by show ch.val + 1 ≤ N; omega
  | ⟨1, _⟩ => by show 0 + 224 ≤ 224; omega
  | ⟨2, _⟩ => by show 0 + 128 ≤ 128; omega

def slabOf {N : ℕ} (M : Memref sig .tc .vmem ⟨3, ![N, 224, 128]⟩ .f32) (hM : M.IsWhole)
    (x : Vec F ⟨3, ![N, 224, 128]⟩ .f32) (ch : Fin N) : Vec F S1x224x128 .f32 :=
  View.readAt (Elt F) M.view (Rect.unit (s := ⟨3, ![N, 224, 128]⟩) ![ch.val, 0, 0] S1x224x128.size (inbN ch)).toLoadRect
    (hM.unread x)

theorem slabOf_at {N : ℕ} (M : Memref sig .tc .vmem ⟨3, ![N, 224, 128]⟩ .f32) (hM : M.IsWhole)
    (x : Vec F ⟨3, ![N, 224, 128]⟩ .f32) (ch : Fin N) (r : Fin 224) (l : Fin 128) :
    slabOf M hM x ch (ix3 (0 : Fin 1) r l) = x (ix3 ch r l) := by
  unfold slabOf
  rw [View.readAt_eq_ld, hM.read_unread]
  show x _ = x _
  congr 1
  funext a
  match a with
  | ⟨0, _⟩ => exact Fin.ext (by show ch.val + 1 * 0 = ch.val; omega)
  | ⟨1, _⟩ => exact Fin.ext (by show 0 + 1 * r.val = r.val; omega)
  | ⟨2, _⟩ => exact Fin.ext (by show 0 + 1 * l.val = l.val; omega)

theorem whole_read {S : Shape} {off : Fin S.rank → ℕ} (hz : off = fun _ => 0) (M : Memref sig .tc .vmem S .f32)
    (hM : M.IsWhole) (x : Vec F S .f32) (inb : ∀ a, off a + S.size a ≤ S.size a) :
    View.readAt (Elt F) M.view (Rect.unit off S.size inb).toLoadRect (hM.unread x) = x := by
  rw [View.readAt_eq_ld, hM.read_unread, View.ld_unit_zero hz]

theorem out0_B_4_eq (c : Dev nD) (i : grid0.Coords) (arg2 : Memref sig .tc .vmem S30x224x128 .f32) (harg2 : arg2.IsWhole) (arg3 : Memref sig .tc .vmem S4x224x128 .f32) (harg3 : arg3.IsWhole) (arg4 : Memref sig .tc .vmem S20x224x128 .f32) (harg4 : arg4.IsWhole) (arg5 : Memref sig .tc .vmem S224x128 .f32) (harg5 : arg5.IsWhole) (arg6 : Memref sig .tc .vmem S1x8x128 .f32) (harg6 : arg6.IsWhole) (hc0 : ¬cond0_0 i)
    (x0 : Vec F S30x224x128 .f32) (x1 : Vec F S4x224x128 .f32) (x2 : Vec F S20x224x128 .f32) (x3 : Vec F S224x128 .f32) (xo4 : Vec F S1x8x128 .f32) :
    out0_B_4 c i arg2 harg2 arg3 harg3 arg4 harg4 arg5 harg5 arg6 harg6 hc0 x0 x1 x2 x3 xo4
      = Blk.patchOf (slabOf arg2 harg2 x0) (slabOf arg3 harg3 x1) (slabOf arg4 harg4 x2)
          (View.readAt (Elt F) arg5.view (Rect.unit ![0, 0] S224x128.size inb_S224x128_S224x128_0_0).toLoadRect
            (harg5.unread x3))
          (View.readAt (Elt F) arg6.view
            (Rect.unit ![0, 0, 0] S1x8x128.size inb_S1x8x128_S1x8x128_0_0_0).toLoadRect (harg6.unread xo4)) := by
  unfold out0_B_4
  rw [View.read_writes_eq_canon _ _ _ (cover0_B_4 c i arg2 harg2 arg3 harg3 arg4 harg4 arg5 harg5 arg6 harg6 hc0 x0 x1 x2 x3 xo4)]
  unfold kernelRun0_B
  dsimp only
  sl_unfold_words
  refine (View.canon_unit_zero zero3 _ _).trans ?_
  rfl

theorem out0_A_4_eq (c : Dev nD) (i : grid0.Coords) (arg2 : Memref sig .tc .vmem S30x224x128 .f32) (harg2 : arg2.IsWhole) (arg3 : Memref sig .tc .vmem S4x224x128 .f32) (harg3 : arg3.IsWhole) (arg4 : Memref sig .tc .vmem S20x224x128 .f32) (harg4 : arg4.IsWhole) (arg5 : Memref sig .tc .vmem S224x128 .f32) (harg5 : arg5.IsWhole) (arg6 : Memref sig .tc .vmem S1x8x128 .f32) (harg6 : arg6.IsWhole) (hc0 : cond0_0 i)
    (x0 : Vec F S30x224x128 .f32) (x1 : Vec F S4x224x128 .f32) (x2 : Vec F S20x224x128 .f32) (x3 : Vec F S224x128 .f32) :
    out0_A_4 c i arg2 harg2 arg3 harg3 arg4 harg4 arg5 harg5 arg6 harg6 hc0 x0 x1 x2 x3
      = Blk.patchOf (slabOf arg2 harg2 x0) (slabOf arg3 harg3 x1) (slabOf arg4 harg4 x2)
          (View.readAt (Elt F) arg5.view (Rect.unit ![0, 0] S224x128.size inb_S224x128_S224x128_0_0).toLoadRect
            (harg5.unread x3))
          (arg6.view.readCov [⟨Rect.unit ![0, 0, 0] S1x8x128.size inb_S1x8x128_S1x8x128_0_0_0, k0_pay1⟩]
            (Rect.unit ![0, 0, 0] S1x8x128.size inb_S1x8x128_S1x8x128_0_0_0).toLoadRect) := by
  unfold out0_A_4
  rw [View.read_writes_eq_canon _ _ _ (cover0_A_4 c i arg2 harg2 arg3 harg3 arg4 harg4 arg5 harg5 arg6 harg6 hc0 x0 x1 x2 x3)]
  unfold kernelRun0_A
  dsimp only
  sl_unfold_words
  refine (View.canon_cons_unit_zero zero3 _ _ _).trans ?_
  rfl

end Slabs

def cP (x0 : Vec Ideal S30x224x128 .f32) (r : Fin 224) (l : Fin 128) : Fin 30 → EReal := fun ch => x0 (ix3 ch r l)

def cB (x1 : Vec Ideal S4x224x128 .f32) (r : Fin 224) (l : Fin 128) : Fin 4 → EReal := fun ch => x1 (ix3 ch r l)

def cC (x2 : Vec Ideal S20x224x128 .f32) (r : Fin 224) (l : Fin 128) : Fin 20 → EReal := fun ch => x2 (ix3 ch r l)

def bsum (k : Fin 4) (x0 : Vec Ideal S30x224x128 .f32) (x1 : Vec Ideal S4x224x128 .f32) (x2 : Vec Ideal S20x224x128 .f32)
    (x3 : Vec Ideal S224x128 .f32) : EReal :=
  match k with
  | 0 => 0 + ∑ r : Fin 224, (0 + ∑ l : Fin 128, Cert.Yolo.clsCell (cP x0 r l) (cC x2 r l) (x3 (ix2 r l)))
  | 1 => (0 + ∑ r : Fin 224, (0 + ∑ l : Fin 128, Cert.Yolo.no1Cell (cP x0 r l) (x3 (ix2 r l))))
      + (0 + ∑ r : Fin 224, (0 + ∑ l : Fin 128, Cert.Yolo.no2Cell (cP x0 r l) (x3 (ix2 r l))))
  | 2 => 0 + ∑ r : Fin 224, (0 + ∑ l : Fin 128, Cert.Yolo.regCell (cP x0 r l) (cB x1 r l) (x3 (ix2 r l)))
  | 3 => 0 + ∑ r : Fin 224, (0 + ∑ l : Fin 128, Cert.Yolo.objCell (cP x0 r l) (cB x1 r l) (x3 (ix2 r l)))

abbrev lane (k : Fin 4) : S1x8x128.Idx := ix3 (0 : Fin 1) (0 : Fin 8) (⟨k.val, by omega⟩ : Fin 128)

section Sums
variable (arg2 : Memref sig .tc .vmem S30x224x128 .f32) (harg2 : arg2.IsWhole)
  (arg3 : Memref sig .tc .vmem S4x224x128 .f32) (harg3 : arg3.IsWhole)
  (arg4 : Memref sig .tc .vmem S20x224x128 .f32) (harg4 : arg4.IsWhole)
  (x0 : Vec Ideal S30x224x128 .f32) (x1 : Vec Ideal S4x224x128 .f32) (x2 : Vec Ideal S20x224x128 .f32)
  (x3 : Vec Ideal S224x128 .f32)

theorem blockSum_slabs (k : Fin 4) :
    Blk.blockSum k (slabOf arg2 harg2 x0) (slabOf arg3 harg3 x1) (slabOf arg4 harg4 x2) x3 = bsum k x0 x1 x2 x3 := by
  have hP : ∀ r l, Blk.cellP (slabOf arg2 harg2 x0) r l = cP x0 r l := fun r l =>
    funext fun ch => slabOf_at arg2 harg2 x0 ch r l
  have hB : ∀ r l, Blk.cellB (slabOf arg3 harg3 x1) r l = cB x1 r l := fun r l =>
    funext fun ch => slabOf_at arg3 harg3 x1 ch r l
  have hC : ∀ r l, Blk.cellC (slabOf arg4 harg4 x2) r l = cC x2 r l := fun r l =>
    funext fun ch => slabOf_at arg4 harg4 x2 ch r l
  match k with
  | 0 => simp only [Blk.blockSum, bsum, hP, hC]
  | 1 => simp only [Blk.blockSum, bsum, hP]
  | 2 => simp only [Blk.blockSum, bsum, hP, hB]
  | 3 => simp only [Blk.blockSum, bsum, hP, hB]

theorem reset_at (j : S1x8x128.Idx) : k0_pay1 (F := Ideal) j = 0 := by
  simp only [k0_pay1, broadcast_apply, Ideal.ofBits_def, Ideal.ofBits_zero_f32]

end Sums

theorem out0_A_4_apply (c : Dev nD) (i : grid0.Coords) (arg2 : Memref sig .tc .vmem S30x224x128 .f32) (harg2 : arg2.IsWhole) (arg3 : Memref sig .tc .vmem S4x224x128 .f32) (harg3 : arg3.IsWhole) (arg4 : Memref sig .tc .vmem S20x224x128 .f32) (harg4 : arg4.IsWhole) (arg5 : Memref sig .tc .vmem S224x128 .f32) (harg5 : arg5.IsWhole) (arg6 : Memref sig .tc .vmem S1x8x128 .f32) (harg6 : arg6.IsWhole) (hc0 : cond0_0 i)
    (x0 : Vec Ideal S30x224x128 .f32) (x1 : Vec Ideal S4x224x128 .f32) (x2 : Vec Ideal S20x224x128 .f32) (x3 : Vec Ideal S224x128 .f32) (k : Fin 4) :
    out0_A_4 (F := Ideal) c i arg2 harg2 arg3 harg3 arg4 harg4 arg5 harg5 arg6 harg6 hc0 x0 x1 x2 x3 (lane k) = 0 + bsum k x0 x1 x2 x3 := by
  rw [out0_A_4_eq]
  refine (Blk.patchOf_apply _ _ _ _ _ k).trans ?_
  rw [whole_read zero2 arg5 harg5 x3, View.readCov_unit_zero _ zero3, reset_at, blockSum_slabs]

theorem out0_B_4_apply (c : Dev nD) (i : grid0.Coords) (arg2 : Memref sig .tc .vmem S30x224x128 .f32) (harg2 : arg2.IsWhole) (arg3 : Memref sig .tc .vmem S4x224x128 .f32) (harg3 : arg3.IsWhole) (arg4 : Memref sig .tc .vmem S20x224x128 .f32) (harg4 : arg4.IsWhole) (arg5 : Memref sig .tc .vmem S224x128 .f32) (harg5 : arg5.IsWhole) (arg6 : Memref sig .tc .vmem S1x8x128 .f32) (harg6 : arg6.IsWhole) (hc0 : ¬cond0_0 i)
    (x0 : Vec Ideal S30x224x128 .f32) (x1 : Vec Ideal S4x224x128 .f32) (x2 : Vec Ideal S20x224x128 .f32) (x3 : Vec Ideal S224x128 .f32)
    (xo4 : Vec Ideal S1x8x128 .f32) (k : Fin 4) :
    out0_B_4 (F := Ideal) c i arg2 harg2 arg3 harg3 arg4 harg4 arg5 harg5 arg6 harg6 hc0 x0 x1 x2 x3 xo4 (lane k) = xo4 (lane k) + bsum k x0 x1 x2 x3 := by
  rw [out0_B_4_eq]
  refine (Blk.patchOf_apply _ _ _ _ _ k).trans ?_
  rw [whole_read zero2 arg5 harg5 x3, whole_read zero3 arg6 harg6 xo4, blockSum_slabs]

end Cert.KernelIdeal.Hand

end
-- ==== Proof.KernelIdeal.Blocks.lean ====
import proofs.«404733_j85177791414999_3_alg».proof.Proof.KernelIdeal.Runs
import proofs.«404733_j85177791414999_3_alg».proof.Proof.Cell
import Idealize.ShloMosaic.Lib.ValueIdx
import Idealize.ShloMosaic.Lib.Pipeline.Value
import Idealize.ShloMosaic.Lib.StableHlo.Run
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable {F : FTy → Type} [FloatOps F] [Named F]

variable (m : (ℓ : Loc nD τ sig) → Buf (Elt F) ℓ)

abbrev t28 (t : Fin cfg0.N) : Fin 28 := ⟨t.val, lt_of_lt_of_eq t.isLt N_0⟩

theorem idx0 : ∀ t : Fin cfg0.N, win0_0.index t (0 : Fin 3) = 0 ∧ win0_0.index t (1 : Fin 3) = t.val ∧ win0_0.index t (2 : Fin 3) = 0 :=
  (by decide +kernel : ∀ t : Fin grid0.N, _)

theorem idx1 : ∀ t : Fin cfg0.N, win0_1.index t (0 : Fin 3) = 0 ∧ win0_1.index t (1 : Fin 3) = t.val ∧ win0_1.index t (2 : Fin 3) = 0 :=
  (by decide +kernel : ∀ t : Fin grid0.N, _)

theorem idx2 : ∀ t : Fin cfg0.N, win0_2.index t (0 : Fin 3) = 0 ∧ win0_2.index t (1 : Fin 3) = t.val ∧ win0_2.index t (2 : Fin 3) = 0 :=
  (by decide +kernel : ∀ t : Fin grid0.N, _)

theorem idx3 : ∀ t : Fin cfg0.N, win0_3.index t (0 : Fin 2) = t.val ∧ win0_3.index t (1 : Fin 2) = 0 :=
  (by decide +kernel : ∀ t : Fin grid0.N, _)

abbrev blk0 (c : Dev nD) (t : Fin cfg0.N) : Vec F S30x224x128 .f32 := iblk m c 0 t
abbrev blk1 (c : Dev nD) (t : Fin cfg0.N) : Vec F S4x224x128 .f32 := iblk m c 1 t
abbrev blk2 (c : Dev nD) (t : Fin cfg0.N) : Vec F S20x224x128 .f32 := iblk m c 2 t
abbrev blk3 (c : Dev nD) (t : Fin cfg0.N) : Vec F S224x128 .f32 := iblk m c 3 t

theorem blk0_read (c : Dev nD) (t : Fin cfg0.N) (ch : Fin 30) (r : Fin 224) (l : Fin 128) (k : S30x6272x128.Idx)
    (hk0 : (k 0).val = ch.val) (hk1 : (k 1).val = t.val * 224 + r.val) (hk2 : (k 2).val = l.val) :
    blk0 m c t (ix3 ch r l) = (V m c main_v2 : S30x6272x128.Idx → Elt F .f32) k := by
  obtain ⟨h0, h1, h2⟩ := idx0 t
  unfold blk0 iblk
  rw [View.read_apply]
  show V m c main_v2 _ = V m c main_v2 _
  congr 1
  funext a
  apply Fin.ext
  match a with
  | ⟨0, _⟩ => show win0_0.index t 0 * 30 + 1 * ch.val = (k 0).val; rw [h0, hk0]; omega
  | ⟨1, _⟩ => show win0_0.index t 1 * 224 + 1 * r.val = (k 1).val; rw [h1, hk1]; omega
  | ⟨2, _⟩ => show win0_0.index t 2 * 128 + 1 * l.val = (k 2).val; rw [h2, hk2]; omega

theorem blk1_read (c : Dev nD) (t : Fin cfg0.N) (ch : Fin 4) (r : Fin 224) (l : Fin 128) (k : S4x6272x128.Idx)
    (hk0 : (k 0).val = ch.val) (hk1 : (k 1).val = t.val * 224 + r.val) (hk2 : (k 2).val = l.val) :
    blk1 m c t (ix3 ch r l) = (V m c main_v5 : S4x6272x128.Idx → Elt F .f32) k := by
  obtain ⟨h0, h1, h2⟩ := idx1 t
  unfold blk1 iblk
  rw [View.read_apply]
  show V m c main_v5 _ = V m c main_v5 _
  congr 1
  funext a
  apply Fin.ext
  match a with
  | ⟨0, _⟩ => show win0_1.index t 0 * 4 + 1 * ch.val = (k 0).val; rw [h0, hk0]; omega
  | ⟨1, _⟩ => show win0_1.index t 1 * 224 + 1 * r.val = (k 1).val; rw [h1, hk1]; omega
  | ⟨2, _⟩ => show win0_1.index t 2 * 128 + 1 * l.val = (k 2).val; rw [h2, hk2]; omega

theorem blk2_read (c : Dev nD) (t : Fin cfg0.N) (ch : Fin 20) (r : Fin 224) (l : Fin 128) (k : S20x6272x128.Idx)
    (hk0 : (k 0).val = ch.val) (hk1 : (k 1).val = t.val * 224 + r.val) (hk2 : (k 2).val = l.val) :
    blk2 m c t (ix3 ch r l) = (V m c main_v8 : S20x6272x128.Idx → Elt F .f32) k := by
  obtain ⟨h0, h1, h2⟩ := idx2 t
  unfold blk2 iblk
  rw [View.read_apply]
  show V m c main_v8 _ = V m c main_v8 _
  congr 1
  funext a
  apply Fin.ext
  match a with
  | ⟨0, _⟩ => show win0_2.index t 0 * 20 + 1 * ch.val = (k 0).val; rw [h0, hk0]; omega
  | ⟨1, _⟩ => show win0_2.index t 1 * 224 + 1 * r.val = (k 1).val; rw [h1, hk1]; omega
  | ⟨2, _⟩ => show win0_2.index t 2 * 128 + 1 * l.val = (k 2).val; rw [h2, hk2]; omega

theorem blk3_read (c : Dev nD) (t : Fin cfg0.N) (r : Fin 224) (l : Fin 128) (k : S6272x128.Idx)
    (hk0 : (k 0).val = t.val * 224 + r.val) (hk1 : (k 1).val = l.val) :
    blk3 m c t (ix2 r l) = (V m c main_v10 : S6272x128.Idx → Elt F .f32) k := by
  obtain ⟨h0, h1⟩ := idx3 t
  unfold blk3 iblk
  rw [View.read_apply]
  show V m c main_v10 _ = V m c main_v10 _
  congr 1
  funext a
  apply Fin.ext
  match a with
  | ⟨0, _⟩ => show win0_3.index t 0 * 224 + 1 * r.val = (k 0).val; rw [h0, hk0]; omega
  | ⟨1, _⟩ => show win0_3.index t 1 * 128 + 1 * l.val = (k 1).val; rw [h1, hk1]; omega

theorem V_v2 (c : Dev nD) : (V m c main_v2 : S30x6272x128.Idx → Elt F .f32)
    = shapeCast S30x6272x128 (transpose S30x802816 [1, 0]
        (shapeCast S802816x30 (m ((c : Thread nD τ).loc main_arg0)) shapeCasts_S4096x14x14x30_S802816x30)
        transposes_S802816x30_S30x802816_1_0) shapeCasts_S30x802816_S30x6272x128 := by
  dsimp only [V, V0]
  simp only [hostOps0, List.flatten_cons, List.flatten_nil, List.append_nil]
  after_results
  rfl

theorem V_v5 (c : Dev nD) : (V m c main_v5 : S4x6272x128.Idx → Elt F .f32)
    = shapeCast S4x6272x128 (transpose S4x802816 [1, 0]
        (shapeCast S802816x4 (m ((c : Thread nD τ).loc main_arg1)) shapeCasts_S4096x14x14x4_S802816x4)
        transposes_S802816x4_S4x802816_1_0) shapeCasts_S4x802816_S4x6272x128 := by
  dsimp only [V, V0]
  simp only [hostOps0, List.flatten_cons, List.flatten_nil, List.append_nil]
  after_results
  rfl

theorem V_v8 (c : Dev nD) : (V m c main_v8 : S20x6272x128.Idx → Elt F .f32)
    = shapeCast S20x6272x128 (transpose S20x802816 [1, 0]
        (shapeCast S802816x20 (m ((c : Thread nD τ).loc main_arg2)) shapeCasts_S4096x14x14x20_S802816x20)
        transposes_S802816x20_S20x802816_1_0) shapeCasts_S20x802816_S20x6272x128 := by
  dsimp only [V, V0]
  simp only [hostOps0, List.flatten_cons, List.flatten_nil, List.append_nil]
  after_results
  rfl

theorem V_v10 (c : Dev nD) : (V m c main_v10 : S6272x128.Idx → Elt F .f32)
    = uitofp .f32 (shapeCast S6272x128 (m ((c : Thread nD τ).loc main_arg3)) shapeCasts_S4096x14x14_S6272x128) := by
  dsimp only [V, V0]
  simp only [hostOps0, List.flatten_cons, List.flatten_nil, List.append_nil]
  after_results
  rfl

theorem flat_cell (t : Fin 28) (r : Fin 224) (l : Fin 128) :
    (S4096x14x14.rowMajor (Cert.Yolo.cellAt t r l)).val = (t.val * 224 + r.val) * 128 + l.val := by
  rw [Shape.rowMajor_val_three]
  show ((Cert.Yolo.flatAt t r l / 196) * 14 + Cert.Yolo.flatAt t r l / 14 % 14) * 14 + Cert.Yolo.flatAt t r l % 14 = _
  unfold Cert.Yolo.flatAt
  omega

theorem chanMajor_apply {α : Type} {C : ℕ} (a : (⟨4, ![4096, 14, 14, C]⟩ : Shape).Idx → α)
    (h1 : (⟨4, ![4096, 14, 14, C]⟩ : Shape).ShapeCasts ⟨2, ![802816, C]⟩)
    (h2 : (⟨2, ![802816, C]⟩ : Shape).Transposes [1, 0] ⟨2, ![C, 802816]⟩)
    (h3 : (⟨2, ![C, 802816]⟩ : Shape).ShapeCasts ⟨3, ![C, 6272, 128]⟩)
    (t : Fin 28) (r : Fin 224) (l : Fin 128) (ch : Fin C) (R : Fin 6272) (hR : R.val = t.val * 224 + r.val) :
    shapeCast ⟨3, ![C, 6272, 128]⟩ (transpose ⟨2, ![C, 802816]⟩ [1, 0] (shapeCast ⟨2, ![802816, C]⟩ a h1) h2) h3 (ix3 ch R l)
      = a (ix4 (Cert.Yolo.cellAt t r l 0) (Cert.Yolo.cellAt t r l 1) (Cert.Yolo.cellAt t r l 2) ch) := by
  rw [shapeCast_apply _ h3 (ix3 ch R l) (ix2 ch (⟨Cert.Yolo.flatAt t r l, Cert.Yolo.flatAt_lt t r l⟩ : Fin 802816)) (by
        rw [Shape.rowMajor_val_two, Shape.rowMajor_val_three]
        show ch.val * 802816 + Cert.Yolo.flatAt t r l = (ch.val * 6272 + R.val) * 128 + l.val
        unfold Cert.Yolo.flatAt
        omega),
    transpose_ix2_apply,
    shapeCast_apply _ h1 _ (ix4 (Cert.Yolo.cellAt t r l 0) (Cert.Yolo.cellAt t r l 1) (Cert.Yolo.cellAt t r l 2) ch) (by
        rw [Shape.rowMajor_val_four, Shape.rowMajor_val_two]
        show ((Cert.Yolo.flatAt t r l / 196 * 14 + Cert.Yolo.flatAt t r l / 14 % 14) * 14 + Cert.Yolo.flatAt t r l % 14) * C + ch.val
          = Cert.Yolo.flatAt t r l * C + ch.val
        have hf : (Cert.Yolo.flatAt t r l / 196 * 14 + Cert.Yolo.flatAt t r l / 14 % 14) * 14 + Cert.Yolo.flatAt t r l % 14
            = Cert.Yolo.flatAt t r l := by omega
        rw [hf])]

section AtIdeal

variable (m : (ℓ : Loc nD τ sig) → Buf (Elt Ideal) ℓ)

theorem row_lt (t : Fin cfg0.N) (r : Fin 224) : t.val * 224 + r.val < 6272 := by
  have := (t28 t).isLt; have : (t28 t).val = t.val := rfl; omega

theorem blk0_apply (c : Dev nD) (t : Fin cfg0.N) (ch : Fin 30) (r : Fin 224) (l : Fin 128) :
    blk0 m c t (ix3 ch r l) = Cert.Yolo.argP (m ((c : Thread nD τ).loc main_arg0)) (Cert.Yolo.cellAt (t28 t) r l) ch := by
  rw [blk0_read m c t ch r l (ix3 ch ⟨t.val * 224 + r.val, row_lt t r⟩ l) rfl rfl rfl, V_v2]
  exact chanMajor_apply _ _ _ _ (t28 t) r l ch _ rfl

theorem blk1_apply (c : Dev nD) (t : Fin cfg0.N) (ch : Fin 4) (r : Fin 224) (l : Fin 128) :
    blk1 m c t (ix3 ch r l) = Cert.Yolo.argTB (m ((c : Thread nD τ).loc main_arg1)) (Cert.Yolo.cellAt (t28 t) r l) ch := by
  rw [blk1_read m c t ch r l (ix3 ch ⟨t.val * 224 + r.val, row_lt t r⟩ l) rfl rfl rfl, V_v5]
  exact chanMajor_apply _ _ _ _ (t28 t) r l ch _ rfl

theorem blk2_apply (c : Dev nD) (t : Fin cfg0.N) (ch : Fin 20) (r : Fin 224) (l : Fin 128) :
    blk2 m c t (ix3 ch r l) = Cert.Yolo.argQ (m ((c : Thread nD τ).loc main_arg2)) (Cert.Yolo.cellAt (t28 t) r l) ch := by
  rw [blk2_read m c t ch r l (ix3 ch ⟨t.val * 224 + r.val, row_lt t r⟩ l) rfl rfl rfl, V_v8]
  exact chanMajor_apply _ _ _ _ (t28 t) r l ch _ rfl

theorem blk3_apply (c : Dev nD) (t : Fin cfg0.N) (r : Fin 224) (l : Fin 128) :
    blk3 m c t (ix2 r l) = Cert.Yolo.argM (m ((c : Thread nD τ).loc main_arg3)) (Cert.Yolo.cellAt (t28 t) r l) := by
  rw [blk3_read m c t r l (ix2 ⟨t.val * 224 + r.val, row_lt t r⟩ l) rfl rfl, V_v10]
  show FloatOps.uitofp .f32 (shapeCast S6272x128 (m ((c : Thread nD τ).loc main_arg3)) shapeCasts_S4096x14x14_S6272x128 _) = _
  rw [shapeCast_apply _ _ _ (Cert.Yolo.cellAt (t28 t) r l) (by rw [flat_cell, Shape.rowMajor_val_two]; rfl)]
  rfl

end AtIdeal

end Cert.KernelIdeal.Hand

end
-- ==== Proof.SumLaws.lean ====
import proofs.«404733_j85177791414999_3_alg».proof.Proof.Cell
import Mathlib.Algebra.BigOperators.Group.Finset.Basic
import Mathlib.Algebra.BigOperators.Fin
import Mathlib.Data.Fintype.BigOperators
import Mathlib.Data.EReal.Basic

noncomputable section

namespace Cert.Yolo

open Idealize.ShloMosaic

theorem cellAt_val0 (t : Fin 28) (r : Fin 224) (l : Fin 128) : (cellAt t r l 0).val = flatAt t r l / 196 := rfl
theorem cellAt_val1 (t : Fin 28) (r : Fin 224) (l : Fin 128) : (cellAt t r l 1).val = flatAt t r l / 14 % 14 := rfl
theorem cellAt_val2 (t : Fin 28) (r : Fin 224) (l : Fin 128) : (cellAt t r l 2).val = flatAt t r l % 14 := rfl

theorem flatAt_inj {t t' : Fin 28} {r r' : Fin 224} {l l' : Fin 128} (h : flatAt t r l = flatAt t' r' l') :
    t = t' ∧ r = r' ∧ l = l' := by
  unfold flatAt at h
  refine ⟨Fin.ext ?_, Fin.ext ?_, Fin.ext ?_⟩ <;> omega

theorem cellAt_bijective :
    Function.Bijective (fun x : Fin 28 × Fin 224 × Fin 128 => cellAt x.1 x.2.1 x.2.2) := by
  constructor
  · rintro ⟨t, r, l⟩ ⟨t', r', l'⟩ h
    have h0 := congrArg Fin.val (congrFun h 0)
    have h1 := congrArg Fin.val (congrFun h 1)
    have h2 := congrArg Fin.val (congrFun h 2)
    simp only [cellAt_val0, cellAt_val1, cellAt_val2] at h0 h1 h2
    have hf : flatAt t r l = flatAt t' r' l' := by omega
    obtain ⟨rfl, rfl, rfl⟩ := flatAt_inj hf
    rfl
  · intro i
    obtain ⟨a, b, c, rfl⟩ : ∃ (a : Fin 4096) (b : Fin 14) (c : Fin 14), i = ValueIdx.ix3 a b c :=
      ⟨i 0, i 1, i 2, ValueIdx.eq_ix3 i⟩
    have ha := a.isLt
    have hb := b.isLt
    have hc := c.isLt
    refine ⟨(⟨(a.val * 196 + b.val * 14 + c.val) / 28672, by omega⟩,
      ⟨(a.val * 196 + b.val * 14 + c.val) / 128 % 224, by omega⟩,
      ⟨(a.val * 196 + b.val * 14 + c.val) % 128, by omega⟩), ?_⟩
    have hf : flatAt (⟨(a.val * 196 + b.val * 14 + c.val) / 28672, by omega⟩ : Fin 28)
        (⟨(a.val * 196 + b.val * 14 + c.val) / 128 % 224, by omega⟩ : Fin 224)
        (⟨(a.val * 196 + b.val * 14 + c.val) % 128, by omega⟩ : Fin 128)
        = a.val * 196 + b.val * 14 + c.val := by
      unfold flatAt
      simp only
      omega
    funext d
    match d with
    | ⟨0, _⟩ => exact Fin.ext (by show flatAt _ _ _ / 196 = a.val; rw [hf]; omega)
    | ⟨1, _⟩ => exact Fin.ext (by show flatAt _ _ _ / 14 % 14 = b.val; rw [hf]; omega)
    | ⟨2, _⟩ => exact Fin.ext (by show flatAt _ _ _ % 14 = c.val; rw [hf]; omega)

theorem sum_cellAt {M : Type*} [AddCommMonoid M] (g : CellIdx → M) :
    ∑ t : Fin 28, ∑ r : Fin 224, ∑ l : Fin 128, g (cellAt t r l) = ∑ i : CellIdx, g i := by
  rw [← Function.Bijective.sum_comp cellAt_bijective g, Fintype.sum_prod_type]
  refine Finset.sum_congr rfl fun t _ => ?_
  rw [Fintype.sum_prod_type]

theorem sum_two_groups {M : Type*} [AddCommMonoid M] (S : ℕ → M) :
    ∑ p : Fin 2, ∑ j ∈ Finset.range 14, S (p.val * 14 + j) = ∑ t : Fin 28, S t.val := by
  rw [Fin.sum_univ_two, Fin.sum_univ_eq_sum_range (fun n => S n) 28, show (28 : ℕ) = 14 + 14 from rfl,
    Finset.sum_range_add]
  simp

theorem sum_two_groups_fin {M : Type*} [AddCommMonoid M] (S : ℕ → M) :
    ∑ p : Fin 2, ∑ j : Fin 14, S (p.val * 14 + j.val) = ∑ t : Fin 28, S t.val := by
  rw [← sum_two_groups S]
  refine Finset.sum_congr rfl fun p _ => ?_
  exact Fin.sum_univ_eq_sum_range (fun j => S (p.val * 14 + j)) 14

theorem acc_eq_sum {M : Type*} [AddCommMonoid M] (S a : ℕ → M) (b : ℕ) (h0 : a b = 0 + S b)
    (hs : ∀ j, a (b + j + 1) = a (b + j) + S (b + j + 1)) (j : ℕ) :
    a (b + j) = ∑ i ∈ Finset.range (j + 1), S (b + i) := by
  induction j with
  | zero => simp [h0]
  | succ j ih =>
    rw [← Nat.add_assoc, hs j, ih, Finset.sum_range_succ _ (j + 1), Nat.add_assoc]

def Sblk (g : CellIdx → EReal) (t : Fin 28) : EReal :=
  0 + ∑ r : Fin 224, (0 + ∑ l : Fin 128, g (cellAt t r l))

theorem Sblk_eq (g : CellIdx → EReal) (t : Fin 28) :
    Sblk g t = ∑ r : Fin 224, ∑ l : Fin 128, g (cellAt t r l) := by
  unfold Sblk
  simp only [zero_add]

def SblkN (g : CellIdx → EReal) (n : ℕ) : EReal := if h : n < 28 then Sblk g ⟨n, h⟩ else 0

theorem SblkN_val (g : CellIdx → EReal) (t : Fin 28) : SblkN g t.val = Sblk g t := by
  unfold SblkN
  rw [dif_pos t.isLt]

theorem sum_Sblk (g : CellIdx → EReal) : ∑ t : Fin 28, Sblk g t = ∑ i : CellIdx, g i := by
  simp only [Sblk_eq]
  exact sum_cellAt g

theorem tot_of_blocks' (g : CellIdx → EReal) (S : ℕ → EReal) (hS : ∀ t : Fin 28, S t.val = Sblk g t) :
    0 + ∑ p : Fin 2, ∑ j ∈ Finset.range 14, S (p.val * 14 + j) = 0 + ∑ i : CellIdx, g i := by
  rw [sum_two_groups S]
  simp only [hS]
  rw [sum_Sblk]

theorem tot_of_blocks (g : CellIdx → EReal) :
    0 + ∑ p : Fin 2, ∑ j ∈ Finset.range 14, SblkN g (p.val * 14 + j) = 0 + ∑ i : CellIdx, g i :=
  tot_of_blocks' g (SblkN g) (SblkN_val g)

theorem tot_of_blocks_add' (g1 g2 : CellIdx → EReal) (S1 S2 : ℕ → EReal)
    (hS1 : ∀ t : Fin 28, S1 t.val = Sblk g1 t) (hS2 : ∀ t : Fin 28, S2 t.val = Sblk g2 t) :
    0 + ∑ p : Fin 2, ∑ j ∈ Finset.range 14, (S1 (p.val * 14 + j) + S2 (p.val * 14 + j))
      = (0 + ∑ i : CellIdx, g1 i) + (0 + ∑ i : CellIdx, g2 i) := by
  rw [sum_two_groups (fun n => S1 n + S2 n)]
  simp only [hS1, hS2]
  rw [Finset.sum_add_distrib, sum_Sblk, sum_Sblk]
  simp only [zero_add]

theorem tot_of_blocks_add (g1 g2 : CellIdx → EReal) :
    0 + ∑ p : Fin 2, ∑ j ∈ Finset.range 14, (SblkN g1 (p.val * 14 + j) + SblkN g2 (p.val * 14 + j))
      = (0 + ∑ i : CellIdx, g1 i) + (0 + ∑ i : CellIdx, g2 i) :=
  tot_of_blocks_add' g1 g2 (SblkN g1) (SblkN g2) (SblkN_val g1) (SblkN_val g2)

end Cert.Yolo

end
-- ==== Proof.KernelIdeal.Acc.lean ====
import proofs.«404733_j85177791414999_3_alg».proof.Proof.KernelIdeal.OutEq
import proofs.«404733_j85177791414999_3_alg».proof.Proof.KernelIdeal.Blocks
import proofs.«404733_j85177791414999_3_alg».proof.Proof.SumLaws
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

def bsumAt (c : Dev nD) (k : Fin 4) (n : ℕ) : EReal :=
  if h : n < cfg0.N then bsum k (blk0 m c ⟨n, h⟩) (blk1 m c ⟨n, h⟩) (blk2 m c ⟨n, h⟩) (blk3 m c ⟨n, h⟩) else 0

theorem bsumAt_of_lt (c : Dev nD) (k : Fin 4) (n : ℕ) (h : n < cfg0.N) :
    bsumAt m c k n = bsum k (blk0 m c ⟨n, h⟩) (blk1 m c ⟨n, h⟩) (blk2 m c ⟨n, h⟩) (blk3 m c ⟨n, h⟩) := by
  unfold bsumAt
  rw [dif_pos h]

def accAt (c : Dev nD) (k : Fin 4) (n : ℕ) : EReal :=
  if h : n < cfg0.N then outsAt0 m c n h (lane k) else 0

theorem accAt_of_lt (c : Dev nD) (k : Fin 4) (n : ℕ) (h : n < cfg0.N) :
    accAt m c k n = outsAt0 m c n h (lane k) := by
  unfold accAt
  rw [dif_pos h]

theorem accAt_reset (c : Dev nD) (k : Fin 4) (n : ℕ) (h : n < cfg0.N) (h0 : n % 14 = 0) :
    accAt m c k n = 0 + bsumAt m c k n := by
  rw [accAt_of_lt m c k n h, bsumAt_of_lt m c k n h]
  have e := outsAt0_A m c ⟨n, h⟩ h0
  dsimp only at e
  rw [e]
  exact out0_A_4_apply c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩)
    (ms0_3 ⟨n, h⟩) (hs0_3 ⟨n, h⟩) (ms0_4 ⟨n, h⟩) (hs0_4 ⟨n, h⟩) ((hcond0_0 ⟨n, h⟩).mpr h0)
    (blk0 m c ⟨n, h⟩) (blk1 m c ⟨n, h⟩) (blk2 m c ⟨n, h⟩) (blk3 m c ⟨n, h⟩) k

theorem accAt_step (c : Dev nD) (k : Fin 4) (n : ℕ) (h : n + 1 < cfg0.N) (h0 : ¬(n + 1) % 14 = 0) :
    accAt m c k (n + 1) = accAt m c k n + bsumAt m c k (n + 1) := by
  rw [accAt_of_lt m c k (n + 1) h, accAt_of_lt m c k n (Nat.lt_of_succ_lt h), bsumAt_of_lt m c k (n + 1) h]
  have e := outsAt0_B m c ⟨n + 1, h⟩ h0
  dsimp only at e
  rw [e]
  exact out0_B_4_apply c (grid0.coords ⟨n + 1, h⟩) (ms0_0 ⟨n + 1, h⟩) (hs0_0 ⟨n + 1, h⟩) (ms0_1 ⟨n + 1, h⟩) (hs0_1 ⟨n + 1, h⟩)
    (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩)
    (fun hh => h0 ((hcond0_0 ⟨n + 1, h⟩).mp hh))
    (blk0 m c ⟨n + 1, h⟩) (blk1 m c ⟨n + 1, h⟩) (blk2 m c ⟨n + 1, h⟩) (blk3 m c ⟨n + 1, h⟩)
    (outsAt0 m c n (Nat.lt_of_succ_lt h)) k

theorem outsAt0_lane (c : Dev nD) (p : Fin 2) (j : ℕ) (hj : j < 14) (k : Fin 4) :
    outsAt0 m c (p.val * 14 + j) (by have := p.isLt; rw [show cfg0.N = 28 from N_0]; omega) (lane k)
      = ∑ i ∈ Finset.range (j + 1), bsumAt m c k (p.val * 14 + i) := by
  have hp := p.isLt
  have hN : cfg0.N = 28 := N_0
  rw [← accAt_of_lt m c k (p.val * 14 + j) (by omega)]
  induction j with
  | zero =>
    rw [Nat.add_zero, Finset.sum_range_one, Nat.add_zero, accAt_reset m c k (p.val * 14) (by omega) (by omega), zero_add]
  | succ j ih =>
    rw [Finset.sum_range_succ, ← ih (by omega), ← Nat.add_assoc]
    exact accAt_step m c k (p.val * 14 + j) (by omega) (by omega)

theorem idx4 : ∀ t : Fin cfg0.N, win0_4.index t (0 : Fin 3) = t.val / 14 ∧ win0_4.index t (1 : Fin 3) = 0
    ∧ win0_4.index t (2 : Fin 3) = 0 :=
  (by decide +kernel : ∀ t : Fin grid0.N, _)

def outsN (c : Dev nD) (n : ℕ) : Vec Ideal S1x8x128 .f32 :=
  if h : n < cfg0.N then outsAt0 m c n h else fun _ => 0

theorem outsN_of_lt (c : Dev nD) (n : ℕ) (h : n < cfg0.N) : outsN m c n = outsAt0 m c n h := by
  unfold outsN
  rw [dif_pos h]

def outG (c : Dev nD) : S2x8x128.Idx → Elt Ideal .f32 := fun i =>
  outsN m c ((i 0).val * 14 + 13) (ix3 (0 : Fin 1) (⟨(i 1).val, (i 1).isLt⟩ : Fin 8) (⟨(i 2).val, (i 2).isLt⟩ : Fin 128))

theorem flushed4_eq (c : Dev nD) (t : Fin cfg0.N) (hf : (cfg0.win 4).flush t = true) :
    (dats m 0 c).flushed 4 t = ((cfg0.win 4).blk t).view.read (Elt Ideal) (outG m c) := by
  have h13 : t.val % 14 = 13 := (flush0_4 t).mp hf
  obtain ⟨e0, e1, e2⟩ := idx4 t
  show (cfg0.win 4).cut (grid0.coords t) ((dats m 0 c).after 4 t) = _
  rw [after0_4]
  funext j
  rw [View.read_apply]
  have key : ∀ (n : ℕ) (x y : S1x8x128.Idx), n = t.val → x = y → outsAt0 m c t.val t.isLt x = outsN m c n y := by
    intro n x y hn hx
    subst hn hx
    rw [outsN_of_lt m c t.val t.isLt]
  refine key _ _ _ ?_ ?_
  · show (win0_4.index t (0 : Fin 3) * 1 + 1 * (j 0).val) * 14 + 13 = t.val
    have hj : (j 0).val < 1 := (j 0).isLt
    rw [e0]; omega
  · funext a
    apply Fin.ext
    match a with
    | ⟨0, _⟩ => show (j 0).val = 0; have hj : (j 0).val < 1 := (j 0).isLt; omega
    | ⟨1, _⟩ => show (j 1).val = win0_4.index t (1 : Fin 3) * 8 + 1 * (j 1).val; rw [e1]; omega
    | ⟨2, _⟩ => show (j 2).val = win0_4.index t (2 : Fin 3) * 128 + 1 * (j 2).val; rw [e2]; omega

theorem mem_blk4 (t : Fin cfg0.N) (i : S2x8x128.Idx) :
    i ∈ ((cfg0.win 4).blk t).view.set ↔ ∀ a : Fin 3, win0_4.index t a * S1x8x128.size a ≤ (i a).val
      ∧ (i a).val < win0_4.index t a * S1x8x128.size a + S1x8x128.size a := by
  show i ∈ ((View.whole main_v11).slice (win0_4.rect t)).set ↔ _
  rw [View.set_slice_whole, Rect.mem_set_unit]
  exact Iff.rfl

theorem arrAt_lane (c : Dev nD) (p : Fin 2) (k : Fin 4) :
    (dats m 0 c).arrAt 4 cfg0.N (ix3 p (0 : Fin 8) (⟨k.val, by omega⟩ : Fin 128))
      = ∑ i ∈ Finset.range 14, bsumAt m c k (p.val * 14 + i) := by
  have hp := p.isLt
  have hN : cfg0.N = 28 := N_0
  have ht : p.val * 14 + 13 < cfg0.N := by omega
  obtain ⟨e0, e1, e2⟩ := idx4 ⟨p.val * 14 + 13, ht⟩
  dsimp only at e0
  rw [(dats m 0 c).arrAt_apply_of_mem 4 (outG m c) (flushed4_eq m c) cfg0.N ⟨p.val * 14 + 13, ht⟩
    (ix3 p (0 : Fin 8) (⟨k.val, by omega⟩ : Fin 128)) ht ((flush0_4 _).mpr (by dsimp only; omega)) (by
      rw [mem_blk4]
      intro a
      match a with
      | ⟨0, _⟩ =>
        show win0_4.index ⟨p.val * 14 + 13, ht⟩ (0 : Fin 3) * 1 ≤ p.val ∧ p.val < win0_4.index ⟨p.val * 14 + 13, ht⟩ (0 : Fin 3) * 1 + 1
        rw [e0]; omega
      | ⟨1, _⟩ =>
        show win0_4.index ⟨p.val * 14 + 13, ht⟩ (1 : Fin 3) * 8 ≤ 0 ∧ 0 < win0_4.index ⟨p.val * 14 + 13, ht⟩ (1 : Fin 3) * 8 + 8
        rw [e1]; omega
      | ⟨2, _⟩ =>
        show win0_4.index ⟨p.val * 14 + 13, ht⟩ (2 : Fin 3) * 128 ≤ k.val ∧ k.val < win0_4.index ⟨p.val * 14 + 13, ht⟩ (2 : Fin 3) * 128 + 128
        have hk := k.isLt
        rw [e2]; omega)]
  show outsN m c (p.val * 14 + 13) (lane k) = _
  rw [outsN_of_lt m c (p.val * 14 + 13) ht]
  exact outsAt0_lane m c p 13 (by omega) k

end Cert.KernelIdeal.Hand

end
-- ==== Proof.KernelIdeal.Tail.lean ====
import proofs.«404733_j85177791414999_3_alg».proof.Proof.Gen.KernelIdeal.Launch
import proofs.«404733_j85177791414999_3_alg».proof.Proof.Cell
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost

noncomputable section

namespace Cert.KernelIdeal.Hand

open Cert.KernelIdeal Cert.KernelIdeal.Gen
open Idealize.ShloMosaic Idealize.ShloMosaic.StableHlo Idealize.ShloMosaic.ValueIdx

section Generic

variable {F : FTy → Type} [FloatOps F] [Named F]

def tailK (arr : Vec F S2x8x128 .f32) : FVec F S5 .f32 :=
  let v12 : FVec F S2x1x4 .f32 := extractStridedSlice S2x1x4 ![0, 0, 0] arr slices_S2x8x128_S2x1x4_0_0_0
  let v13 : FVec F S2x4 .f32 := shapeCast S2x4 v12 shapeCasts_S2x1x4_S2x4
  let cst : FVec F S_ .f32 := constant (F := F) S_ .f32 0x00000000#32
  let v14 : FVec F S4 .f32 := Host.reduceAdd (F := F) v13 cst reducesTo_S2x4_S4_d0 h_S_
  let v16 : FVec F S_ .f32 := shapeCast S_ (extractStridedSlice S1 ![0] v14 slices_S4_S1_0) shapeCasts_S1_S_
  let v18 : FVec F S_ .f32 := shapeCast S_ (extractStridedSlice S1 ![1] v14 slices_S4_S1_1) shapeCasts_S1_S_
  let v20 : FVec F S_ .f32 := shapeCast S_ (extractStridedSlice S1 ![2] v14 slices_S4_S1_2) shapeCasts_S1_S_
  let v22 : FVec F S_ .f32 := shapeCast S_ (extractStridedSlice S1 ![3] v14 slices_S4_S1_3) shapeCasts_S1_S_
  let v23 : FVec F S_ .f32 := mulf (constant (F := F) S_ .f32 0x3F000000#32) v18
  let v24 : FVec F S_ .f32 := addf v16 v23
  let v25 : FVec F S_ .f32 := mulf (constant (F := F) S_ .f32 0x40A00000#32) v20
  let v26 : FVec F S_ .f32 := addf v24 v25
  let v27 : FVec F S_ .f32 := addf v26 v22
  let v33 : FVec F S5 .f32 := concatenate S5 0
    [⟨S1, broadcastInDim S1 ![] bcast_S_S1 v27⟩, ⟨S1, broadcastInDim S1 ![] bcast_S_S1 v20⟩,
     ⟨S1, broadcastInDim S1 ![] bcast_S_S1 v22⟩, ⟨S1, broadcastInDim S1 ![] bcast_S_S1 v18⟩,
     ⟨S1, broadcastInDim S1 ![] bcast_S_S1 v16⟩] concatenates_S1_S1_S1_S1_S1_S5_d0
  Host.divf v33 (broadcastInDim S5 ![] bcast_S_S5 (constant (F := F) S_ .f32 0x45800000#32))

theorem nary5_result {τ' : Topo} {sig' : RefSig} {Val : EltTy → Type} {x a b c e y : Ref sig' .tc}
    (f : ((k : Fin 5) → ((![x, a, b, c, e] : Fin 5 → Ref sig' .tc) k).ty.Contents Val) → y.ty.Contents Val) (hxs hy)
    (V : Valuation τ' sig' Val) :
    (nary (τ := τ') ![x, a, b, c, e] y f hxs hy).result V (Proc.devRef .tc y)
      = f (Fin.cons (V (Proc.devRef .tc x)) (Fin.cons (V (Proc.devRef .tc a)) (Fin.cons (V (Proc.devRef .tc b))
          (Fin.cons (V (Proc.devRef .tc c)) (Fin.cons (V (Proc.devRef .tc e)) (fun i => i.elim0)))))) := by
  rw [nary_result]; congr 1; funext k; fin_cases k <;> rfl

set_option maxHeartbeats 4000000 in

theorem after_tail (W : Valuation τ sig (Elt F)) :
    StableHlo.after hostOps1 W (Proc.devRef .tc main_v35) = tailK (F := F) (W (Proc.devRef .tc main_v11)) := by
  simp only [after_cons, after_nil]
  repeat (first
    | rw [nullary_result] | rw [unary_result] | rw [binary_result] | rw [reshape_result] | rw [nary5_result]
    | (rw [nullary_result_ne]; rotate_left; decide)
    | (rw [unary_result_ne]; rotate_left; decide)
    | (rw [binary_result_ne]; rotate_left; decide)
    | (rw [reshape_result_ne]; rotate_left; decide)
    | (rw [nary_result_ne]; rotate_left; decide))
  rfl

end Generic

section AtIdeal

open scoped BigOperators

def T (arr : Vec Ideal S2x8x128 .f32) (k : Fin 4) : EReal :=
  0 + ∑ p : Fin 2, arr (ix3 p (0 : Fin 8) (⟨k.val, by omega⟩ : Fin 128))

theorem lift_ix2_S2x4 (h : S2x4.Reduces [0] S4) (k : Fin 4) (p : Fin (S2x4.size 0)) :
    h.lift (ix1 k) p = ix2 (⟨p.val, p.isLt⟩ : Fin 2) k := by
  funext c; apply Fin.ext
  fin_cases c <;> rfl

theorem flat_apply (arr : Vec Ideal S2x8x128 .f32) (p : Fin 2) (k : Fin 4) :
    shapeCast S2x4 (extractStridedSlice S2x1x4 ![0, 0, 0] arr slices_S2x8x128_S2x1x4_0_0_0) shapeCasts_S2x1x4_S2x4 (ix2 p k)
      = arr (ix3 p (0 : Fin 8) (⟨k.val, by omega⟩ : Fin 128)) := by
  rw [shapeCast_apply _ _ _ (ix3 p (0 : Fin 1) k) (by rw [Shape.rowMajor_val_three, Shape.rowMajor_val_two]; simp),
    extractStridedSlice_apply _ _ _ _ (ix3 p (0 : Fin 8) (⟨k.val, by omega⟩ : Fin 128)) (by intro a; fin_cases a <;> simp)]

theorem sums_apply (arr : Vec Ideal S2x8x128 .f32) (k : Fin 4) :
    Host.reduceAdd (F := Ideal)
      (shapeCast S2x4 (extractStridedSlice S2x1x4 ![0, 0, 0] arr slices_S2x8x128_S2x1x4_0_0_0) shapeCasts_S2x1x4_S2x4 : FVec Ideal S2x4 .f32)
      (constant (F := Ideal) S_ .f32 0x00000000#32) reducesTo_S2x4_S4_d0 h_S_ (ix1 k) = T arr k := by
  have h : S2x4.Reduces [0] S4 := by decide
  rw [hostReduceAdd_apply, Ideal.hostReduceAdd_single reducesTo_S2x4_S4_d0 h, constant_apply, Ideal.ofBits_zero_f32]
  unfold T
  congr 1
  refine Finset.sum_congr rfl fun p _ => ?_
  rw [lift_ix2_S2x4 h k p]
  exact flat_apply arr _ k

theorem entry_apply {α : Type} (v : S4.Idx → α) (j : ℕ) (hj : j < 4) (hs : S4.Slices ![j] S1) :
    shapeCast S_ (extractStridedSlice S1 ![j] v hs) shapeCasts_S1_S_ ix0 = v (ix1 (⟨j, hj⟩ : Fin 4)) := by
  rw [shapeCast_apply _ _ _ (ix1 (0 : Fin 1)) (by decide),
    extractStridedSlice_apply _ _ _ _ (ix1 (⟨j, hj⟩ : Fin 4)) (by intro a; fin_cases a; simp)]

theorem concat5_apply {α : Type} (x0 x1 x2 x3 x4 : S1.Idx → α) (k : Fin 5) :
    concatenate S5 0 [⟨S1, x0⟩, ⟨S1, x1⟩, ⟨S1, x2⟩, ⟨S1, x3⟩, ⟨S1, x4⟩] concatenates_S1_S1_S1_S1_S1_S5_d0 (ix1 k)
      = (match k with | 0 => x0 | 1 => x1 | 2 => x2 | 3 => x3 | 4 => x4) (ix1 (0 : Fin 1)) := by
  have hi : ∀ (j : S5.Idx) (b : Fin S1.rank), b.cast (rfl : S1.rank = S5.rank) ≠ (0 : Fin S5.rank) →
      ((ix1 (0 : Fin 1) : S1.Idx) b).val = (j (b.cast rfl)).val := by
    intro j b hb; fin_cases b; exact absurd rfl hb
  fin_cases k
  · exact concatenate_apply_piece (0 : Fin S5.rank) _ _ _ 0 (by simp) S1 x0 rfl rfl 0 rfl (ix1 (0 : Fin 1)) (hi _) rfl
  · exact concatenate_apply_piece (0 : Fin S5.rank) _ _ _ 1 (by simp) S1 x1 rfl rfl 1 rfl (ix1 (0 : Fin 1)) (hi _) rfl
  · exact concatenate_apply_piece (0 : Fin S5.rank) _ _ _ 2 (by simp) S1 x2 rfl rfl 2 rfl (ix1 (0 : Fin 1)) (hi _) rfl
  · exact concatenate_apply_piece (0 : Fin S5.rank) _ _ _ 3 (by simp) S1 x3 rfl rfl 3 rfl (ix1 (0 : Fin 1)) (hi _) rfl
  · exact concatenate_apply_piece (0 : Fin S5.rank) _ _ _ 4 (by simp) S1 x4 rfl rfl 4 rfl (ix1 (0 : Fin 1)) (hi _) rfl

theorem tailK_apply (arr : Vec Ideal S2x8x128 .f32) (i : Fin 5) :
    tailK (F := Ideal) arr (ix1 i) = Cert.Yolo.result (T arr 0) (T arr 1) (T arr 2) (T arr 3) i := by
  unfold tailK Cert.Yolo.result
  dsimp only
  rw [hostDivf_apply, broadcastInDim_scalar_apply, constant_apply, concat5_apply]
  congr 1
  fin_cases i
  · dsimp only
    rw [broadcastInDim_scalar_apply]
    simp only [addf_apply, mulf_apply, constant_apply]
    rw [entry_apply _ 0 (by omega), entry_apply _ 1 (by omega), entry_apply _ 2 (by omega), entry_apply _ 3 (by omega)]
    simp only [sums_apply]
    rfl
  · dsimp only
    rw [broadcastInDim_scalar_apply, entry_apply _ 2 (by omega), sums_apply]
    rfl
  · dsimp only
    rw [broadcastInDim_scalar_apply, entry_apply _ 3 (by omega), sums_apply]
    rfl
  · dsimp only
    rw [broadcastInDim_scalar_apply, entry_apply _ 1 (by omega), sums_apply]
    rfl
  · dsimp only
    rw [broadcastInDim_scalar_apply, entry_apply _ 0 (by omega), sums_apply]
    rfl

end AtIdeal

end Cert.KernelIdeal.Hand

end
-- ==== Proof.KernelIdeal.Value.lean ====
import proofs.«404733_j85177791414999_3_alg».proof.Proof.KernelIdeal.Acc
import proofs.«404733_j85177791414999_3_alg».proof.Proof.KernelIdeal.Blocks
import proofs.«404733_j85177791414999_3_alg».proof.Proof.KernelIdeal.Tail
import proofs.«404733_j85177791414999_3_alg».proof.Proof.KernelIdeal.OutEq
import proofs.«404733_j85177791414999_3_alg».proof.Proof.SumLaws
import Idealize.ShloMosaic.Lib.ValueIdx
import Idealize.ShloMosaic.Lib.Pipeline.Value
import Idealize.ShloMosaic.Lib.Pipeline.FrameSuffix
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem

section AtIdeal

variable (m : (ℓ : Loc nD τ sig) → Buf (Elt Ideal) ℓ)

theorem cP_blk0 (c : Dev nD) (t : Fin cfg0.N) (r : Fin 224) (l : Fin 128) :
    cP (blk0 m c t) r l = Cert.Yolo.argP (m ((c : Thread nD τ).loc main_arg0)) (Cert.Yolo.cellAt (t28 t) r l) := by
  funext ch
  exact blk0_apply m c t ch r l

theorem cB_blk1 (c : Dev nD) (t : Fin cfg0.N) (r : Fin 224) (l : Fin 128) :
    cB (blk1 m c t) r l = Cert.Yolo.argTB (m ((c : Thread nD τ).loc main_arg1)) (Cert.Yolo.cellAt (t28 t) r l) := by
  funext ch
  exact blk1_apply m c t ch r l

theorem cC_blk2 (c : Dev nD) (t : Fin cfg0.N) (r : Fin 224) (l : Fin 128) :
    cC (blk2 m c t) r l = Cert.Yolo.argQ (m ((c : Thread nD τ).loc main_arg2)) (Cert.Yolo.cellAt (t28 t) r l) := by
  funext ch
  exact blk2_apply m c t ch r l

theorem N_lt (t : Fin 28) : t.val < cfg0.N := lt_of_lt_of_eq t.isLt N_0.symm

theorem bsumAt_eq0 (c : Dev nD) (t : Fin 28) :
    bsumAt m c 0 t.val = Cert.Yolo.Sblk (fun i => Cert.Yolo.clsCell (Cert.Yolo.argP (m ((c : Thread nD τ).loc main_arg0)) i)
      (Cert.Yolo.argQ (m ((c : Thread nD τ).loc main_arg2)) i) (Cert.Yolo.argM (m ((c : Thread nD τ).loc main_arg3)) i)) t := by
  unfold bsumAt
  rw [dif_pos (N_lt t)]
  unfold bsum Cert.Yolo.Sblk
  simp only [cP_blk0, cC_blk2, blk3_apply]

theorem bsumAt_eq1 (c : Dev nD) (t : Fin 28) :
    bsumAt m c 1 t.val
      = Cert.Yolo.Sblk (fun i => Cert.Yolo.no1Cell (Cert.Yolo.argP (m ((c : Thread nD τ).loc main_arg0)) i)
          (Cert.Yolo.argM (m ((c : Thread nD τ).loc main_arg3)) i)) t
        + Cert.Yolo.Sblk (fun i => Cert.Yolo.no2Cell (Cert.Yolo.argP (m ((c : Thread nD τ).loc main_arg0)) i)
          (Cert.Yolo.argM (m ((c : Thread nD τ).loc main_arg3)) i)) t := by
  unfold bsumAt
  rw [dif_pos (N_lt t)]
  unfold bsum Cert.Yolo.Sblk
  simp only [cP_blk0, blk3_apply]

theorem bsumAt_eq2 (c : Dev nD) (t : Fin 28) :
    bsumAt m c 2 t.val = Cert.Yolo.Sblk (fun i => Cert.Yolo.regCell (Cert.Yolo.argP (m ((c : Thread nD τ).loc main_arg0)) i)
      (Cert.Yolo.argTB (m ((c : Thread nD τ).loc main_arg1)) i) (Cert.Yolo.argM (m ((c : Thread nD τ).loc main_arg3)) i)) t := by
  unfold bsumAt
  rw [dif_pos (N_lt t)]
  unfold bsum Cert.Yolo.Sblk
  simp only [cP_blk0, cB_blk1, blk3_apply]

theorem bsumAt_eq3 (c : Dev nD) (t : Fin 28) :
    bsumAt m c 3 t.val = Cert.Yolo.Sblk (fun i => Cert.Yolo.objCell (Cert.Yolo.argP (m ((c : Thread nD τ).loc main_arg0)) i)
      (Cert.Yolo.argTB (m ((c : Thread nD τ).loc main_arg1)) i) (Cert.Yolo.argM (m ((c : Thread nD τ).loc main_arg3)) i)) t := by
  unfold bsumAt
  rw [dif_pos (N_lt t)]
  unfold bsum Cert.Yolo.Sblk
  simp only [cP_blk0, cB_blk1, blk3_apply]

theorem bsumAt_eq1N (c : Dev nD) (n : ℕ) :
    bsumAt m c 1 n
      = Cert.Yolo.SblkN (fun i => Cert.Yolo.no1Cell (Cert.Yolo.argP (m ((c : Thread nD τ).loc main_arg0)) i)
          (Cert.Yolo.argM (m ((c : Thread nD τ).loc main_arg3)) i)) n
        + Cert.Yolo.SblkN (fun i => Cert.Yolo.no2Cell (Cert.Yolo.argP (m ((c : Thread nD τ).loc main_arg0)) i)
          (Cert.Yolo.argM (m ((c : Thread nD τ).loc main_arg3)) i)) n := by
  by_cases h : n < 28
  · have h1 := bsumAt_eq1 m c ⟨n, h⟩
    rw [← Cert.Yolo.SblkN_val, ← Cert.Yolo.SblkN_val] at h1
    exact h1
  · unfold bsumAt Cert.Yolo.SblkN
    rw [dif_neg (fun h' => h (lt_of_lt_of_eq h' N_0)), dif_neg h, dif_neg h, add_zero]

theorem totals (c : Dev nD) :
    T ((dats m 0 c).arrAt 4 cfg0.N) 0 = Cert.Yolo.totCls (Cert.Yolo.argP (m ((c : Thread nD τ).loc main_arg0)))
        (Cert.Yolo.argQ (m ((c : Thread nD τ).loc main_arg2))) (Cert.Yolo.argM (m ((c : Thread nD τ).loc main_arg3)))
    ∧ T ((dats m 0 c).arrAt 4 cfg0.N) 1 = Cert.Yolo.totNo (Cert.Yolo.argP (m ((c : Thread nD τ).loc main_arg0)))
        (Cert.Yolo.argM (m ((c : Thread nD τ).loc main_arg3)))
    ∧ T ((dats m 0 c).arrAt 4 cfg0.N) 2 = Cert.Yolo.totReg (Cert.Yolo.argP (m ((c : Thread nD τ).loc main_arg0)))
        (Cert.Yolo.argTB (m ((c : Thread nD τ).loc main_arg1))) (Cert.Yolo.argM (m ((c : Thread nD τ).loc main_arg3)))
    ∧ T ((dats m 0 c).arrAt 4 cfg0.N) 3 = Cert.Yolo.totObj (Cert.Yolo.argP (m ((c : Thread nD τ).loc main_arg0)))
        (Cert.Yolo.argTB (m ((c : Thread nD τ).loc main_arg1))) (Cert.Yolo.argM (m ((c : Thread nD τ).loc main_arg3))) := by
  refine ⟨?_, ?_, ?_, ?_⟩
  · unfold T Cert.Yolo.totCls
    simp only [arrAt_lane]
    exact Cert.Yolo.tot_of_blocks' _ (bsumAt m c 0) (bsumAt_eq0 m c)
  · unfold T Cert.Yolo.totNo
    simp only [arrAt_lane, bsumAt_eq1N]
    exact Cert.Yolo.tot_of_blocks_add _ _
  · unfold T Cert.Yolo.totReg
    simp only [arrAt_lane]
    exact Cert.Yolo.tot_of_blocks' _ (bsumAt m c 2) (bsumAt_eq2 m c)
  · unfold T Cert.Yolo.totObj
    simp only [arrAt_lane]
    exact Cert.Yolo.tot_of_blocks' _ (bsumAt m c 3) (bsumAt_eq3 m c)

end AtIdeal

section Run

variable (m : (ℓ : Loc nD τ sig) → Buf (Elt Ideal) ℓ) (ρ : Dev nD → PrngReg)

theorem tail_v35 (c : Dev nD) :
    Pipeline.afterTail₀ cfgs (dats m) 0 (V0 m) [hostOps1] c main_v35 = tailK ((dats m 0 c).arrAt 4 cfg0.N) := by
  unfold Pipeline.afterTail₀
  simp only [List.flatten_cons, List.flatten_nil, List.append_nil]
  rw [after_tail]
  congr 1
  exact Pipeline.withArrays_arr spec0 launch0.win.arr_inj c _ _ 4

theorem tail_v35_apply (c : Dev nD) (i : Fin 5) :
    Pipeline.afterTail₀ cfgs (dats m) 0 (V0 m) [hostOps1] c main_v35 (ix1 i)
      = Cert.Yolo.loss (Cert.Yolo.argP (m ((c : Thread nD τ).loc main_arg0))) (Cert.Yolo.argTB (m ((c : Thread nD τ).loc main_arg1)))
          (Cert.Yolo.argQ (m ((c : Thread nD τ).loc main_arg2))) (Cert.Yolo.argM (m ((c : Thread nD τ).loc main_arg3))) i := by
  obtain ⟨h0, h1, h2, h3⟩ := totals m c
  rw [tail_v35, tailK_apply, h0, h1, h2, h3]
  rfl

theorem run_value : θ_run defs (onTc (τ := τ) (main (F := Ideal))) ⟨m, fun _ => 0, ρ⟩ (fun r => ∀ c : Dev nD,
      (∀ i : Fin 5, r.2.mem ((c.tc : Thread nD τ).loc main_v35) (ix1 i)
        = Cert.Yolo.loss (Cert.Yolo.argP (m ((c.tc : Thread nD τ).loc main_arg0))) (Cert.Yolo.argTB (m ((c.tc : Thread nD τ).loc main_arg1)))
            (Cert.Yolo.argQ (m ((c.tc : Thread nD τ).loc main_arg2))) (Cert.Yolo.argM (m ((c.tc : Thread nD τ).loc main_arg3))) i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨fun i => by
        rw [(h c).2 main_v35 (Pipeline.mem_restRefs_of main_v35 (by decide) (by decide))]
        exact tail_v35_apply m c i,
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Run

end Cert.KernelIdeal.Hand

end
-- ==== Proof.RefOps.lean ====
import proofs.«404733_j85177791414999_3_alg».proof.Proof.Gen.ReferenceIdeal
import Idealize.ShloMosaic.Lib.StableHlo.Run

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

abbrev ops_part0 : List (HloOp τ sig (Elt F)) :=
  [ unary main_arg0 main_v0 ((extractStridedSlice S4096x14x14x5 ![0, 0, 0, 0] · slices_S4096x14x14x30_S4096x14x14x5_0_0_0_0) : (⟨S4096x14x14x30, .f32⟩ : BufTy).Contents (Elt F) → (⟨S4096x14x14x5, .f32⟩ : BufTy).Contents (Elt F)),
    unary main_arg0 main_v1 ((extractStridedSlice S4096x14x14x5 ![0, 0, 0, 5] · slices_S4096x14x14x30_S4096x14x14x5_0_0_0_5) : (⟨S4096x14x14x30, .f32⟩ : BufTy).Contents (Elt F) → (⟨S4096x14x14x5, .f32⟩ : BufTy).Contents (Elt F)),
    unary main_arg0 main_v2 ((extractStridedSlice S4096x14x14x20 ![0, 0, 0, 10] · slices_S4096x14x14x30_S4096x14x14x20_0_0_0_10) : (⟨S4096x14x14x30, .f32⟩ : BufTy).Contents (Elt F) → (⟨S4096x14x14x20, .f32⟩ : BufTy).Contents (Elt F)),
    unary main_arg3 main_v3 (uitofp .f32 : (⟨S4096x14x14, .i1⟩ : BufTy).Contents (Elt F) → (⟨S4096x14x14, .f32⟩ : BufTy).Contents (Elt F)),
    binary main_v2 main_arg2 main_v4 (subf : (⟨S4096x14x14x20, .f32⟩ : BufTy).Contents (Elt F) → (⟨S4096x14x14x20, .f32⟩ : BufTy).Contents (Elt F) → (⟨S4096x14x14x20, .f32⟩ : BufTy).Contents (Elt F)),
    binary main_v4 main_v4 main_v5 (mulf : (⟨S4096x14x14x20, .f32⟩ : BufTy).Contents (Elt F) → (⟨S4096x14x14x20, .f32⟩ : BufTy).Contents (Elt F) → (⟨S4096x14x14x20, .f32⟩ : BufTy).Contents (Elt F)),
    nullary main_cst (constant S_ .f32 0x00000000#32),
    binary main_v5 main_cst main_v6 ((fun x v => Host.reduceAdd x v reducesTo_S4096x14x14x20_S4096x14x14_d3 h_S_) : (⟨S4096x14x14x20, .f32⟩ : BufTy).Contents (Elt F) → (⟨S_, .f32⟩ : BufTy).Contents (Elt F) → (⟨S4096x14x14, .f32⟩ : BufTy).Contents (Elt F)),
    binary main_v3 main_v6 main_v7 (mulf : (⟨S4096x14x14, .f32⟩ : BufTy).Contents (Elt F) → (⟨S4096x14x14, .f32⟩ : BufTy).Contents (Elt F) → (⟨S4096x14x14, .f32⟩ : BufTy).Contents (Elt F)),
    nullary main_cst_0 (constant S_ .f32 0x00000000#32),
    binary main_v7 main_cst_0 main_v8 ((fun x v => Host.reduceAdd x v reducesTo_S4096x14x14_S_d0_1_2 h_S_) : (⟨S4096x14x14, .f32⟩ : BufTy).Contents (Elt F) → (⟨S_, .f32⟩ : BufTy).Contents (Elt F) → (⟨S_, .f32⟩ : BufTy).Contents (Elt F)),
    nullary main_cst_1 (constant S_ .f32 0x3F800000#32),
    unary main_cst_1 main_v9 (broadcastInDim S4096x14x14 ![] bcast_S_S4096x14x14 : (⟨S_, .f32⟩ : BufTy).Contents (Elt F) → (⟨S4096x14x14, .f32⟩ : BufTy).Contents (Elt F)),
    binary main_v9 main_v3 main_v10 (subf : (⟨S4096x14x14, .f32⟩ : BufTy).Contents (Elt F) → (⟨S4096x14x14, .f32⟩ : BufTy).Contents (Elt F) → (⟨S4096x14x14, .f32⟩ : BufTy).Contents (Elt F)),
    unary main_v0 main_v11 ((extractStridedSlice S4096x14x14x1 ![0, 0, 0, 4] · slices_S4096x14x14x5_S4096x14x14x1_0_0_0_4) : (⟨S4096x14x14x5, .f32⟩ : BufTy).Contents (Elt F) → (⟨S4096x14x14x1, .f32⟩ : BufTy).Contents (Elt F)),
    reshape main_v11 main_v12 rfl shapeCasts_S4096x14x14x1_S4096x14x14,
    binary main_v10 main_v12 main_v13 (mulf : (⟨S4096x14x14, .f32⟩ : BufTy).Contents (Elt F) → (⟨S4096x14x14, .f32⟩ : BufTy).Contents (Elt F) → (⟨S4096x14x14, .f32⟩ : BufTy).Contents (Elt F)),
    binary main_v13 main_v13 main_v14 (mulf : (⟨S4096x14x14, .f32⟩ : BufTy).Contents (Elt F) → (⟨S4096x14x14, .f32⟩ : BufTy).Contents (Elt F) → (⟨S4096x14x14, .f32⟩ : BufTy).Contents (Elt F)),
    nullary main_cst_2 (constant S_ .f32 0x00000000#32),
    binary main_v14 main_cst_2 main_v15 ((fun x v => Host.reduceAdd x v reducesTo_S4096x14x14_S_d0_1_2 h_S_) : (⟨S4096x14x14, .f32⟩ : BufTy).Contents (Elt F) → (⟨S_, .f32⟩ : BufTy).Contents (Elt F) → (⟨S_, .f32⟩ : BufTy).Contents (Elt F)),
    nullary main_cst_3 (constant S_ .f32 0x3F800000#32),
    unary main_cst_3 main_v16 (broadcastInDim S4096x14x14 ![] bcast_S_S4096x14x14 : (⟨S_, .f32⟩ : BufTy).Contents (Elt F) → (⟨S4096x14x14, .f32⟩ : BufTy).Contents (Elt F)),
    binary main_v16 main_v3 main_v17 (subf : (⟨S4096x14x14, .f32⟩ : BufTy).Contents (Elt F) → (⟨S4096x14x14, .f32⟩ : BufTy).Contents (Elt F) → (⟨S4096x14x14, .f32⟩ : BufTy).Contents (Elt F)),
    unary main_v1 main_v18 ((extractStridedSlice S4096x14x14x1 ![0, 0, 0, 4] · slices_S4096x14x14x5_S4096x14x14x1_0_0_0_4) : (⟨S4096x14x14x5, .f32⟩ : BufTy).Contents (Elt F) → (⟨S4096x14x14x1, .f32⟩ : BufTy).Contents (Elt F)),
    reshape main_v18 main_v19 rfl shapeCasts_S4096x14x14x1_S4096x14x14,
    binary main_v17 main_v19 main_v20 (mulf : (⟨S4096x14x14, .f32⟩ : BufTy).Contents (Elt F) → (⟨S4096x14x14, .f32⟩ : BufTy).Contents (Elt F) → (⟨S4096x14x14, .f32⟩ : BufTy).Contents (Elt F)),
    binary main_v20 main_v20 main_v21 (mulf : (⟨S4096x14x14, .f32⟩ : BufTy).Contents (Elt F) → (⟨S4096x14x14, .f32⟩ : BufTy).Contents (Elt F) → (⟨S4096x14x14, .f32⟩ : BufTy).Contents (Elt F)),
    nullary main_cst_4 (constant S_ .f32 0x00000000#32),
    binary main_v21 main_cst_4 main_v22 ((fun x v => Host.reduceAdd x v reducesTo_S4096x14x14_S_d0_1_2 h_S_) : (⟨S4096x14x14, .f32⟩ : BufTy).Contents (Elt F) → (⟨S_, .f32⟩ : BufTy).Contents (Elt F) → (⟨S_, .f32⟩ : BufTy).Contents (Elt F)),
    binary main_v15 main_v22 main_v23 (addf : (⟨S_, .f32⟩ : BufTy).Contents (Elt F) → (⟨S_, .f32⟩ : BufTy).Contents (Elt F) → (⟨S_, .f32⟩ : BufTy).Contents (Elt F)),
    unary main_v0 main_v24 ((extractStridedSlice S4096x14x14x4 ![0, 0, 0, 0] · slices_S4096x14x14x5_S4096x14x14x4_0_0_0_0) : (⟨S4096x14x14x5, .f32⟩ : BufTy).Contents (Elt F) → (⟨S4096x14x14x4, .f32⟩ : BufTy).Contents (Elt F)),
    unary main_v24 main_v25 ((extractStridedSlice S4096x14x14x2 ![0, 0, 0, 0] · slices_S4096x14x14x4_S4096x14x14x2_0_0_0_0) : (⟨S4096x14x14x4, .f32⟩ : BufTy).Contents (Elt F) → (⟨S4096x14x14x2, .f32⟩ : BufTy).Contents (Elt F)),
    nullary main_cst_5 (constant S_ .f32 0x41600000#32),
    unary main_cst_5 main_v26 (broadcastInDim S4096x14x14x2 ![] bcast_S_S4096x14x14x2 : (⟨S_, .f32⟩ : BufTy).Contents (Elt F) → (⟨S4096x14x14x2, .f32⟩ : BufTy).Contents (Elt F)),
    binary main_v25 main_v26 main_v27 (Host.divf : (⟨S4096x14x14x2, .f32⟩ : BufTy).Contents (Elt F) → (⟨S4096x14x14x2, .f32⟩ : BufTy).Contents (Elt F) → (⟨S4096x14x14x2, .f32⟩ : BufTy).Contents (Elt F)),
    unary main_v24 main_v28 ((extractStridedSlice S4096x14x14x2 ![0, 0, 0, 2] · slices_S4096x14x14x4_S4096x14x14x2_0_0_0_2) : (⟨S4096x14x14x4, .f32⟩ : BufTy).Contents (Elt F) → (⟨S4096x14x14x2, .f32⟩ : BufTy).Contents (Elt F)),
    nullary main_cst_6 (constant S_ .f32 0x3F000000#32),
    unary main_cst_6 main_v29 (broadcastInDim S4096x14x14x2 ![] bcast_S_S4096x14x14x2 : (⟨S_, .f32⟩ : BufTy).Contents (Elt F) → (⟨S4096x14x14x2, .f32⟩ : BufTy).Contents (Elt F)),
    binary main_v29 main_v28 main_v30 (mulf : (⟨S4096x14x14x2, .f32⟩ : BufTy).Contents (Elt F) → (⟨S4096x14x14x2, .f32⟩ : BufTy).Contents (Elt F) → (⟨S4096x14x14x2, .f32⟩ : BufTy).Contents (Elt F)),
    binary main_v27 main_v30 main_v31 (subf : (⟨S4096x14x14x2, .f32⟩ : BufTy).Contents (Elt F) → (⟨S4096x14x14x2, .f32⟩ : BufTy).Contents (Elt F) → (⟨S4096x14x14x2, .f32⟩ : BufTy).Contents (Elt F)),
    nullary main_cst_7 (constant S_ .f32 0x3F000000#32),
    unary main_cst_7 main_v32 (broadcastInDim S4096x14x14x2 ![] bcast_S_S4096x14x14x2 : (⟨S_, .f32⟩ : BufTy).Contents (Elt F) → (⟨S4096x14x14x2, .f32⟩ : BufTy).Contents (Elt F)),
    binary main_v32 main_v28 main_v33 (mulf : (⟨S4096x14x14x2, .f32⟩ : BufTy).Contents (Elt F) → (⟨S4096x14x14x2, .f32⟩ : BufTy).Contents (Elt F) → (⟨S4096x14x14x2, .f32⟩ : BufTy).Contents (Elt F)),
    binary main_v27 main_v33 main_v34 (addf : (⟨S4096x14x14x2, .f32⟩ : BufTy).Contents (Elt F) → (⟨S4096x14x14x2, .f32⟩ : BufTy).Contents (Elt F) → (⟨S4096x14x14x2, .f32⟩ : BufTy).Contents (Elt F)),
    binary main_v31 main_v34 main_v35 ((fun a b => concatenate S4096x14x14x4 3 [⟨S4096x14x14x2, a⟩, ⟨S4096x14x14x2, b⟩] concatenates_S4096x14x14x2_S4096x14x14x2_S4096x14x14x4_d3) : (⟨S4096x14x14x2, .f32⟩ : BufTy).Contents (Elt F) → (⟨S4096x14x14x2, .f32⟩ : BufTy).Contents (Elt F) → (⟨S4096x14x14x4, .f32⟩ : BufTy).Contents (Elt F)),
    unary main_v1 main_v36 ((extractStridedSlice S4096x14x14x4 ![0, 0, 0, 0] · slices_S4096x14x14x5_S4096x14x14x4_0_0_0_0) : (⟨S4096x14x14x5, .f32⟩ : BufTy).Contents (Elt F) → (⟨S4096x14x14x4, .f32⟩ : BufTy).Contents (Elt F)),
    unary main_v36 main_v37 ((extractStridedSlice S4096x14x14x2 ![0, 0, 0, 0] · slices_S4096x14x14x4_S4096x14x14x2_0_0_0_0) : (⟨S4096x14x14x4, .f32⟩ : BufTy).Contents (Elt F) → (⟨S4096x14x14x2, .f32⟩ : BufTy).Contents (Elt F)),
    nullary main_cst_8 (constant S_ .f32 0x41600000#32),
    unary main_cst_8 main_v38 (broadcastInDim S4096x14x14x2 ![] bcast_S_S4096x14x14x2 : (⟨S_, .f32⟩ : BufTy).Contents (Elt F) → (⟨S4096x14x14x2, .f32⟩ : BufTy).Contents (Elt F)),
    binary main_v37 main_v38 main_v39 (Host.divf : (⟨S4096x14x14x2, .f32⟩ : BufTy).Contents (Elt F) → (⟨S4096x14x14x2, .f32⟩ : BufTy).Contents (Elt F) → (⟨S4096x14x14x2, .f32⟩ : BufTy).Contents (Elt F)),
    unary main_v36 main_v40 ((extractStridedSlice S4096x14x14x2 ![0, 0, 0, 2] · slices_S4096x14x14x4_S4096x14x14x2_0_0_0_2) : (⟨S4096x14x14x4, .f32⟩ : BufTy).Contents (Elt F) → (⟨S4096x14x14x2, .f32⟩ : BufTy).Contents (Elt F)),
    nullary main_cst_9 (constant S_ .f32 0x3F000000#32),
    unary main_cst_9 main_v41 (broadcastInDim S4096x14x14x2 ![] bcast_S_S4096x14x14x2 : (⟨S_, .f32⟩ : BufTy).Contents (Elt F) → (⟨S4096x14x14x2, .f32⟩ : BufTy).Contents (Elt F)),
    binary main_v41 main_v40 main_v42 (mulf : (⟨S4096x14x14x2, .f32⟩ : BufTy).Contents (Elt F) → (⟨S4096x14x14x2, .f32⟩ : BufTy).Contents (Elt F) → (⟨S4096x14x14x2, .f32⟩ : BufTy).Contents (Elt F)),
    binary main_v39 main_v42 main_v43 (subf : (⟨S4096x14x14x2, .f32⟩ : BufTy).Contents (Elt F) → (⟨S4096x14x14x2, .f32⟩ : BufTy).Contents (Elt F) → (⟨S4096x14x14x2, .f32⟩ : BufTy).Contents (Elt F)),
    nullary main_cst_10 (constant S_ .f32 0x3F000000#32),
    unary main_cst_10 main_v44 (broadcastInDim S4096x14x14x2 ![] bcast_S_S4096x14x14x2 : (⟨S_, .f32⟩ : BufTy).Contents (Elt F) → (⟨S4096x14x14x2, .f32⟩ : BufTy).Contents (Elt F)),
    binary main_v44 main_v40 main_v45 (mulf : (⟨S4096x14x14x2, .f32⟩ : BufTy).Contents (Elt F) → (⟨S4096x14x14x2, .f32⟩ : BufTy).Contents (Elt F) → (⟨S4096x14x14x2, .f32⟩ : BufTy).Contents (Elt F)),
    binary main_v39 main_v45 main_v46 (addf : (⟨S4096x14x14x2, .f32⟩ : BufTy).Contents (Elt F) → (⟨S4096x14x14x2, .f32⟩ : BufTy).Contents (Elt F) → (⟨S4096x14x14x2, .f32⟩ : BufTy).Contents (Elt F)),
    binary main_v43 main_v46 main_v47 ((fun a b => concatenate S4096x14x14x4 3 [⟨S4096x14x14x2, a⟩, ⟨S4096x14x14x2, b⟩] concatenates_S4096x14x14x2_S4096x14x14x2_S4096x14x14x4_d3) : (⟨S4096x14x14x2, .f32⟩ : BufTy).Contents (Elt F) → (⟨S4096x14x14x2, .f32⟩ : BufTy).Contents (Elt F) → (⟨S4096x14x14x4, .f32⟩ : BufTy).Contents (Elt F)) ]

abbrev ops_part1 : List (HloOp τ sig (Elt F)) :=
  [ unary main_arg1 main_v48 ((extractStridedSlice S4096x14x14x2 ![0, 0, 0, 0] · slices_S4096x14x14x4_S4096x14x14x2_0_0_0_0) : (⟨S4096x14x14x4, .f32⟩ : BufTy).Contents (Elt F) → (⟨S4096x14x14x2, .f32⟩ : BufTy).Contents (Elt F)),
    nullary main_cst_11 (constant S_ .f32 0x41600000#32),
    unary main_cst_11 main_v49 (broadcastInDim S4096x14x14x2 ![] bcast_S_S4096x14x14x2 : (⟨S_, .f32⟩ : BufTy).Contents (Elt F) → (⟨S4096x14x14x2, .f32⟩ : BufTy).Contents (Elt F)),
    binary main_v48 main_v49 main_v50 (Host.divf : (⟨S4096x14x14x2, .f32⟩ : BufTy).Contents (Elt F) → (⟨S4096x14x14x2, .f32⟩ : BufTy).Contents (Elt F) → (⟨S4096x14x14x2, .f32⟩ : BufTy).Contents (Elt F)),
    unary main_arg1 main_v51 ((extractStridedSlice S4096x14x14x2 ![0, 0, 0, 2] · slices_S4096x14x14x4_S4096x14x14x2_0_0_0_2) : (⟨S4096x14x14x4, .f32⟩ : BufTy).Contents (Elt F) → (⟨S4096x14x14x2, .f32⟩ : BufTy).Contents (Elt F)),
    nullary main_cst_12 (constant S_ .f32 0x3F000000#32),
    unary main_cst_12 main_v52 (broadcastInDim S4096x14x14x2 ![] bcast_S_S4096x14x14x2 : (⟨S_, .f32⟩ : BufTy).Contents (Elt F) → (⟨S4096x14x14x2, .f32⟩ : BufTy).Contents (Elt F)),
    binary main_v52 main_v51 main_v53 (mulf : (⟨S4096x14x14x2, .f32⟩ : BufTy).Contents (Elt F) → (⟨S4096x14x14x2, .f32⟩ : BufTy).Contents (Elt F) → (⟨S4096x14x14x2, .f32⟩ : BufTy).Contents (Elt F)),
    binary main_v50 main_v53 main_v54 (subf : (⟨S4096x14x14x2, .f32⟩ : BufTy).Contents (Elt F) → (⟨S4096x14x14x2, .f32⟩ : BufTy).Contents (Elt F) → (⟨S4096x14x14x2, .f32⟩ : BufTy).Contents (Elt F)),
    nullary main_cst_13 (constant S_ .f32 0x3F000000#32),
    unary main_cst_13 main_v55 (broadcastInDim S4096x14x14x2 ![] bcast_S_S4096x14x14x2 : (⟨S_, .f32⟩ : BufTy).Contents (Elt F) → (⟨S4096x14x14x2, .f32⟩ : BufTy).Contents (Elt F)),
    binary main_v55 main_v51 main_v56 (mulf : (⟨S4096x14x14x2, .f32⟩ : BufTy).Contents (Elt F) → (⟨S4096x14x14x2, .f32⟩ : BufTy).Contents (Elt F) → (⟨S4096x14x14x2, .f32⟩ : BufTy).Contents (Elt F)),
    binary main_v50 main_v56 main_v57 (addf : (⟨S4096x14x14x2, .f32⟩ : BufTy).Contents (Elt F) → (⟨S4096x14x14x2, .f32⟩ : BufTy).Contents (Elt F) → (⟨S4096x14x14x2, .f32⟩ : BufTy).Contents (Elt F)),
    binary main_v54 main_v57 main_v58 ((fun a b => concatenate S4096x14x14x4 3 [⟨S4096x14x14x2, a⟩, ⟨S4096x14x14x2, b⟩] concatenates_S4096x14x14x2_S4096x14x14x2_S4096x14x14x4_d3) : (⟨S4096x14x14x2, .f32⟩ : BufTy).Contents (Elt F) → (⟨S4096x14x14x2, .f32⟩ : BufTy).Contents (Elt F) → (⟨S4096x14x14x4, .f32⟩ : BufTy).Contents (Elt F)),
    unary main_v35 main_v59 ((extractStridedSlice S4096x14x14x2 ![0, 0, 0, 0] · slices_S4096x14x14x4_S4096x14x14x2_0_0_0_0) : (⟨S4096x14x14x4, .f32⟩ : BufTy).Contents (Elt F) → (⟨S4096x14x14x2, .f32⟩ : BufTy).Contents (Elt F)),
    unary main_v58 main_v60 ((extractStridedSlice S4096x14x14x2 ![0, 0, 0, 0] · slices_S4096x14x14x4_S4096x14x14x2_0_0_0_0) : (⟨S4096x14x14x4, .f32⟩ : BufTy).Contents (Elt F) → (⟨S4096x14x14x2, .f32⟩ : BufTy).Contents (Elt F)),
    binary main_v59 main_v60 main_v61 (maximumf : (⟨S4096x14x14x2, .f32⟩ : BufTy).Contents (Elt F) → (⟨S4096x14x14x2, .f32⟩ : BufTy).Contents (Elt F) → (⟨S4096x14x14x2, .f32⟩ : BufTy).Contents (Elt F)),
    unary main_v35 main_v62 ((extractStridedSlice S4096x14x14x2 ![0, 0, 0, 2] · slices_S4096x14x14x4_S4096x14x14x2_0_0_0_2) : (⟨S4096x14x14x4, .f32⟩ : BufTy).Contents (Elt F) → (⟨S4096x14x14x2, .f32⟩ : BufTy).Contents (Elt F)),
    unary main_v58 main_v63 ((extractStridedSlice S4096x14x14x2 ![0, 0, 0, 2] · slices_S4096x14x14x4_S4096x14x14x2_0_0_0_2) : (⟨S4096x14x14x4, .f32⟩ : BufTy).Contents (Elt F) → (⟨S4096x14x14x2, .f32⟩ : BufTy).Contents (Elt F)),
    binary main_v62 main_v63 main_v64 (minimumf : (⟨S4096x14x14x2, .f32⟩ : BufTy).Contents (Elt F) → (⟨S4096x14x14x2, .f32⟩ : BufTy).Contents (Elt F) → (⟨S4096x14x14x2, .f32⟩ : BufTy).Contents (Elt F)),
    binary main_v64 main_v61 main_v65 (subf : (⟨S4096x14x14x2, .f32⟩ : BufTy).Contents (Elt F) → (⟨S4096x14x14x2, .f32⟩ : BufTy).Contents (Elt F) → (⟨S4096x14x14x2, .f32⟩ : BufTy).Contents (Elt F)),
    nullary main_cst_14 (constant S_ .f32 0x00000000#32),
    TRef.unary (TRef.of (T := ⟨S_, .f32⟩) main_cst_14) (TRef.of (T := ⟨S_, .f32⟩) main_call0_v0) id,
    TRef.unary (TRef.of (T := ⟨S_, .f32⟩) main_call0_v0) (TRef.of (T := ⟨S4096x14x14x2, .f32⟩) main_call0_v1) (broadcastInDim S4096x14x14x2 ![] bcast_S_S4096x14x14x2),
    TRef.binary (TRef.of (T := ⟨S4096x14x14x2, .f32⟩) main_call0_v1) (TRef.of (T := ⟨S4096x14x14x2, .f32⟩) main_v65) (TRef.of (T := ⟨S4096x14x14x2, .f32⟩) main_v66) maximumf,
    unary main_v66 main_v67 ((extractStridedSlice S4096x14x14x1 ![0, 0, 0, 0] · slices_S4096x14x14x2_S4096x14x14x1_0_0_0_0) : (⟨S4096x14x14x2, .f32⟩ : BufTy).Contents (Elt F) → (⟨S4096x14x14x1, .f32⟩ : BufTy).Contents (Elt F)),
    reshape main_v67 main_v68 rfl shapeCasts_S4096x14x14x1_S4096x14x14,
    unary main_v66 main_v69 ((extractStridedSlice S4096x14x14x1 ![0, 0, 0, 1] · slices_S4096x14x14x2_S4096x14x14x1_0_0_0_1) : (⟨S4096x14x14x2, .f32⟩ : BufTy).Contents (Elt F) → (⟨S4096x14x14x1, .f32⟩ : BufTy).Contents (Elt F)),
    reshape main_v69 main_v70 rfl shapeCasts_S4096x14x14x1_S4096x14x14,
    binary main_v68 main_v70 main_v71 (mulf : (⟨S4096x14x14, .f32⟩ : BufTy).Contents (Elt F) → (⟨S4096x14x14, .f32⟩ : BufTy).Contents (Elt F) → (⟨S4096x14x14, .f32⟩ : BufTy).Contents (Elt F)),
    unary main_v35 main_v72 ((extractStridedSlice S4096x14x14x1 ![0, 0, 0, 2] · slices_S4096x14x14x4_S4096x14x14x1_0_0_0_2) : (⟨S4096x14x14x4, .f32⟩ : BufTy).Contents (Elt F) → (⟨S4096x14x14x1, .f32⟩ : BufTy).Contents (Elt F)),
    reshape main_v72 main_v73 rfl shapeCasts_S4096x14x14x1_S4096x14x14,
    unary main_v35 main_v74 ((extractStridedSlice S4096x14x14x1 ![0, 0, 0, 0] · slices_S4096x14x14x4_S4096x14x14x1_0_0_0_0) : (⟨S4096x14x14x4, .f32⟩ : BufTy).Contents (Elt F) → (⟨S4096x14x14x1, .f32⟩ : BufTy).Contents (Elt F)),
    reshape main_v74 main_v75 rfl shapeCasts_S4096x14x14x1_S4096x14x14,
    binary main_v73 main_v75 main_v76 (subf : (⟨S4096x14x14, .f32⟩ : BufTy).Contents (Elt F) → (⟨S4096x14x14, .f32⟩ : BufTy).Contents (Elt F) → (⟨S4096x14x14, .f32⟩ : BufTy).Contents (Elt F)),
    unary main_v35 main_v77 ((extractStridedSlice S4096x14x14x1 ![0, 0, 0, 3] · slices_S4096x14x14x4_S4096x14x14x1_0_0_0_3) : (⟨S4096x14x14x4, .f32⟩ : BufTy).Contents (Elt F) → (⟨S4096x14x14x1, .f32⟩ : BufTy).Contents (Elt F)),
    reshape main_v77 main_v78 rfl shapeCasts_S4096x14x14x1_S4096x14x14,
    unary main_v35 main_v79 ((extractStridedSlice S4096x14x14x1 ![0, 0, 0, 1] · slices_S4096x14x14x4_S4096x14x14x1_0_0_0_1) : (⟨S4096x14x14x4, .f32⟩ : BufTy).Contents (Elt F) → (⟨S4096x14x14x1, .f32⟩ : BufTy).Contents (Elt F)),
    reshape main_v79 main_v80 rfl shapeCasts_S4096x14x14x1_S4096x14x14,
    binary main_v78 main_v80 main_v81 (subf : (⟨S4096x14x14, .f32⟩ : BufTy).Contents (Elt F) → (⟨S4096x14x14, .f32⟩ : BufTy).Contents (Elt F) → (⟨S4096x14x14, .f32⟩ : BufTy).Contents (Elt F)),
    binary main_v76 main_v81 main_v82 (mulf : (⟨S4096x14x14, .f32⟩ : BufTy).Contents (Elt F) → (⟨S4096x14x14, .f32⟩ : BufTy).Contents (Elt F) → (⟨S4096x14x14, .f32⟩ : BufTy).Contents (Elt F)),
    unary main_v58 main_v83 ((extractStridedSlice S4096x14x14x1 ![0, 0, 0, 2] · slices_S4096x14x14x4_S4096x14x14x1_0_0_0_2) : (⟨S4096x14x14x4, .f32⟩ : BufTy).Contents (Elt F) → (⟨S4096x14x14x1, .f32⟩ : BufTy).Contents (Elt F)),
    reshape main_v83 main_v84 rfl shapeCasts_S4096x14x14x1_S4096x14x14,
    unary main_v58 main_v85 ((extractStridedSlice S4096x14x14x1 ![0, 0, 0, 0] · slices_S4096x14x14x4_S4096x14x14x1_0_0_0_0) : (⟨S4096x14x14x4, .f32⟩ : BufTy).Contents (Elt F) → (⟨S4096x14x14x1, .f32⟩ : BufTy).Contents (Elt F)),
    reshape main_v85 main_v86 rfl shapeCasts_S4096x14x14x1_S4096x14x14,
    binary main_v84 main_v86 main_v87 (subf : (⟨S4096x14x14, .f32⟩ : BufTy).Contents (Elt F) → (⟨S4096x14x14, .f32⟩ : BufTy).Contents (Elt F) → (⟨S4096x14x14, .f32⟩ : BufTy).Contents (Elt F)),
    unary main_v58 main_v88 ((extractStridedSlice S4096x14x14x1 ![0, 0, 0, 3] · slices_S4096x14x14x4_S4096x14x14x1_0_0_0_3) : (⟨S4096x14x14x4, .f32⟩ : BufTy).Contents (Elt F) → (⟨S4096x14x14x1, .f32⟩ : BufTy).Contents (Elt F)),
    reshape main_v88 main_v89 rfl shapeCasts_S4096x14x14x1_S4096x14x14,
    unary main_v58 main_v90 ((extractStridedSlice S4096x14x14x1 ![0, 0, 0, 1] · slices_S4096x14x14x4_S4096x14x14x1_0_0_0_1) : (⟨S4096x14x14x4, .f32⟩ : BufTy).Contents (Elt F) → (⟨S4096x14x14x1, .f32⟩ : BufTy).Contents (Elt F)),
    reshape main_v90 main_v91 rfl shapeCasts_S4096x14x14x1_S4096x14x14,
    binary main_v89 main_v91 main_v92 (subf : (⟨S4096x14x14, .f32⟩ : BufTy).Contents (Elt F) → (⟨S4096x14x14, .f32⟩ : BufTy).Contents (Elt F) → (⟨S4096x14x14, .f32⟩ : BufTy).Contents (Elt F)),
    binary main_v87 main_v92 main_v93 (mulf : (⟨S4096x14x14, .f32⟩ : BufTy).Contents (Elt F) → (⟨S4096x14x14, .f32⟩ : BufTy).Contents (Elt F) → (⟨S4096x14x14, .f32⟩ : BufTy).Contents (Elt F)),
    binary main_v82 main_v93 main_v94 (addf : (⟨S4096x14x14, .f32⟩ : BufTy).Contents (Elt F) → (⟨S4096x14x14, .f32⟩ : BufTy).Contents (Elt F) → (⟨S4096x14x14, .f32⟩ : BufTy).Contents (Elt F)),
    binary main_v94 main_v71 main_v95 (subf : (⟨S4096x14x14, .f32⟩ : BufTy).Contents (Elt F) → (⟨S4096x14x14, .f32⟩ : BufTy).Contents (Elt F) → (⟨S4096x14x14, .f32⟩ : BufTy).Contents (Elt F)),
    binary main_v71 main_v95 main_v96 (Host.divf : (⟨S4096x14x14, .f32⟩ : BufTy).Contents (Elt F) → (⟨S4096x14x14, .f32⟩ : BufTy).Contents (Elt F) → (⟨S4096x14x14, .f32⟩ : BufTy).Contents (Elt F)),
    unary main_v47 main_v97 ((extractStridedSlice S4096x14x14x2 ![0, 0, 0, 0] · slices_S4096x14x14x4_S4096x14x14x2_0_0_0_0) : (⟨S4096x14x14x4, .f32⟩ : BufTy).Contents (Elt F) → (⟨S4096x14x14x2, .f32⟩ : BufTy).Contents (Elt F)),
    unary main_v58 main_v98 ((extractStridedSlice S4096x14x14x2 ![0, 0, 0, 0] · slices_S4096x14x14x4_S4096x14x14x2_0_0_0_0) : (⟨S4096x14x14x4, .f32⟩ : BufTy).Contents (Elt F) → (⟨S4096x14x14x2, .f32⟩ : BufTy).Contents (Elt F)),
    binary main_v97 main_v98 main_v99 (maximumf : (⟨S4096x14x14x2, .f32⟩ : BufTy).Contents (Elt F) → (⟨S4096x14x14x2, .f32⟩ : BufTy).Contents (Elt F) → (⟨S4096x14x14x2, .f32⟩ : BufTy).Contents (Elt F)),
    unary main_v47 main_v100 ((extractStridedSlice S4096x14x14x2 ![0, 0, 0, 2] · slices_S4096x14x14x4_S4096x14x14x2_0_0_0_2) : (⟨S4096x14x14x4, .f32⟩ : BufTy).Contents (Elt F) → (⟨S4096x14x14x2, .f32⟩ : BufTy).Contents (Elt F)),
    unary main_v58 main_v101 ((extractStridedSlice S4096x14x14x2 ![0, 0, 0, 2] · slices_S4096x14x14x4_S4096x14x14x2_0_0_0_2) : (⟨S4096x14x14x4, .f32⟩ : BufTy).Contents (Elt F) → (⟨S4096x14x14x2, .f32⟩ : BufTy).Contents (Elt F)),
    binary main_v100 main_v101 main_v102 (minimumf : (⟨S4096x14x14x2, .f32⟩ : BufTy).Contents (Elt F) → (⟨S4096x14x14x2, .f32⟩ : BufTy).Contents (Elt F) → (⟨S4096x14x14x2, .f32⟩ : BufTy).Contents (Elt F)),
    binary main_v102 main_v99 main_v103 (subf : (⟨S4096x14x14x2, .f32⟩ : BufTy).Contents (Elt F) → (⟨S4096x14x14x2, .f32⟩ : BufTy).Contents (Elt F) → (⟨S4096x14x14x2, .f32⟩ : BufTy).Contents (Elt F)) ]

abbrev ops_part2 : List (HloOp τ sig (Elt F)) :=
  [ nullary main_cst_15 (constant S_ .f32 0x00000000#32),
    TRef.unary (TRef.of (T := ⟨S_, .f32⟩) main_cst_15) (TRef.of (T := ⟨S_, .f32⟩) main_call1_v0) id,
    TRef.unary (TRef.of (T := ⟨S_, .f32⟩) main_call1_v0) (TRef.of (T := ⟨S4096x14x14x2, .f32⟩) main_call1_v1) (broadcastInDim S4096x14x14x2 ![] bcast_S_S4096x14x14x2),
    TRef.binary (TRef.of (T := ⟨S4096x14x14x2, .f32⟩) main_call1_v1) (TRef.of (T := ⟨S4096x14x14x2, .f32⟩) main_v103) (TRef.of (T := ⟨S4096x14x14x2, .f32⟩) main_v104) maximumf,
    unary main_v104 main_v105 ((extractStridedSlice S4096x14x14x1 ![0, 0, 0, 0] · slices_S4096x14x14x2_S4096x14x14x1_0_0_0_0) : (⟨S4096x14x14x2, .f32⟩ : BufTy).Contents (Elt F) → (⟨S4096x14x14x1, .f32⟩ : BufTy).Contents (Elt F)),
    reshape main_v105 main_v106 rfl shapeCasts_S4096x14x14x1_S4096x14x14,
    unary main_v104 main_v107 ((extractStridedSlice S4096x14x14x1 ![0, 0, 0, 1] · slices_S4096x14x14x2_S4096x14x14x1_0_0_0_1) : (⟨S4096x14x14x2, .f32⟩ : BufTy).Contents (Elt F) → (⟨S4096x14x14x1, .f32⟩ : BufTy).Contents (Elt F)),
    reshape main_v107 main_v108 rfl shapeCasts_S4096x14x14x1_S4096x14x14,
    binary main_v106 main_v108 main_v109 (mulf : (⟨S4096x14x14, .f32⟩ : BufTy).Contents (Elt F) → (⟨S4096x14x14, .f32⟩ : BufTy).Contents (Elt F) → (⟨S4096x14x14, .f32⟩ : BufTy).Contents (Elt F)),
    unary main_v47 main_v110 ((extractStridedSlice S4096x14x14x1 ![0, 0, 0, 2] · slices_S4096x14x14x4_S4096x14x14x1_0_0_0_2) : (⟨S4096x14x14x4, .f32⟩ : BufTy).Contents (Elt F) → (⟨S4096x14x14x1, .f32⟩ : BufTy).Contents (Elt F)),
    reshape main_v110 main_v111 rfl shapeCasts_S4096x14x14x1_S4096x14x14,
    unary main_v47 main_v112 ((extractStridedSlice S4096x14x14x1 ![0, 0, 0, 0] · slices_S4096x14x14x4_S4096x14x14x1_0_0_0_0) : (⟨S4096x14x14x4, .f32⟩ : BufTy).Contents (Elt F) → (⟨S4096x14x14x1, .f32⟩ : BufTy).Contents (Elt F)),
    reshape main_v112 main_v113 rfl shapeCasts_S4096x14x14x1_S4096x14x14,
    binary main_v111 main_v113 main_v114 (subf : (⟨S4096x14x14, .f32⟩ : BufTy).Contents (Elt F) → (⟨S4096x14x14, .f32⟩ : BufTy).Contents (Elt F) → (⟨S4096x14x14, .f32⟩ : BufTy).Contents (Elt F)),
    unary main_v47 main_v115 ((extractStridedSlice S4096x14x14x1 ![0, 0, 0, 3] · slices_S4096x14x14x4_S4096x14x14x1_0_0_0_3) : (⟨S4096x14x14x4, .f32⟩ : BufTy).Contents (Elt F) → (⟨S4096x14x14x1, .f32⟩ : BufTy).Contents (Elt F)),
    reshape main_v115 main_v116 rfl shapeCasts_S4096x14x14x1_S4096x14x14,
    unary main_v47 main_v117 ((extractStridedSlice S4096x14x14x1 ![0, 0, 0, 1] · slices_S4096x14x14x4_S4096x14x14x1_0_0_0_1) : (⟨S4096x14x14x4, .f32⟩ : BufTy).Contents (Elt F) → (⟨S4096x14x14x1, .f32⟩ : BufTy).Contents (Elt F)),
    reshape main_v117 main_v118 rfl shapeCasts_S4096x14x14x1_S4096x14x14,
    binary main_v116 main_v118 main_v119 (subf : (⟨S4096x14x14, .f32⟩ : BufTy).Contents (Elt F) → (⟨S4096x14x14, .f32⟩ : BufTy).Contents (Elt F) → (⟨S4096x14x14, .f32⟩ : BufTy).Contents (Elt F)),
    binary main_v114 main_v119 main_v120 (mulf : (⟨S4096x14x14, .f32⟩ : BufTy).Contents (Elt F) → (⟨S4096x14x14, .f32⟩ : BufTy).Contents (Elt F) → (⟨S4096x14x14, .f32⟩ : BufTy).Contents (Elt F)),
    unary main_v58 main_v121 ((extractStridedSlice S4096x14x14x1 ![0, 0, 0, 2] · slices_S4096x14x14x4_S4096x14x14x1_0_0_0_2) : (⟨S4096x14x14x4, .f32⟩ : BufTy).Contents (Elt F) → (⟨S4096x14x14x1, .f32⟩ : BufTy).Contents (Elt F)),
    reshape main_v121 main_v122 rfl shapeCasts_S4096x14x14x1_S4096x14x14,
    unary main_v58 main_v123 ((extractStridedSlice S4096x14x14x1 ![0, 0, 0, 0] · slices_S4096x14x14x4_S4096x14x14x1_0_0_0_0) : (⟨S4096x14x14x4, .f32⟩ : BufTy).Contents (Elt F) → (⟨S4096x14x14x1, .f32⟩ : BufTy).Contents (Elt F)),
    reshape main_v123 main_v124 rfl shapeCasts_S4096x14x14x1_S4096x14x14,
    binary main_v122 main_v124 main_v125 (subf : (⟨S4096x14x14, .f32⟩ : BufTy).Contents (Elt F) → (⟨S4096x14x14, .f32⟩ : BufTy).Contents (Elt F) → (⟨S4096x14x14, .f32⟩ : BufTy).Contents (Elt F)),
    unary main_v58 main_v126 ((extractStridedSlice S4096x14x14x1 ![0, 0, 0, 3] · slices_S4096x14x14x4_S4096x14x14x1_0_0_0_3) : (⟨S4096x14x14x4, .f32⟩ : BufTy).Contents (Elt F) → (⟨S4096x14x14x1, .f32⟩ : BufTy).Contents (Elt F)),
    reshape main_v126 main_v127 rfl shapeCasts_S4096x14x14x1_S4096x14x14,
    unary main_v58 main_v128 ((extractStridedSlice S4096x14x14x1 ![0, 0, 0, 1] · slices_S4096x14x14x4_S4096x14x14x1_0_0_0_1) : (⟨S4096x14x14x4, .f32⟩ : BufTy).Contents (Elt F) → (⟨S4096x14x14x1, .f32⟩ : BufTy).Contents (Elt F)),
    reshape main_v128 main_v129 rfl shapeCasts_S4096x14x14x1_S4096x14x14,
    binary main_v127 main_v129 main_v130 (subf : (⟨S4096x14x14, .f32⟩ : BufTy).Contents (Elt F) → (⟨S4096x14x14, .f32⟩ : BufTy).Contents (Elt F) → (⟨S4096x14x14, .f32⟩ : BufTy).Contents (Elt F)),
    binary main_v125 main_v130 main_v131 (mulf : (⟨S4096x14x14, .f32⟩ : BufTy).Contents (Elt F) → (⟨S4096x14x14, .f32⟩ : BufTy).Contents (Elt F) → (⟨S4096x14x14, .f32⟩ : BufTy).Contents (Elt F)),
    binary main_v120 main_v131 main_v132 (addf : (⟨S4096x14x14, .f32⟩ : BufTy).Contents (Elt F) → (⟨S4096x14x14, .f32⟩ : BufTy).Contents (Elt F) → (⟨S4096x14x14, .f32⟩ : BufTy).Contents (Elt F)),
    binary main_v132 main_v109 main_v133 (subf : (⟨S4096x14x14, .f32⟩ : BufTy).Contents (Elt F) → (⟨S4096x14x14, .f32⟩ : BufTy).Contents (Elt F) → (⟨S4096x14x14, .f32⟩ : BufTy).Contents (Elt F)),
    binary main_v109 main_v133 main_v134 (Host.divf : (⟨S4096x14x14, .f32⟩ : BufTy).Contents (Elt F) → (⟨S4096x14x14, .f32⟩ : BufTy).Contents (Elt F) → (⟨S4096x14x14, .f32⟩ : BufTy).Contents (Elt F)),
    binary main_v96 main_v134 main_v135 (cmpf .oge : (⟨S4096x14x14, .f32⟩ : BufTy).Contents (Elt F) → (⟨S4096x14x14, .f32⟩ : BufTy).Contents (Elt F) → (⟨S4096x14x14, .i1⟩ : BufTy).Contents (Elt F)),
    unary main_v135 main_v136 (broadcastInDim S4096x14x14x1 ![0, 1, 2] bcast_S4096x14x14_S4096x14x14x1_0_1_2 : (⟨S4096x14x14, .i1⟩ : BufTy).Contents (Elt F) → (⟨S4096x14x14x1, .i1⟩ : BufTy).Contents (Elt F)),
    TRef.unary (TRef.of (T := ⟨S4096x14x14x1, .i1⟩) main_v136) (TRef.of (T := ⟨S4096x14x14x5, .i1⟩) main_call2_v0) (broadcastInDim S4096x14x14x5 ![0, 1, 2, 3] bcast_S4096x14x14x1_S4096x14x14x5_0_1_2_3),
    TRef.ternary (TRef.of (T := ⟨S4096x14x14x5, .i1⟩) main_call2_v0) (TRef.of (T := ⟨S4096x14x14x5, .f32⟩) main_v0) (TRef.of (T := ⟨S4096x14x14x5, .f32⟩) main_v1) (TRef.of (T := ⟨S4096x14x14x5, .f32⟩) main_v137) select,
    TRef.ternary (TRef.of (T := ⟨S4096x14x14, .i1⟩) main_v135) (TRef.of (T := ⟨S4096x14x14, .f32⟩) main_v96) (TRef.of (T := ⟨S4096x14x14, .f32⟩) main_v134) (TRef.of (T := ⟨S4096x14x14, .f32⟩) main_v138) select,
    unary main_v137 main_v139 ((extractStridedSlice S4096x14x14x1 ![0, 0, 0, 0] · slices_S4096x14x14x5_S4096x14x14x1_0_0_0_0) : (⟨S4096x14x14x5, .f32⟩ : BufTy).Contents (Elt F) → (⟨S4096x14x14x1, .f32⟩ : BufTy).Contents (Elt F)),
    reshape main_v139 main_v140 rfl shapeCasts_S4096x14x14x1_S4096x14x14,
    unary main_v137 main_v141 ((extractStridedSlice S4096x14x14x1 ![0, 0, 0, 1] · slices_S4096x14x14x5_S4096x14x14x1_0_0_0_1) : (⟨S4096x14x14x5, .f32⟩ : BufTy).Contents (Elt F) → (⟨S4096x14x14x1, .f32⟩ : BufTy).Contents (Elt F)),
    reshape main_v141 main_v142 rfl shapeCasts_S4096x14x14x1_S4096x14x14,
    unary main_v137 main_v143 ((extractStridedSlice S4096x14x14x1 ![0, 0, 0, 2] · slices_S4096x14x14x5_S4096x14x14x1_0_0_0_2) : (⟨S4096x14x14x5, .f32⟩ : BufTy).Contents (Elt F) → (⟨S4096x14x14x1, .f32⟩ : BufTy).Contents (Elt F)),
    reshape main_v143 main_v144 rfl shapeCasts_S4096x14x14x1_S4096x14x14,
    unary main_v137 main_v145 ((extractStridedSlice S4096x14x14x1 ![0, 0, 0, 3] · slices_S4096x14x14x5_S4096x14x14x1_0_0_0_3) : (⟨S4096x14x14x5, .f32⟩ : BufTy).Contents (Elt F) → (⟨S4096x14x14x1, .f32⟩ : BufTy).Contents (Elt F)),
    reshape main_v145 main_v146 rfl shapeCasts_S4096x14x14x1_S4096x14x14,
    unary main_arg1 main_v147 ((extractStridedSlice S4096x14x14x1 ![0, 0, 0, 0] · slices_S4096x14x14x4_S4096x14x14x1_0_0_0_0) : (⟨S4096x14x14x4, .f32⟩ : BufTy).Contents (Elt F) → (⟨S4096x14x14x1, .f32⟩ : BufTy).Contents (Elt F)),
    reshape main_v147 main_v148 rfl shapeCasts_S4096x14x14x1_S4096x14x14,
    unary main_arg1 main_v149 ((extractStridedSlice S4096x14x14x1 ![0, 0, 0, 1] · slices_S4096x14x14x4_S4096x14x14x1_0_0_0_1) : (⟨S4096x14x14x4, .f32⟩ : BufTy).Contents (Elt F) → (⟨S4096x14x14x1, .f32⟩ : BufTy).Contents (Elt F)),
    reshape main_v149 main_v150 rfl shapeCasts_S4096x14x14x1_S4096x14x14,
    unary main_arg1 main_v151 ((extractStridedSlice S4096x14x14x1 ![0, 0, 0, 2] · slices_S4096x14x14x4_S4096x14x14x1_0_0_0_2) : (⟨S4096x14x14x4, .f32⟩ : BufTy).Contents (Elt F) → (⟨S4096x14x14x1, .f32⟩ : BufTy).Contents (Elt F)),
    reshape main_v151 main_v152 rfl shapeCasts_S4096x14x14x1_S4096x14x14,
    unary main_arg1 main_v153 ((extractStridedSlice S4096x14x14x1 ![0, 0, 0, 3] · slices_S4096x14x14x4_S4096x14x14x1_0_0_0_3) : (⟨S4096x14x14x4, .f32⟩ : BufTy).Contents (Elt F) → (⟨S4096x14x14x1, .f32⟩ : BufTy).Contents (Elt F)),
    reshape main_v153 main_v154 rfl shapeCasts_S4096x14x14x1_S4096x14x14,
    binary main_v140 main_v148 main_v155 (subf : (⟨S4096x14x14, .f32⟩ : BufTy).Contents (Elt F) → (⟨S4096x14x14, .f32⟩ : BufTy).Contents (Elt F) → (⟨S4096x14x14, .f32⟩ : BufTy).Contents (Elt F)),
    binary main_v155 main_v155 main_v156 (mulf : (⟨S4096x14x14, .f32⟩ : BufTy).Contents (Elt F) → (⟨S4096x14x14, .f32⟩ : BufTy).Contents (Elt F) → (⟨S4096x14x14, .f32⟩ : BufTy).Contents (Elt F)),
    binary main_v142 main_v150 main_v157 (subf : (⟨S4096x14x14, .f32⟩ : BufTy).Contents (Elt F) → (⟨S4096x14x14, .f32⟩ : BufTy).Contents (Elt F) → (⟨S4096x14x14, .f32⟩ : BufTy).Contents (Elt F)),
    binary main_v157 main_v157 main_v158 (mulf : (⟨S4096x14x14, .f32⟩ : BufTy).Contents (Elt F) → (⟨S4096x14x14, .f32⟩ : BufTy).Contents (Elt F) → (⟨S4096x14x14, .f32⟩ : BufTy).Contents (Elt F)),
    binary main_v156 main_v158 main_v159 (addf : (⟨S4096x14x14, .f32⟩ : BufTy).Contents (Elt F) → (⟨S4096x14x14, .f32⟩ : BufTy).Contents (Elt F) → (⟨S4096x14x14, .f32⟩ : BufTy).Contents (Elt F)),
    unary main_v144 main_v160 (Host.sqrt : (⟨S4096x14x14, .f32⟩ : BufTy).Contents (Elt F) → (⟨S4096x14x14, .f32⟩ : BufTy).Contents (Elt F)),
    unary main_v152 main_v161 (Host.sqrt : (⟨S4096x14x14, .f32⟩ : BufTy).Contents (Elt F) → (⟨S4096x14x14, .f32⟩ : BufTy).Contents (Elt F)),
    binary main_v160 main_v161 main_v162 (subf : (⟨S4096x14x14, .f32⟩ : BufTy).Contents (Elt F) → (⟨S4096x14x14, .f32⟩ : BufTy).Contents (Elt F) → (⟨S4096x14x14, .f32⟩ : BufTy).Contents (Elt F)) ]

abbrev ops_part3 : List (HloOp τ sig (Elt F)) :=
  [ binary main_v162 main_v162 main_v163 (mulf : (⟨S4096x14x14, .f32⟩ : BufTy).Contents (Elt F) → (⟨S4096x14x14, .f32⟩ : BufTy).Contents (Elt F) → (⟨S4096x14x14, .f32⟩ : BufTy).Contents (Elt F)),
    binary main_v159 main_v163 main_v164 (addf : (⟨S4096x14x14, .f32⟩ : BufTy).Contents (Elt F) → (⟨S4096x14x14, .f32⟩ : BufTy).Contents (Elt F) → (⟨S4096x14x14, .f32⟩ : BufTy).Contents (Elt F)),
    unary main_v146 main_v165 (Host.sqrt : (⟨S4096x14x14, .f32⟩ : BufTy).Contents (Elt F) → (⟨S4096x14x14, .f32⟩ : BufTy).Contents (Elt F)),
    unary main_v154 main_v166 (Host.sqrt : (⟨S4096x14x14, .f32⟩ : BufTy).Contents (Elt F) → (⟨S4096x14x14, .f32⟩ : BufTy).Contents (Elt F)),
    binary main_v165 main_v166 main_v167 (subf : (⟨S4096x14x14, .f32⟩ : BufTy).Contents (Elt F) → (⟨S4096x14x14, .f32⟩ : BufTy).Contents (Elt F) → (⟨S4096x14x14, .f32⟩ : BufTy).Contents (Elt F)),
    binary main_v167 main_v167 main_v168 (mulf : (⟨S4096x14x14, .f32⟩ : BufTy).Contents (Elt F) → (⟨S4096x14x14, .f32⟩ : BufTy).Contents (Elt F) → (⟨S4096x14x14, .f32⟩ : BufTy).Contents (Elt F)),
    binary main_v164 main_v168 main_v169 (addf : (⟨S4096x14x14, .f32⟩ : BufTy).Contents (Elt F) → (⟨S4096x14x14, .f32⟩ : BufTy).Contents (Elt F) → (⟨S4096x14x14, .f32⟩ : BufTy).Contents (Elt F)),
    binary main_v3 main_v169 main_v170 (mulf : (⟨S4096x14x14, .f32⟩ : BufTy).Contents (Elt F) → (⟨S4096x14x14, .f32⟩ : BufTy).Contents (Elt F) → (⟨S4096x14x14, .f32⟩ : BufTy).Contents (Elt F)),
    nullary main_cst_16 (constant S_ .f32 0x00000000#32),
    binary main_v170 main_cst_16 main_v171 ((fun x v => Host.reduceAdd x v reducesTo_S4096x14x14_S_d0_1_2 h_S_) : (⟨S4096x14x14, .f32⟩ : BufTy).Contents (Elt F) → (⟨S_, .f32⟩ : BufTy).Contents (Elt F) → (⟨S_, .f32⟩ : BufTy).Contents (Elt F)),
    unary main_v137 main_v172 ((extractStridedSlice S4096x14x14x1 ![0, 0, 0, 4] · slices_S4096x14x14x5_S4096x14x14x1_0_0_0_4) : (⟨S4096x14x14x5, .f32⟩ : BufTy).Contents (Elt F) → (⟨S4096x14x14x1, .f32⟩ : BufTy).Contents (Elt F)),
    reshape main_v172 main_v173 rfl shapeCasts_S4096x14x14x1_S4096x14x14,
    binary main_v173 main_v138 main_v174 (subf : (⟨S4096x14x14, .f32⟩ : BufTy).Contents (Elt F) → (⟨S4096x14x14, .f32⟩ : BufTy).Contents (Elt F) → (⟨S4096x14x14, .f32⟩ : BufTy).Contents (Elt F)),
    binary main_v174 main_v174 main_v175 (mulf : (⟨S4096x14x14, .f32⟩ : BufTy).Contents (Elt F) → (⟨S4096x14x14, .f32⟩ : BufTy).Contents (Elt F) → (⟨S4096x14x14, .f32⟩ : BufTy).Contents (Elt F)),
    binary main_v3 main_v175 main_v176 (mulf : (⟨S4096x14x14, .f32⟩ : BufTy).Contents (Elt F) → (⟨S4096x14x14, .f32⟩ : BufTy).Contents (Elt F) → (⟨S4096x14x14, .f32⟩ : BufTy).Contents (Elt F)),
    nullary main_cst_17 (constant S_ .f32 0x00000000#32),
    binary main_v176 main_cst_17 main_v177 ((fun x v => Host.reduceAdd x v reducesTo_S4096x14x14_S_d0_1_2 h_S_) : (⟨S4096x14x14, .f32⟩ : BufTy).Contents (Elt F) → (⟨S_, .f32⟩ : BufTy).Contents (Elt F) → (⟨S_, .f32⟩ : BufTy).Contents (Elt F)),
    nullary main_cst_18 (constant S_ .f32 0x3F000000#32),
    binary main_cst_18 main_v23 main_v178 (mulf : (⟨S_, .f32⟩ : BufTy).Contents (Elt F) → (⟨S_, .f32⟩ : BufTy).Contents (Elt F) → (⟨S_, .f32⟩ : BufTy).Contents (Elt F)),
    binary main_v8 main_v178 main_v179 (addf : (⟨S_, .f32⟩ : BufTy).Contents (Elt F) → (⟨S_, .f32⟩ : BufTy).Contents (Elt F) → (⟨S_, .f32⟩ : BufTy).Contents (Elt F)),
    nullary main_cst_19 (constant S_ .f32 0x40A00000#32),
    binary main_cst_19 main_v171 main_v180 (mulf : (⟨S_, .f32⟩ : BufTy).Contents (Elt F) → (⟨S_, .f32⟩ : BufTy).Contents (Elt F) → (⟨S_, .f32⟩ : BufTy).Contents (Elt F)),
    binary main_v179 main_v180 main_v181 (addf : (⟨S_, .f32⟩ : BufTy).Contents (Elt F) → (⟨S_, .f32⟩ : BufTy).Contents (Elt F) → (⟨S_, .f32⟩ : BufTy).Contents (Elt F)),
    binary main_v181 main_v177 main_v182 (addf : (⟨S_, .f32⟩ : BufTy).Contents (Elt F) → (⟨S_, .f32⟩ : BufTy).Contents (Elt F) → (⟨S_, .f32⟩ : BufTy).Contents (Elt F)),
    unary main_v182 main_v183 (broadcastInDim S1 ![] bcast_S_S1 : (⟨S_, .f32⟩ : BufTy).Contents (Elt F) → (⟨S1, .f32⟩ : BufTy).Contents (Elt F)),
    unary main_v171 main_v184 (broadcastInDim S1 ![] bcast_S_S1 : (⟨S_, .f32⟩ : BufTy).Contents (Elt F) → (⟨S1, .f32⟩ : BufTy).Contents (Elt F)),
    unary main_v177 main_v185 (broadcastInDim S1 ![] bcast_S_S1 : (⟨S_, .f32⟩ : BufTy).Contents (Elt F) → (⟨S1, .f32⟩ : BufTy).Contents (Elt F)),
    unary main_v23 main_v186 (broadcastInDim S1 ![] bcast_S_S1 : (⟨S_, .f32⟩ : BufTy).Contents (Elt F) → (⟨S1, .f32⟩ : BufTy).Contents (Elt F)),
    unary main_v8 main_v187 (broadcastInDim S1 ![] bcast_S_S1 : (⟨S_, .f32⟩ : BufTy).Contents (Elt F) → (⟨S1, .f32⟩ : BufTy).Contents (Elt F)),
    nary ![main_v183, main_v184, main_v185, main_v186, main_v187] main_v188 (fun u => concatenate S5 0 [⟨S1, u 0⟩, ⟨S1, u 1⟩, ⟨S1, u 2⟩, ⟨S1, u 3⟩, ⟨S1, u 4⟩] concatenates_S1_S1_S1_S1_S1_S5_d0),
    nullary main_cst_20 (constant S_ .f32 0x45800000#32),
    unary main_cst_20 main_v189 (broadcastInDim S5 ![] bcast_S_S5 : (⟨S_, .f32⟩ : BufTy).Contents (Elt F) → (⟨S5, .f32⟩ : BufTy).Contents (Elt F)),
    binary main_v188 main_v189 main_v190 (Host.divf : (⟨S5, .f32⟩ : BufTy).Contents (Elt F) → (⟨S5, .f32⟩ : BufTy).Contents (Elt F) → (⟨S5, .f32⟩ : BufTy).Contents (Elt F)) ]

abbrev ops : List (HloOp τ sig (Elt F)) := ops_part0 ++ (ops_part1 ++ (ops_part2 ++ ops_part3))

set_option maxRecDepth 8192 in
set_option maxHeartbeats 4000000 in
theorem main_part0_eq (c : Dev nD) : main_part0 (F := F) c = seq ops_part0 := rfl
set_option maxRecDepth 8192 in
set_option maxHeartbeats 4000000 in
theorem main_part1_eq (c : Dev nD) : main_part1 (F := F) c = seq ops_part1 := rfl
set_option maxRecDepth 8192 in
set_option maxHeartbeats 4000000 in
theorem main_part2_eq (c : Dev nD) : main_part2 (F := F) c = seq ops_part2 := rfl
set_option maxRecDepth 8192 in
set_option maxHeartbeats 4000000 in
theorem main_part3_eq (c : Dev nD) : main_part3 (F := F) c = seq ops_part3 := rfl

theorem main_eq (c : Dev nD) : main (F := F) c = seq ops := by
  rw [show (ops : List (HloOp τ sig (Elt F))) = ops_part0 ++ (ops_part1 ++ (ops_part2 ++ ops_part3)) from rfl,
    seq_append, seq_append, seq_append, ← main_part0_eq c, ← main_part1_eq c, ← main_part2_eq c, ← main_part3_eq c]
  rfl
theorem scopedRefs_eq : (Finset.univ.filter fun b : Ref sig .tc => b.isScoped) = ∅ := by decide
theorem scopedSems_eq : (Finset.univ.filter fun sm : SemLoc sig => sm.isScoped .tc) = ∅ := by decide

end Cert.ReferenceIdeal.ValueP

end
-- ==== Proof.RefRead.lean ====
import proofs.«404733_j85177791414999_3_alg».proof.Proof.Gen.ReferenceIdeal
import Idealize.ShloMosaic.Lib.StableHlo.Run
import Idealize.ShloMosaic.Lib.Pipeline.Value
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]

def val_main_v0 (x0 : (⟨S4096x14x14x30, .f32⟩ : BufTy).Contents (Elt F)) : (⟨S4096x14x14x5, .f32⟩ : BufTy).Contents (Elt F) :=
  extractStridedSlice S4096x14x14x5 ![0, 0, 0, 0] (x0) slices_S4096x14x14x30_S4096x14x14x5_0_0_0_0

def val_main_v1 (x0 : (⟨S4096x14x14x30, .f32⟩ : BufTy).Contents (Elt F)) : (⟨S4096x14x14x5, .f32⟩ : BufTy).Contents (Elt F) :=
  extractStridedSlice S4096x14x14x5 ![0, 0, 0, 5] (x0) slices_S4096x14x14x30_S4096x14x14x5_0_0_0_5

def val_main_v2 (x0 : (⟨S4096x14x14x30, .f32⟩ : BufTy).Contents (Elt F)) : (⟨S4096x14x14x20, .f32⟩ : BufTy).Contents (Elt F) :=
  extractStridedSlice S4096x14x14x20 ![0, 0, 0, 10] (x0) slices_S4096x14x14x30_S4096x14x14x20_0_0_0_10

def val_main_v3 (x3 : (⟨S4096x14x14, .i1⟩ : BufTy).Contents (Elt F)) : (⟨S4096x14x14, .f32⟩ : BufTy).Contents (Elt F) :=
  uitofp .f32 (x3)

def val_main_v4 (x0 : (⟨S4096x14x14x30, .f32⟩ : BufTy).Contents (Elt F)) (x2 : (⟨S4096x14x14x20, .f32⟩ : BufTy).Contents (Elt F)) : (⟨S4096x14x14x20, .f32⟩ : BufTy).Contents (Elt F) :=
  subf (val_main_v2 (F := F) x0) (x2)

theorem val_main_v4_apply (x0 : (⟨S4096x14x14x30, .f32⟩ : BufTy).Contents (Elt F)) (x2 : (⟨S4096x14x14x20, .f32⟩ : BufTy).Contents (Elt F)) (i : S4096x14x14x20.Idx) :
    val_main_v4 (F := F) x0 x2 i = FloatOps.subf (val_main_v2 (F := F) x0 i) (x2 i) := rfl

def val_main_v5 (x0 : (⟨S4096x14x14x30, .f32⟩ : BufTy).Contents (Elt F)) (x2 : (⟨S4096x14x14x20, .f32⟩ : BufTy).Contents (Elt F)) : (⟨S4096x14x14x20, .f32⟩ : BufTy).Contents (Elt F) :=
  mulf (val_main_v4 (F := F) x0 x2) (val_main_v4 (F := F) x0 x2)

theorem val_main_v5_apply (x0 : (⟨S4096x14x14x30, .f32⟩ : BufTy).Contents (Elt F)) (x2 : (⟨S4096x14x14x20, .f32⟩ : BufTy).Contents (Elt F)) (i : S4096x14x14x20.Idx) :
    val_main_v5 (F := F) x0 x2 i = FloatOps.mulf (val_main_v4 (F := F) x0 x2 i) (val_main_v4 (F := F) x0 x2 i) := rfl

def val_main_cst : (⟨S_, .f32⟩ : BufTy).Contents (Elt F) :=
  constant S_ .f32 0x00000000#32

theorem val_main_cst_apply (i : S_.Idx) :
    val_main_cst (F := F) i = FloatOps.ofBits .f32 0x00000000#32 := rfl

def val_main_v6 (x0 : (⟨S4096x14x14x30, .f32⟩ : BufTy).Contents (Elt F)) (x2 : (⟨S4096x14x14x20, .f32⟩ : BufTy).Contents (Elt F)) : (⟨S4096x14x14, .f32⟩ : BufTy).Contents (Elt F) :=
  Host.reduceAdd (val_main_v5 (F := F) x0 x2) (val_main_cst (F := F)) reducesTo_S4096x14x14x20_S4096x14x14_d3 h_S_

abbrev idx_main_v6 (i : S4096x14x14.Idx) (k : Fin 20) : S4096x14x14x20.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨k.val, k.isLt⟩

theorem val_main_v6_apply (x0 : (⟨S4096x14x14x30, .f32⟩ : BufTy).Contents (Elt Ideal)) (x2 : (⟨S4096x14x14x20, .f32⟩ : BufTy).Contents (Elt Ideal)) (i : S4096x14x14.Idx) :
    val_main_v6 (F := Ideal) x0 x2 i = (val_main_cst (F := Ideal)) (Shape.Idx.first h_S_) + ∑ k : Fin 20, (val_main_v5 (F := Ideal) x0 x2) (idx_main_v6 i k) := by
  unfold val_main_v6
  generalize val_main_v5 (F := Ideal) x0 x2 = y0
  simp only [Host.reduceAdd, Ideal.hostReduceAdd_def]
  rw [Ideal.hostReduceAdd_single reducesTo_S4096x14x14x20_S4096x14x14_d3 (by decide)]
  refine congrArg (_ + ·) (Finset.sum_congr rfl fun k _ => ?_)
  exact congrArg y0 (funext fun a => Fin.ext (by match a with | ⟨0, _⟩ => rfl | ⟨1, _⟩ => rfl | ⟨2, _⟩ => rfl | ⟨3, _⟩ => rfl))

def val_main_v7 (x0 : (⟨S4096x14x14x30, .f32⟩ : BufTy).Contents (Elt F)) (x2 : (⟨S4096x14x14x20, .f32⟩ : BufTy).Contents (Elt F)) (x3 : (⟨S4096x14x14, .i1⟩ : BufTy).Contents (Elt F)) : (⟨S4096x14x14, .f32⟩ : BufTy).Contents (Elt F) :=
  mulf (val_main_v3 (F := F) x3) (val_main_v6 (F := F) x0 x2)

theorem val_main_v7_apply (x0 : (⟨S4096x14x14x30, .f32⟩ : BufTy).Contents (Elt F)) (x2 : (⟨S4096x14x14x20, .f32⟩ : BufTy).Contents (Elt F)) (x3 : (⟨S4096x14x14, .i1⟩ : BufTy).Contents (Elt F)) (i : S4096x14x14.Idx) :
    val_main_v7 (F := F) x0 x2 x3 i = FloatOps.mulf (val_main_v3 (F := F) x3 i) (val_main_v6 (F := F) x0 x2 i) := rfl

def val_main_cst_0 : (⟨S_, .f32⟩ : BufTy).Contents (Elt F) :=
  constant S_ .f32 0x00000000#32

theorem val_main_cst_0_apply (i : S_.Idx) :
    val_main_cst_0 (F := F) i = FloatOps.ofBits .f32 0x00000000#32 := rfl

def val_main_v8 (x0 : (⟨S4096x14x14x30, .f32⟩ : BufTy).Contents (Elt F)) (x2 : (⟨S4096x14x14x20, .f32⟩ : BufTy).Contents (Elt F)) (x3 : (⟨S4096x14x14, .i1⟩ : BufTy).Contents (Elt F)) : (⟨S_, .f32⟩ : BufTy).Contents (Elt F) :=
  Host.reduceAdd (val_main_v7 (F := F) x0 x2 x3) (val_main_cst_0 (F := F)) reducesTo_S4096x14x14_S_d0_1_2 h_S_

theorem val_main_v8_apply (x0 : (⟨S4096x14x14x30, .f32⟩ : BufTy).Contents (Elt Ideal)) (x2 : (⟨S4096x14x14x20, .f32⟩ : BufTy).Contents (Elt Ideal)) (x3 : (⟨S4096x14x14, .i1⟩ : BufTy).Contents (Elt Ideal)) (i : S_.Idx) :
    val_main_v8 (F := Ideal) x0 x2 x3 i = (val_main_cst_0 (F := Ideal)) (Shape.Idx.first h_S_) + ∑ j : S4096x14x14.Idx, (val_main_v7 (F := Ideal) x0 x2 x3) j := by
  unfold val_main_v8
  generalize val_main_v7 (F := Ideal) x0 x2 x3 = y0
  simp only [Host.reduceAdd, Ideal.hostReduceAdd_def]
  exact Ideal.hostReduceAdd_total reducesTo_S4096x14x14_S_d0_1_2 (fun b => b.elim0) y0 _ i

def val_main_cst_1 : (⟨S_, .f32⟩ : BufTy).Contents (Elt F) :=
  constant S_ .f32 0x3F800000#32

def val_main_v9 : (⟨S4096x14x14, .f32⟩ : BufTy).Contents (Elt F) :=
  broadcastInDim S4096x14x14 ![] bcast_S_S4096x14x14 (val_main_cst_1 (F := F))

abbrev idx_main_v9 (i : S4096x14x14.Idx) : S_.Idx := fun a => a.elim0

theorem val_main_v9_apply (i : S4096x14x14.Idx) :
    val_main_v9 (F := F) i = val_main_cst_1 (F := F) (idx_main_v9 i) := by
  unfold val_main_v9
  generalize val_main_cst_1 (F := F) = y
  exact broadcastInDim_apply _ bcast_S_S4096x14x14 y i (idx_main_v9 i) (fun a => a.elim0)

def val_main_v10 (x3 : (⟨S4096x14x14, .i1⟩ : BufTy).Contents (Elt F)) : (⟨S4096x14x14, .f32⟩ : BufTy).Contents (Elt F) :=
  subf (val_main_v9 (F := F)) (val_main_v3 (F := F) x3)

theorem val_main_v10_apply (x3 : (⟨S4096x14x14, .i1⟩ : BufTy).Contents (Elt F)) (i : S4096x14x14.Idx) :
    val_main_v10 (F := F) x3 i = FloatOps.subf (val_main_v9 (F := F) i) (val_main_v3 (F := F) x3 i) := rfl

def val_main_v11 (x0 : (⟨S4096x14x14x30, .f32⟩ : BufTy).Contents (Elt F)) : (⟨S4096x14x14x1, .f32⟩ : BufTy).Contents (Elt F) :=
  extractStridedSlice S4096x14x14x1 ![0, 0, 0, 4] (val_main_v0 (F := F) x0) slices_S4096x14x14x5_S4096x14x14x1_0_0_0_4

def val_main_v12 (x0 : (⟨S4096x14x14x30, .f32⟩ : BufTy).Contents (Elt F)) : (⟨S4096x14x14, .f32⟩ : BufTy).Contents (Elt F) :=
  shapeCast _ (val_main_v11 (F := F) x0) shapeCasts_S4096x14x14x1_S4096x14x14

def val_main_v13 (x0 : (⟨S4096x14x14x30, .f32⟩ : BufTy).Contents (Elt F)) (x3 : (⟨S4096x14x14, .i1⟩ : BufTy).Contents (Elt F)) : (⟨S4096x14x14, .f32⟩ : BufTy).Contents (Elt F) :=
  mulf (val_main_v10 (F := F) x3) (val_main_v12 (F := F) x0)

theorem val_main_v13_apply (x0 : (⟨S4096x14x14x30, .f32⟩ : BufTy).Contents (Elt F)) (x3 : (⟨S4096x14x14, .i1⟩ : BufTy).Contents (Elt F)) (i : S4096x14x14.Idx) :
    val_main_v13 (F := F) x0 x3 i = FloatOps.mulf (val_main_v10 (F := F) x3 i) (val_main_v12 (F := F) x0 i) := rfl

def val_main_v14 (x0 : (⟨S4096x14x14x30, .f32⟩ : BufTy).Contents (Elt F)) (x3 : (⟨S4096x14x14, .i1⟩ : BufTy).Contents (Elt F)) : (⟨S4096x14x14, .f32⟩ : BufTy).Contents (Elt F) :=
  mulf (val_main_v13 (F := F) x0 x3) (val_main_v13 (F := F) x0 x3)

theorem val_main_v14_apply (x0 : (⟨S4096x14x14x30, .f32⟩ : BufTy).Contents (Elt F)) (x3 : (⟨S4096x14x14, .i1⟩ : BufTy).Contents (Elt F)) (i : S4096x14x14.Idx) :
    val_main_v14 (F := F) x0 x3 i = FloatOps.mulf (val_main_v13 (F := F) x0 x3 i) (val_main_v13 (F := F) x0 x3 i) := rfl

def val_main_cst_2 : (⟨S_, .f32⟩ : BufTy).Contents (Elt F) :=
  constant S_ .f32 0x00000000#32

theorem val_main_cst_2_apply (i : S_.Idx) :
    val_main_cst_2 (F := F) i = FloatOps.ofBits .f32 0x00000000#32 := rfl

def val_main_v15 (x0 : (⟨S4096x14x14x30, .f32⟩ : BufTy).Contents (Elt F)) (x3 : (⟨S4096x14x14, .i1⟩ : BufTy).Contents (Elt F)) : (⟨S_, .f32⟩ : BufTy).Contents (Elt F) :=
  Host.reduceAdd (val_main_v14 (F := F) x0 x3) (val_main_cst_2 (F := F)) reducesTo_S4096x14x14_S_d0_1_2 h_S_

theorem val_main_v15_apply (x0 : (⟨S4096x14x14x30, .f32⟩ : BufTy).Contents (Elt Ideal)) (x3 : (⟨S4096x14x14, .i1⟩ : BufTy).Contents (Elt Ideal)) (i : S_.Idx) :
    val_main_v15 (F := Ideal) x0 x3 i = (val_main_cst_2 (F := Ideal)) (Shape.Idx.first h_S_) + ∑ j : S4096x14x14.Idx, (val_main_v14 (F := Ideal) x0 x3) j := by
  unfold val_main_v15
  generalize val_main_v14 (F := Ideal) x0 x3 = y0
  simp only [Host.reduceAdd, Ideal.hostReduceAdd_def]
  exact Ideal.hostReduceAdd_total reducesTo_S4096x14x14_S_d0_1_2 (fun b => b.elim0) y0 _ i

def val_main_cst_3 : (⟨S_, .f32⟩ : BufTy).Contents (Elt F) :=
  constant S_ .f32 0x3F800000#32

def val_main_v16 : (⟨S4096x14x14, .f32⟩ : BufTy).Contents (Elt F) :=
  broadcastInDim S4096x14x14 ![] bcast_S_S4096x14x14 (val_main_cst_3 (F := F))

abbrev idx_main_v16 (i : S4096x14x14.Idx) : S_.Idx := fun a => a.elim0

theorem val_main_v16_apply (i : S4096x14x14.Idx) :
    val_main_v16 (F := F) i = val_main_cst_3 (F := F) (idx_main_v16 i) := by
  unfold val_main_v16
  generalize val_main_cst_3 (F := F) = y
  exact broadcastInDim_apply _ bcast_S_S4096x14x14 y i (idx_main_v16 i) (fun a => a.elim0)

def val_main_v17 (x3 : (⟨S4096x14x14, .i1⟩ : BufTy).Contents (Elt F)) : (⟨S4096x14x14, .f32⟩ : BufTy).Contents (Elt F) :=
  subf (val_main_v16 (F := F)) (val_main_v3 (F := F) x3)

theorem val_main_v17_apply (x3 : (⟨S4096x14x14, .i1⟩ : BufTy).Contents (Elt F)) (i : S4096x14x14.Idx) :
    val_main_v17 (F := F) x3 i = FloatOps.subf (val_main_v16 (F := F) i) (val_main_v3 (F := F) x3 i) := rfl

def val_main_v18 (x0 : (⟨S4096x14x14x30, .f32⟩ : BufTy).Contents (Elt F)) : (⟨S4096x14x14x1, .f32⟩ : BufTy).Contents (Elt F) :=
  extractStridedSlice S4096x14x14x1 ![0, 0, 0, 4] (val_main_v1 (F := F) x0) slices_S4096x14x14x5_S4096x14x14x1_0_0_0_4

def val_main_v19 (x0 : (⟨S4096x14x14x30, .f32⟩ : BufTy).Contents (Elt F)) : (⟨S4096x14x14, .f32⟩ : BufTy).Contents (Elt F) :=
  shapeCast _ (val_main_v18 (F := F) x0) shapeCasts_S4096x14x14x1_S4096x14x14

def val_main_v20 (x0 : (⟨S4096x14x14x30, .f32⟩ : BufTy).Contents (Elt F)) (x3 : (⟨S4096x14x14, .i1⟩ : BufTy).Contents (Elt F)) : (⟨S4096x14x14, .f32⟩ : BufTy).Contents (Elt F) :=
  mulf (val_main_v17 (F := F) x3) (val_main_v19 (F := F) x0)

theorem val_main_v20_apply (x0 : (⟨S4096x14x14x30, .f32⟩ : BufTy).Contents (Elt F)) (x3 : (⟨S4096x14x14, .i1⟩ : BufTy).Contents (Elt F)) (i : S4096x14x14.Idx) :
    val_main_v20 (F := F) x0 x3 i = FloatOps.mulf (val_main_v17 (F := F) x3 i) (val_main_v19 (F := F) x0 i) := rfl

def val_main_v21 (x0 : (⟨S4096x14x14x30, .f32⟩ : BufTy).Contents (Elt F)) (x3 : (⟨S4096x14x14, .i1⟩ : BufTy).Contents (Elt F)) : (⟨S4096x14x14, .f32⟩ : BufTy).Contents (Elt F) :=
  mulf (val_main_v20 (F := F) x0 x3) (val_main_v20 (F := F) x0 x3)

theorem val_main_v21_apply (x0 : (⟨S4096x14x14x30, .f32⟩ : BufTy).Contents (Elt F)) (x3 : (⟨S4096x14x14, .i1⟩ : BufTy).Contents (Elt F)) (i : S4096x14x14.Idx) :
    val_main_v21 (F := F) x0 x3 i = FloatOps.mulf (val_main_v20 (F := F) x0 x3 i) (val_main_v20 (F := F) x0 x3 i) := rfl

def val_main_cst_4 : (⟨S_, .f32⟩ : BufTy).Contents (Elt F) :=
  constant S_ .f32 0x00000000#32

theorem val_main_cst_4_apply (i : S_.Idx) :
    val_main_cst_4 (F := F) i = FloatOps.ofBits .f32 0x00000000#32 := rfl

def val_main_v22 (x0 : (⟨S4096x14x14x30, .f32⟩ : BufTy).Contents (Elt F)) (x3 : (⟨S4096x14x14, .i1⟩ : BufTy).Contents (Elt F)) : (⟨S_, .f32⟩ : BufTy).Contents (Elt F) :=
  Host.reduceAdd (val_main_v21 (F := F) x0 x3) (val_main_cst_4 (F := F)) reducesTo_S4096x14x14_S_d0_1_2 h_S_

theorem val_main_v22_apply (x0 : (⟨S4096x14x14x30, .f32⟩ : BufTy).Contents (Elt Ideal)) (x3 : (⟨S4096x14x14, .i1⟩ : BufTy).Contents (Elt Ideal)) (i : S_.Idx) :
    val_main_v22 (F := Ideal) x0 x3 i = (val_main_cst_4 (F := Ideal)) (Shape.Idx.first h_S_) + ∑ j : S4096x14x14.Idx, (val_main_v21 (F := Ideal) x0 x3) j := by
  unfold val_main_v22
  generalize val_main_v21 (F := Ideal) x0 x3 = y0
  simp only [Host.reduceAdd, Ideal.hostReduceAdd_def]
  exact Ideal.hostReduceAdd_total reducesTo_S4096x14x14_S_d0_1_2 (fun b => b.elim0) y0 _ i

def val_main_v23 (x0 : (⟨S4096x14x14x30, .f32⟩ : BufTy).Contents (Elt F)) (x3 : (⟨S4096x14x14, .i1⟩ : BufTy).Contents (Elt F)) : (⟨S_, .f32⟩ : BufTy).Contents (Elt F) :=
  addf (val_main_v15 (F := F) x0 x3) (val_main_v22 (F := F) x0 x3)

theorem val_main_v23_apply (x0 : (⟨S4096x14x14x30, .f32⟩ : BufTy).Contents (Elt F)) (x3 : (⟨S4096x14x14, .i1⟩ : BufTy).Contents (Elt F)) (i : S_.Idx) :
    val_main_v23 (F := F) x0 x3 i = FloatOps.addf (val_main_v15 (F := F) x0 x3 i) (val_main_v22 (F := F) x0 x3 i) := rfl

def val_main_v24 (x0 : (⟨S4096x14x14x30, .f32⟩ : BufTy).Contents (Elt F)) : (⟨S4096x14x14x4, .f32⟩ : BufTy).Contents (Elt F) :=
  extractStridedSlice S4096x14x14x4 ![0, 0, 0, 0] (val_main_v0 (F := F) x0) slices_S4096x14x14x5_S4096x14x14x4_0_0_0_0

def val_main_v25 (x0 : (⟨S4096x14x14x30, .f32⟩ : BufTy).Contents (Elt F)) : (⟨S4096x14x14x2, .f32⟩ : BufTy).Contents (Elt F) :=
  extractStridedSlice S4096x14x14x2 ![0, 0, 0, 0] (val_main_v24 (F := F) x0) slices_S4096x14x14x4_S4096x14x14x2_0_0_0_0

def val_main_cst_5 : (⟨S_, .f32⟩ : BufTy).Contents (Elt F) :=
  constant S_ .f32 0x41600000#32

theorem val_main_cst_5_apply (i : S_.Idx) :
    val_main_cst_5 (F := F) i = FloatOps.ofBits .f32 0x41600000#32 := rfl

def val_main_v26 : (⟨S4096x14x14x2, .f32⟩ : BufTy).Contents (Elt F) :=
  broadcastInDim S4096x14x14x2 ![] bcast_S_S4096x14x14x2 (val_main_cst_5 (F := F))

abbrev idx_main_v26 (i : S4096x14x14x2.Idx) : S_.Idx := fun a => a.elim0

theorem val_main_v26_apply (i : S4096x14x14x2.Idx) :
    val_main_v26 (F := F) i = val_main_cst_5 (F := F) (idx_main_v26 i) := by
  unfold val_main_v26
  generalize val_main_cst_5 (F := F) = y
  exact broadcastInDim_apply _ bcast_S_S4096x14x14x2 y i (idx_main_v26 i) (fun a => a.elim0)

def val_main_v27 (x0 : (⟨S4096x14x14x30, .f32⟩ : BufTy).Contents (Elt F)) : (⟨S4096x14x14x2, .f32⟩ : BufTy).Contents (Elt F) :=
  Host.divf (val_main_v25 (F := F) x0) (val_main_v26 (F := F))

theorem val_main_v27_apply (x0 : (⟨S4096x14x14x30, .f32⟩ : BufTy).Contents (Elt F)) (i : S4096x14x14x2.Idx) :
    val_main_v27 (F := F) x0 i = FloatOps.hostDivf (val_main_v25 (F := F) x0 i) (val_main_v26 (F := F) i) := rfl

def val_main_v28 (x0 : (⟨S4096x14x14x30, .f32⟩ : BufTy).Contents (Elt F)) : (⟨S4096x14x14x2, .f32⟩ : BufTy).Contents (Elt F) :=
  extractStridedSlice S4096x14x14x2 ![0, 0, 0, 2] (val_main_v24 (F := F) x0) slices_S4096x14x14x4_S4096x14x14x2_0_0_0_2

def val_main_cst_6 : (⟨S_, .f32⟩ : BufTy).Contents (Elt F) :=
  constant S_ .f32 0x3F000000#32

theorem val_main_cst_6_apply (i : S_.Idx) :
    val_main_cst_6 (F := F) i = FloatOps.ofBits .f32 0x3F000000#32 := rfl

def val_main_v29 : (⟨S4096x14x14x2, .f32⟩ : BufTy).Contents (Elt F) :=
  broadcastInDim S4096x14x14x2 ![] bcast_S_S4096x14x14x2 (val_main_cst_6 (F := F))

abbrev idx_main_v29 (i : S4096x14x14x2.Idx) : S_.Idx := fun a => a.elim0

theorem val_main_v29_apply (i : S4096x14x14x2.Idx) :
    val_main_v29 (F := F) i = val_main_cst_6 (F := F) (idx_main_v29 i) := by
  unfold val_main_v29
  generalize val_main_cst_6 (F := F) = y
  exact broadcastInDim_apply _ bcast_S_S4096x14x14x2 y i (idx_main_v29 i) (fun a => a.elim0)

def val_main_v30 (x0 : (⟨S4096x14x14x30, .f32⟩ : BufTy).Contents (Elt F)) : (⟨S4096x14x14x2, .f32⟩ : BufTy).Contents (Elt F) :=
  mulf (val_main_v29 (F := F)) (val_main_v28 (F := F) x0)

theorem val_main_v30_apply (x0 : (⟨S4096x14x14x30, .f32⟩ : BufTy).Contents (Elt F)) (i : S4096x14x14x2.Idx) :
    val_main_v30 (F := F) x0 i = FloatOps.mulf (val_main_v29 (F := F) i) (val_main_v28 (F := F) x0 i) := rfl

def val_main_v31 (x0 : (⟨S4096x14x14x30, .f32⟩ : BufTy).Contents (Elt F)) : (⟨S4096x14x14x2, .f32⟩ : BufTy).Contents (Elt F) :=
  subf (val_main_v27 (F := F) x0) (val_main_v30 (F := F) x0)

theorem val_main_v31_apply (x0 : (⟨S4096x14x14x30, .f32⟩ : BufTy).Contents (Elt F)) (i : S4096x14x14x2.Idx) :
    val_main_v31 (F := F) x0 i = FloatOps.subf (val_main_v27 (F := F) x0 i) (val_main_v30 (F := F) x0 i) := rfl

def val_main_cst_7 : (⟨S_, .f32⟩ : BufTy).Contents (Elt F) :=
  constant S_ .f32 0x3F000000#32

theorem val_main_cst_7_apply (i : S_.Idx) :
    val_main_cst_7 (F := F) i = FloatOps.ofBits .f32 0x3F000000#32 := rfl

def val_main_v32 : (⟨S4096x14x14x2, .f32⟩ : BufTy).Contents (Elt F) :=
  broadcastInDim S4096x14x14x2 ![] bcast_S_S4096x14x14x2 (val_main_cst_7 (F := F))

abbrev idx_main_v32 (i : S4096x14x14x2.Idx) : S_.Idx := fun a => a.elim0

theorem val_main_v32_apply (i : S4096x14x14x2.Idx) :
    val_main_v32 (F := F) i = val_main_cst_7 (F := F) (idx_main_v32 i) := by
  unfold val_main_v32
  generalize val_main_cst_7 (F := F) = y
  exact broadcastInDim_apply _ bcast_S_S4096x14x14x2 y i (idx_main_v32 i) (fun a => a.elim0)

def val_main_v33 (x0 : (⟨S4096x14x14x30, .f32⟩ : BufTy).Contents (Elt F)) : (⟨S4096x14x14x2, .f32⟩ : BufTy).Contents (Elt F) :=
  mulf (val_main_v32 (F := F)) (val_main_v28 (F := F) x0)

theorem val_main_v33_apply (x0 : (⟨S4096x14x14x30, .f32⟩ : BufTy).Contents (Elt F)) (i : S4096x14x14x2.Idx) :
    val_main_v33 (F := F) x0 i = FloatOps.mulf (val_main_v32 (F := F) i) (val_main_v28 (F := F) x0 i) := rfl

def val_main_v34 (x0 : (⟨S4096x14x14x30, .f32⟩ : BufTy).Contents (Elt F)) : (⟨S4096x14x14x2, .f32⟩ : BufTy).Contents (Elt F) :=
  addf (val_main_v27 (F := F) x0) (val_main_v33 (F := F) x0)

theorem val_main_v34_apply (x0 : (⟨S4096x14x14x30, .f32⟩ : BufTy).Contents (Elt F)) (i : S4096x14x14x2.Idx) :
    val_main_v34 (F := F) x0 i = FloatOps.addf (val_main_v27 (F := F) x0 i) (val_main_v33 (F := F) x0 i) := rfl

def val_main_v35 (x0 : (⟨S4096x14x14x30, .f32⟩ : BufTy).Contents (Elt F)) : (⟨S4096x14x14x4, .f32⟩ : BufTy).Contents (Elt F) :=
  concatenate S4096x14x14x4 3 [⟨S4096x14x14x2, (val_main_v31 (F := F) x0)⟩, ⟨S4096x14x14x2, (val_main_v34 (F := F) x0)⟩] concatenates_S4096x14x14x2_S4096x14x14x2_S4096x14x14x4_d3

def val_main_v36 (x0 : (⟨S4096x14x14x30, .f32⟩ : BufTy).Contents (Elt F)) : (⟨S4096x14x14x4, .f32⟩ : BufTy).Contents (Elt F) :=
  extractStridedSlice S4096x14x14x4 ![0, 0, 0, 0] (val_main_v1 (F := F) x0) slices_S4096x14x14x5_S4096x14x14x4_0_0_0_0

def val_main_v37 (x0 : (⟨S4096x14x14x30, .f32⟩ : BufTy).Contents (Elt F)) : (⟨S4096x14x14x2, .f32⟩ : BufTy).Contents (Elt F) :=
  extractStridedSlice S4096x14x14x2 ![0, 0, 0, 0] (val_main_v36 (F := F) x0) slices_S4096x14x14x4_S4096x14x14x2_0_0_0_0

def val_main_cst_8 : (⟨S_, .f32⟩ : BufTy).Contents (Elt F) :=
  constant S_ .f32 0x41600000#32

theorem val_main_cst_8_apply (i : S_.Idx) :
    val_main_cst_8 (F := F) i = FloatOps.ofBits .f32 0x41600000#32 := rfl

def val_main_v38 : (⟨S4096x14x14x2, .f32⟩ : BufTy).Contents (Elt F) :=
  broadcastInDim S4096x14x14x2 ![] bcast_S_S4096x14x14x2 (val_main_cst_8 (F := F))

abbrev idx_main_v38 (i : S4096x14x14x2.Idx) : S_.Idx := fun a => a.elim0

theorem val_main_v38_apply (i : S4096x14x14x2.Idx) :
    val_main_v38 (F := F) i = val_main_cst_8 (F := F) (idx_main_v38 i) := by
  unfold val_main_v38
  generalize val_main_cst_8 (F := F) = y
  exact broadcastInDim_apply _ bcast_S_S4096x14x14x2 y i (idx_main_v38 i) (fun a => a.elim0)

def val_main_v39 (x0 : (⟨S4096x14x14x30, .f32⟩ : BufTy).Contents (Elt F)) : (⟨S4096x14x14x2, .f32⟩ : BufTy).Contents (Elt F) :=
  Host.divf (val_main_v37 (F := F) x0) (val_main_v38 (F := F))

theorem val_main_v39_apply (x0 : (⟨S4096x14x14x30, .f32⟩ : BufTy).Contents (Elt F)) (i : S4096x14x14x2.Idx) :
    val_main_v39 (F := F) x0 i = FloatOps.hostDivf (val_main_v37 (F := F) x0 i) (val_main_v38 (F := F) i) := rfl

def val_main_v40 (x0 : (⟨S4096x14x14x30, .f32⟩ : BufTy).Contents (Elt F)) : (⟨S4096x14x14x2, .f32⟩ : BufTy).Contents (Elt F) :=
  extractStridedSlice S4096x14x14x2 ![0, 0, 0, 2] (val_main_v36 (F := F) x0) slices_S4096x14x14x4_S4096x14x14x2_0_0_0_2

def val_main_cst_9 : (⟨S_, .f32⟩ : BufTy).Contents (Elt F) :=
  constant S_ .f32 0x3F000000#32

theorem val_main_cst_9_apply (i : S_.Idx) :
    val_main_cst_9 (F := F) i = FloatOps.ofBits .f32 0x3F000000#32 := rfl

def val_main_v41 : (⟨S4096x14x14x2, .f32⟩ : BufTy).Contents (Elt F) :=
  broadcastInDim S4096x14x14x2 ![] bcast_S_S4096x14x14x2 (val_main_cst_9 (F := F))

abbrev idx_main_v41 (i : S4096x14x14x2.Idx) : S_.Idx := fun a => a.elim0

theorem val_main_v41_apply (i : S4096x14x14x2.Idx) :
    val_main_v41 (F := F) i = val_main_cst_9 (F := F) (idx_main_v41 i) := by
  unfold val_main_v41
  generalize val_main_cst_9 (F := F) = y
  exact broadcastInDim_apply _ bcast_S_S4096x14x14x2 y i (idx_main_v41 i) (fun a => a.elim0)

def val_main_v42 (x0 : (⟨S4096x14x14x30, .f32⟩ : BufTy).Contents (Elt F)) : (⟨S4096x14x14x2, .f32⟩ : BufTy).Contents (Elt F) :=
  mulf (val_main_v41 (F := F)) (val_main_v40 (F := F) x0)

theorem val_main_v42_apply (x0 : (⟨S4096x14x14x30, .f32⟩ : BufTy).Contents (Elt F)) (i : S4096x14x14x2.Idx) :
    val_main_v42 (F := F) x0 i = FloatOps.mulf (val_main_v41 (F := F) i) (val_main_v40 (F := F) x0 i) := rfl

def val_main_v43 (x0 : (⟨S4096x14x14x30, .f32⟩ : BufTy).Contents (Elt F)) : (⟨S4096x14x14x2, .f32⟩ : BufTy).Contents (Elt F) :=
  subf (val_main_v39 (F := F) x0) (val_main_v42 (F := F) x0)

theorem val_main_v43_apply (x0 : (⟨S4096x14x14x30, .f32⟩ : BufTy).Contents (Elt F)) (i : S4096x14x14x2.Idx) :
    val_main_v43 (F := F) x0 i = FloatOps.subf (val_main_v39 (F := F) x0 i) (val_main_v42 (F := F) x0 i) := rfl

def val_main_cst_10 : (⟨S_, .f32⟩ : BufTy).Contents (Elt F) :=
  constant S_ .f32 0x3F000000#32

theorem val_main_cst_10_apply (i : S_.Idx) :
    val_main_cst_10 (F := F) i = FloatOps.ofBits .f32 0x3F000000#32 := rfl

def val_main_v44 : (⟨S4096x14x14x2, .f32⟩ : BufTy).Contents (Elt F) :=
  broadcastInDim S4096x14x14x2 ![] bcast_S_S4096x14x14x2 (val_main_cst_10 (F := F))

abbrev idx_main_v44 (i : S4096x14x14x2.Idx) : S_.Idx := fun a => a.elim0

theorem val_main_v44_apply (i : S4096x14x14x2.Idx) :
    val_main_v44 (F := F) i = val_main_cst_10 (F := F) (idx_main_v44 i) := by
  unfold val_main_v44
  generalize val_main_cst_10 (F := F) = y
  exact broadcastInDim_apply _ bcast_S_S4096x14x14x2 y i (idx_main_v44 i) (fun a => a.elim0)

def val_main_v45 (x0 : (⟨S4096x14x14x30, .f32⟩ : BufTy).Contents (Elt F)) : (⟨S4096x14x14x2, .f32⟩ : BufTy).Contents (Elt F) :=
  mulf (val_main_v44 (F := F)) (val_main_v40 (F := F) x0)

theorem val_main_v45_apply (x0 : (⟨S4096x14x14x30, .f32⟩ : BufTy).Contents (Elt F)) (i : S4096x14x14x2.Idx) :
    val_main_v45 (F := F) x0 i = FloatOps.mulf (val_main_v44 (F := F) i) (val_main_v40 (F := F) x0 i) := rfl

def val_main_v46 (x0 : (⟨S4096x14x14x30, .f32⟩ : BufTy).Contents (Elt F)) : (⟨S4096x14x14x2, .f32⟩ : BufTy).Contents (Elt F) :=
  addf (val_main_v39 (F := F) x0) (val_main_v45 (F := F) x0)

theorem val_main_v46_apply (x0 : (⟨S4096x14x14x30, .f32⟩ : BufTy).Contents (Elt F)) (i : S4096x14x14x2.Idx) :
    val_main_v46 (F := F) x0 i = FloatOps.addf (val_main_v39 (F := F) x0 i) (val_main_v45 (F := F) x0 i) := rfl

def val_main_v47 (x0 : (⟨S4096x14x14x30, .f32⟩ : BufTy).Contents (Elt F)) : (⟨S4096x14x14x4, .f32⟩ : BufTy).Contents (Elt F) :=
  concatenate S4096x14x14x4 3 [⟨S4096x14x14x2, (val_main_v43 (F := F) x0)⟩, ⟨S4096x14x14x2, (val_main_v46 (F := F) x0)⟩] concatenates_S4096x14x14x2_S4096x14x14x2_S4096x14x14x4_d3

def val_main_v48 (x1 : (⟨S4096x14x14x4, .f32⟩ : BufTy).Contents (Elt F)) : (⟨S4096x14x14x2, .f32⟩ : BufTy).Contents (Elt F) :=
  extractStridedSlice S4096x14x14x2 ![0, 0, 0, 0] (x1) slices_S4096x14x14x4_S4096x14x14x2_0_0_0_0

def val_main_cst_11 : (⟨S_, .f32⟩ : BufTy).Contents (Elt F) :=
  constant S_ .f32 0x41600000#32

theorem val_main_cst_11_apply (i : S_.Idx) :
    val_main_cst_11 (F := F) i = FloatOps.ofBits .f32 0x41600000#32 := rfl

def val_main_v49 : (⟨S4096x14x14x2, .f32⟩ : BufTy).Contents (Elt F) :=
  broadcastInDim S4096x14x14x2 ![] bcast_S_S4096x14x14x2 (val_main_cst_11 (F := F))

abbrev idx_main_v49 (i : S4096x14x14x2.Idx) : S_.Idx := fun a => a.elim0

theorem val_main_v49_apply (i : S4096x14x14x2.Idx) :
    val_main_v49 (F := F) i = val_main_cst_11 (F := F) (idx_main_v49 i) := by
  unfold val_main_v49
  generalize val_main_cst_11 (F := F) = y
  exact broadcastInDim_apply _ bcast_S_S4096x14x14x2 y i (idx_main_v49 i) (fun a => a.elim0)

def val_main_v50 (x1 : (⟨S4096x14x14x4, .f32⟩ : BufTy).Contents (Elt F)) : (⟨S4096x14x14x2, .f32⟩ : BufTy).Contents (Elt F) :=
  Host.divf (val_main_v48 (F := F) x1) (val_main_v49 (F := F))

theorem val_main_v50_apply (x1 : (⟨S4096x14x14x4, .f32⟩ : BufTy).Contents (Elt F)) (i : S4096x14x14x2.Idx) :
    val_main_v50 (F := F) x1 i = FloatOps.hostDivf (val_main_v48 (F := F) x1 i) (val_main_v49 (F := F) i) := rfl

def val_main_v51 (x1 : (⟨S4096x14x14x4, .f32⟩ : BufTy).Contents (Elt F)) : (⟨S4096x14x14x2, .f32⟩ : BufTy).Contents (Elt F) :=
  extractStridedSlice S4096x14x14x2 ![0, 0, 0, 2] (x1) slices_S4096x14x14x4_S4096x14x14x2_0_0_0_2

def val_main_cst_12 : (⟨S_, .f32⟩ : BufTy).Contents (Elt F) :=
  constant S_ .f32 0x3F000000#32

theorem val_main_cst_12_apply (i : S_.Idx) :
    val_main_cst_12 (F := F) i = FloatOps.ofBits .f32 0x3F000000#32 := rfl

def val_main_v52 : (⟨S4096x14x14x2, .f32⟩ : BufTy).Contents (Elt F) :=
  broadcastInDim S4096x14x14x2 ![] bcast_S_S4096x14x14x2 (val_main_cst_12 (F := F))

abbrev idx_main_v52 (i : S4096x14x14x2.Idx) : S_.Idx := fun a => a.elim0

theorem val_main_v52_apply (i : S4096x14x14x2.Idx) :
    val_main_v52 (F := F) i = val_main_cst_12 (F := F) (idx_main_v52 i) := by
  unfold val_main_v52
  generalize val_main_cst_12 (F := F) = y
  exact broadcastInDim_apply _ bcast_S_S4096x14x14x2 y i (idx_main_v52 i) (fun a => a.elim0)

def val_main_v53 (x1 : (⟨S4096x14x14x4, .f32⟩ : BufTy).Contents (Elt F)) : (⟨S4096x14x14x2, .f32⟩ : BufTy).Contents (Elt F) :=
  mulf (val_main_v52 (F := F)) (val_main_v51 (F := F) x1)

theorem val_main_v53_apply (x1 : (⟨S4096x14x14x4, .f32⟩ : BufTy).Contents (Elt F)) (i : S4096x14x14x2.Idx) :
    val_main_v53 (F := F) x1 i = FloatOps.mulf (val_main_v52 (F := F) i) (val_main_v51 (F := F) x1 i) := rfl

def val_main_v54 (x1 : (⟨S4096x14x14x4, .f32⟩ : BufTy).Contents (Elt F)) : (⟨S4096x14x14x2, .f32⟩ : BufTy).Contents (Elt F) :=
  subf (val_main_v50 (F := F) x1) (val_main_v53 (F := F) x1)

theorem val_main_v54_apply (x1 : (⟨S4096x14x14x4, .f32⟩ : BufTy).Contents (Elt F)) (i : S4096x14x14x2.Idx) :
    val_main_v54 (F := F) x1 i = FloatOps.subf (val_main_v50 (F := F) x1 i) (val_main_v53 (F := F) x1 i) := rfl

def val_main_cst_13 : (⟨S_, .f32⟩ : BufTy).Contents (Elt F) :=
  constant S_ .f32 0x3F000000#32

theorem val_main_cst_13_apply (i : S_.Idx) :
    val_main_cst_13 (F := F) i = FloatOps.ofBits .f32 0x3F000000#32 := rfl

def val_main_v55 : (⟨S4096x14x14x2, .f32⟩ : BufTy).Contents (Elt F) :=
  broadcastInDim S4096x14x14x2 ![] bcast_S_S4096x14x14x2 (val_main_cst_13 (F := F))

abbrev idx_main_v55 (i : S4096x14x14x2.Idx) : S_.Idx := fun a => a.elim0

theorem val_main_v55_apply (i : S4096x14x14x2.Idx) :
    val_main_v55 (F := F) i = val_main_cst_13 (F := F) (idx_main_v55 i) := by
  unfold val_main_v55
  generalize val_main_cst_13 (F := F) = y
  exact broadcastInDim_apply _ bcast_S_S4096x14x14x2 y i (idx_main_v55 i) (fun a => a.elim0)

def val_main_v56 (x1 : (⟨S4096x14x14x4, .f32⟩ : BufTy).Contents (Elt F)) : (⟨S4096x14x14x2, .f32⟩ : BufTy).Contents (Elt F) :=
  mulf (val_main_v55 (F := F)) (val_main_v51 (F := F) x1)

theorem val_main_v56_apply (x1 : (⟨S4096x14x14x4, .f32⟩ : BufTy).Contents (Elt F)) (i : S4096x14x14x2.Idx) :
    val_main_v56 (F := F) x1 i = FloatOps.mulf (val_main_v55 (F := F) i) (val_main_v51 (F := F) x1 i) := rfl

def val_main_v57 (x1 : (⟨S4096x14x14x4, .f32⟩ : BufTy).Contents (Elt F)) : (⟨S4096x14x14x2, .f32⟩ : BufTy).Contents (Elt F) :=
  addf (val_main_v50 (F := F) x1) (val_main_v56 (F := F) x1)

theorem val_main_v57_apply (x1 : (⟨S4096x14x14x4, .f32⟩ : BufTy).Contents (Elt F)) (i : S4096x14x14x2.Idx) :
    val_main_v57 (F := F) x1 i = FloatOps.addf (val_main_v50 (F := F) x1 i) (val_main_v56 (F := F) x1 i) := rfl

def val_main_v58 (x1 : (⟨S4096x14x14x4, .f32⟩ : BufTy).Contents (Elt F)) : (⟨S4096x14x14x4, .f32⟩ : BufTy).Contents (Elt F) :=
  concatenate S4096x14x14x4 3 [⟨S4096x14x14x2, (val_main_v54 (F := F) x1)⟩, ⟨S4096x14x14x2, (val_main_v57 (F := F) x1)⟩] concatenates_S4096x14x14x2_S4096x14x14x2_S4096x14x14x4_d3

def val_main_v59 (x0 : (⟨S4096x14x14x30, .f32⟩ : BufTy).Contents (Elt F)) : (⟨S4096x14x14x2, .f32⟩ : BufTy).Contents (Elt F) :=
  extractStridedSlice S4096x14x14x2 ![0, 0, 0, 0] (val_main_v35 (F := F) x0) slices_S4096x14x14x4_S4096x14x14x2_0_0_0_0

def val_main_v60 (x1 : (⟨S4096x14x14x4, .f32⟩ : BufTy).Contents (Elt F)) : (⟨S4096x14x14x2, .f32⟩ : BufTy).Contents (Elt F) :=
  extractStridedSlice S4096x14x14x2 ![0, 0, 0, 0] (val_main_v58 (F := F) x1) slices_S4096x14x14x4_S4096x14x14x2_0_0_0_0

def val_main_v61 (x0 : (⟨S4096x14x14x30, .f32⟩ : BufTy).Contents (Elt F)) (x1 : (⟨S4096x14x14x4, .f32⟩ : BufTy).Contents (Elt F)) : (⟨S4096x14x14x2, .f32⟩ : BufTy).Contents (Elt F) :=
  maximumf (val_main_v59 (F := F) x0) (val_main_v60 (F := F) x1)

theorem val_main_v61_apply (x0 : (⟨S4096x14x14x30, .f32⟩ : BufTy).Contents (Elt F)) (x1 : (⟨S4096x14x14x4, .f32⟩ : BufTy).Contents (Elt F)) (i : S4096x14x14x2.Idx) :
    val_main_v61 (F := F) x0 x1 i = FloatOps.maximumf (val_main_v59 (F := F) x0 i) (val_main_v60 (F := F) x1 i) := rfl

def val_main_v62 (x0 : (⟨S4096x14x14x30, .f32⟩ : BufTy).Contents (Elt F)) : (⟨S4096x14x14x2, .f32⟩ : BufTy).Contents (Elt F) :=
  extractStridedSlice S4096x14x14x2 ![0, 0, 0, 2] (val_main_v35 (F := F) x0) slices_S4096x14x14x4_S4096x14x14x2_0_0_0_2

def val_main_v63 (x1 : (⟨S4096x14x14x4, .f32⟩ : BufTy).Contents (Elt F)) : (⟨S4096x14x14x2, .f32⟩ : BufTy).Contents (Elt F) :=
  extractStridedSlice S4096x14x14x2 ![0, 0, 0, 2] (val_main_v58 (F := F) x1) slices_S4096x14x14x4_S4096x14x14x2_0_0_0_2

def val_main_v64 (x0 : (⟨S4096x14x14x30, .f32⟩ : BufTy).Contents (Elt F)) (x1 : (⟨S4096x14x14x4, .f32⟩ : BufTy).Contents (Elt F)) : (⟨S4096x14x14x2, .f32⟩ : BufTy).Contents (Elt F) :=
  minimumf (val_main_v62 (F := F) x0) (val_main_v63 (F := F) x1)

theorem val_main_v64_apply (x0 : (⟨S4096x14x14x30, .f32⟩ : BufTy).Contents (Elt F)) (x1 : (⟨S4096x14x14x4, .f32⟩ : BufTy).Contents (Elt F)) (i : S4096x14x14x2.Idx) :
    val_main_v64 (F := F) x0 x1 i = FloatOps.minimumf (val_main_v62 (F := F) x0 i) (val_main_v63 (F := F) x1 i) := rfl

def val_main_v65 (x0 : (⟨S4096x14x14x30, .f32⟩ : BufTy).Contents (Elt F)) (x1 : (⟨S4096x14x14x4, .f32⟩ : BufTy).Contents (Elt F)) : (⟨S4096x14x14x2, .f32⟩ : BufTy).Contents (Elt F) :=
  subf (val_main_v64 (F := F) x0 x1) (val_main_v61 (F := F) x0 x1)

theorem val_main_v65_apply (x0 : (⟨S4096x14x14x30, .f32⟩ : BufTy).Contents (Elt F)) (x1 : (⟨S4096x14x14x4, .f32⟩ : BufTy).Contents (Elt F)) (i : S4096x14x14x2.Idx) :
    val_main_v65 (F := F) x0 x1 i = FloatOps.subf (val_main_v64 (F := F) x0 x1 i) (val_main_v61 (F := F) x0 x1 i) := rfl

def val_main_cst_14 : (⟨S_, .f32⟩ : BufTy).Contents (Elt F) :=
  constant S_ .f32 0x00000000#32

theorem val_main_cst_14_apply (i : S_.Idx) :
    val_main_cst_14 (F := F) i = FloatOps.ofBits .f32 0x00000000#32 := rfl

def val_main_call0_v0 : (⟨S_, .f32⟩ : BufTy).Contents (Elt F) :=
  id (val_main_cst_14 (F := F))

theorem val_main_call0_v0_apply (i : S_.Idx) :
    val_main_call0_v0 (F := F) i = (val_main_cst_14 (F := F) i) := rfl

def val_main_call0_v1 : (⟨S4096x14x14x2, .f32⟩ : BufTy).Contents (Elt F) :=
  broadcastInDim S4096x14x14x2 ![] bcast_S_S4096x14x14x2 (val_main_call0_v0 (F := F))

abbrev idx_main_call0_v1 (i : S4096x14x14x2.Idx) : S_.Idx := fun a => a.elim0

theorem val_main_call0_v1_apply (i : S4096x14x14x2.Idx) :
    val_main_call0_v1 (F := F) i = val_main_call0_v0 (F := F) (idx_main_call0_v1 i) := by
  unfold val_main_call0_v1
  generalize val_main_call0_v0 (F := F) = y
  exact broadcastInDim_apply _ bcast_S_S4096x14x14x2 y i (idx_main_call0_v1 i) (fun a => a.elim0)

def val_main_v66 (x0 : (⟨S4096x14x14x30, .f32⟩ : BufTy).Contents (Elt F)) (x1 : (⟨S4096x14x14x4, .f32⟩ : BufTy).Contents (Elt F)) : (⟨S4096x14x14x2, .f32⟩ : BufTy).Contents (Elt F) :=
  maximumf (val_main_call0_v1 (F := F)) (val_main_v65 (F := F) x0 x1)

theorem val_main_v66_apply (x0 : (⟨S4096x14x14x30, .f32⟩ : BufTy).Contents (Elt F)) (x1 : (⟨S4096x14x14x4, .f32⟩ : BufTy).Contents (Elt F)) (i : S4096x14x14x2.Idx) :
    val_main_v66 (F := F) x0 x1 i = FloatOps.maximumf (val_main_call0_v1 (F := F) i) (val_main_v65 (F := F) x0 x1 i) := rfl

def val_main_v67 (x0 : (⟨S4096x14x14x30, .f32⟩ : BufTy).Contents (Elt F)) (x1 : (⟨S4096x14x14x4, .f32⟩ : BufTy).Contents (Elt F)) : (⟨S4096x14x14x1, .f32⟩ : BufTy).Contents (Elt F) :=
  extractStridedSlice S4096x14x14x1 ![0, 0, 0, 0] (val_main_v66 (F := F) x0 x1) slices_S4096x14x14x2_S4096x14x14x1_0_0_0_0

def val_main_v68 (x0 : (⟨S4096x14x14x30, .f32⟩ : BufTy).Contents (Elt F)) (x1 : (⟨S4096x14x14x4, .f32⟩ : BufTy).Contents (Elt F)) : (⟨S4096x14x14, .f32⟩ : BufTy).Contents (Elt F) :=
  shapeCast _ (val_main_v67 (F := F) x0 x1) shapeCasts_S4096x14x14x1_S4096x14x14

def val_main_v69 (x0 : (⟨S4096x14x14x30, .f32⟩ : BufTy).Contents (Elt F)) (x1 : (⟨S4096x14x14x4, .f32⟩ : BufTy).Contents (Elt F)) : (⟨S4096x14x14x1, .f32⟩ : BufTy).Contents (Elt F) :=
  extractStridedSlice S4096x14x14x1 ![0, 0, 0, 1] (val_main_v66 (F := F) x0 x1) slices_S4096x14x14x2_S4096x14x14x1_0_0_0_1

def val_main_v70 (x0 : (⟨S4096x14x14x30, .f32⟩ : BufTy).Contents (Elt F)) (x1 : (⟨S4096x14x14x4, .f32⟩ : BufTy).Contents (Elt F)) : (⟨S4096x14x14, .f32⟩ : BufTy).Contents (Elt F) :=
  shapeCast _ (val_main_v69 (F := F) x0 x1) shapeCasts_S4096x14x14x1_S4096x14x14

def val_main_v71 (x0 : (⟨S4096x14x14x30, .f32⟩ : BufTy).Contents (Elt F)) (x1 : (⟨S4096x14x14x4, .f32⟩ : BufTy).Contents (Elt F)) : (⟨S4096x14x14, .f32⟩ : BufTy).Contents (Elt F) :=
  mulf (val_main_v68 (F := F) x0 x1) (val_main_v70 (F := F) x0 x1)

theorem val_main_v71_apply (x0 : (⟨S4096x14x14x30, .f32⟩ : BufTy).Contents (Elt F)) (x1 : (⟨S4096x14x14x4, .f32⟩ : BufTy).Contents (Elt F)) (i : S4096x14x14.Idx) :
    val_main_v71 (F := F) x0 x1 i = FloatOps.mulf (val_main_v68 (F := F) x0 x1 i) (val_main_v70 (F := F) x0 x1 i) := rfl

def val_main_v72 (x0 : (⟨S4096x14x14x30, .f32⟩ : BufTy).Contents (Elt F)) : (⟨S4096x14x14x1, .f32⟩ : BufTy).Contents (Elt F) :=
  extractStridedSlice S4096x14x14x1 ![0, 0, 0, 2] (val_main_v35 (F := F) x0) slices_S4096x14x14x4_S4096x14x14x1_0_0_0_2

def val_main_v73 (x0 : (⟨S4096x14x14x30, .f32⟩ : BufTy).Contents (Elt F)) : (⟨S4096x14x14, .f32⟩ : BufTy).Contents (Elt F) :=
  shapeCast _ (val_main_v72 (F := F) x0) shapeCasts_S4096x14x14x1_S4096x14x14

def val_main_v74 (x0 : (⟨S4096x14x14x30, .f32⟩ : BufTy).Contents (Elt F)) : (⟨S4096x14x14x1, .f32⟩ : BufTy).Contents (Elt F) :=
  extractStridedSlice S4096x14x14x1 ![0, 0, 0, 0] (val_main_v35 (F := F) x0) slices_S4096x14x14x4_S4096x14x14x1_0_0_0_0

def val_main_v75 (x0 : (⟨S4096x14x14x30, .f32⟩ : BufTy).Contents (Elt F)) : (⟨S4096x14x14, .f32⟩ : BufTy).Contents (Elt F) :=
  shapeCast _ (val_main_v74 (F := F) x0) shapeCasts_S4096x14x14x1_S4096x14x14

def val_main_v76 (x0 : (⟨S4096x14x14x30, .f32⟩ : BufTy).Contents (Elt F)) : (⟨S4096x14x14, .f32⟩ : BufTy).Contents (Elt F) :=
  subf (val_main_v73 (F := F) x0) (val_main_v75 (F := F) x0)

theorem val_main_v76_apply (x0 : (⟨S4096x14x14x30, .f32⟩ : BufTy).Contents (Elt F)) (i : S4096x14x14.Idx) :
    val_main_v76 (F := F) x0 i = FloatOps.subf (val_main_v73 (F := F) x0 i) (val_main_v75 (F := F) x0 i) := rfl

def val_main_v77 (x0 : (⟨S4096x14x14x30, .f32⟩ : BufTy).Contents (Elt F)) : (⟨S4096x14x14x1, .f32⟩ : BufTy).Contents (Elt F) :=
  extractStridedSlice S4096x14x14x1 ![0, 0, 0, 3] (val_main_v35 (F := F) x0) slices_S4096x14x14x4_S4096x14x14x1_0_0_0_3

def val_main_v78 (x0 : (⟨S4096x14x14x30, .f32⟩ : BufTy).Contents (Elt F)) : (⟨S4096x14x14, .f32⟩ : BufTy).Contents (Elt F) :=
  shapeCast _ (val_main_v77 (F := F) x0) shapeCasts_S4096x14x14x1_S4096x14x14

def val_main_v79 (x0 : (⟨S4096x14x14x30, .f32⟩ : BufTy).Contents (Elt F)) : (⟨S4096x14x14x1, .f32⟩ : BufTy).Contents (Elt F) :=
  extractStridedSlice S4096x14x14x1 ![0, 0, 0, 1] (val_main_v35 (F := F) x0) slices_S4096x14x14x4_S4096x14x14x1_0_0_0_1

def val_main_v80 (x0 : (⟨S4096x14x14x30, .f32⟩ : BufTy).Contents (Elt F)) : (⟨S4096x14x14, .f32⟩ : BufTy).Contents (Elt F) :=
  shapeCast _ (val_main_v79 (F := F) x0) shapeCasts_S4096x14x14x1_S4096x14x14

def val_main_v81 (x0 : (⟨S4096x14x14x30, .f32⟩ : BufTy).Contents (Elt F)) : (⟨S4096x14x14, .f32⟩ : BufTy).Contents (Elt F) :=
  subf (val_main_v78 (F := F) x0) (val_main_v80 (F := F) x0)

theorem val_main_v81_apply (x0 : (⟨S4096x14x14x30, .f32⟩ : BufTy).Contents (Elt F)) (i : S4096x14x14.Idx) :
    val_main_v81 (F := F) x0 i = FloatOps.subf (val_main_v78 (F := F) x0 i) (val_main_v80 (F := F) x0 i) := rfl

def val_main_v82 (x0 : (⟨S4096x14x14x30, .f32⟩ : BufTy).Contents (Elt F)) : (⟨S4096x14x14, .f32⟩ : BufTy).Contents (Elt F) :=
  mulf (val_main_v76 (F := F) x0) (val_main_v81 (F := F) x0)

theorem val_main_v82_apply (x0 : (⟨S4096x14x14x30, .f32⟩ : BufTy).Contents (Elt F)) (i : S4096x14x14.Idx) :
    val_main_v82 (F := F) x0 i = FloatOps.mulf (val_main_v76 (F := F) x0 i) (val_main_v81 (F := F) x0 i) := rfl

def val_main_v83 (x1 : (⟨S4096x14x14x4, .f32⟩ : BufTy).Contents (Elt F)) : (⟨S4096x14x14x1, .f32⟩ : BufTy).Contents (Elt F) :=
  extractStridedSlice S4096x14x14x1 ![0, 0, 0, 2] (val_main_v58 (F := F) x1) slices_S4096x14x14x4_S4096x14x14x1_0_0_0_2

def val_main_v84 (x1 : (⟨S4096x14x14x4, .f32⟩ : BufTy).Contents (Elt F)) : (⟨S4096x14x14, .f32⟩ : BufTy).Contents (Elt F) :=
  shapeCast _ (val_main_v83 (F := F) x1) shapeCasts_S4096x14x14x1_S4096x14x14

def val_main_v85 (x1 : (⟨S4096x14x14x4, .f32⟩ : BufTy).Contents (Elt F)) : (⟨S4096x14x14x1, .f32⟩ : BufTy).Contents (Elt F) :=
  extractStridedSlice S4096x14x14x1 ![0, 0, 0, 0] (val_main_v58 (F := F) x1) slices_S4096x14x14x4_S4096x14x14x1_0_0_0_0

def val_main_v86 (x1 : (⟨S4096x14x14x4, .f32⟩ : BufTy).Contents (Elt F)) : (⟨S4096x14x14, .f32⟩ : BufTy).Contents (Elt F) :=
  shapeCast _ (val_main_v85 (F := F) x1) shapeCasts_S4096x14x14x1_S4096x14x14

def val_main_v87 (x1 : (⟨S4096x14x14x4, .f32⟩ : BufTy).Contents (Elt F)) : (⟨S4096x14x14, .f32⟩ : BufTy).Contents (Elt F) :=
  subf (val_main_v84 (F := F) x1) (val_main_v86 (F := F) x1)

theorem val_main_v87_apply (x1 : (⟨S4096x14x14x4, .f32⟩ : BufTy).Contents (Elt F)) (i : S4096x14x14.Idx) :
    val_main_v87 (F := F) x1 i = FloatOps.subf (val_main_v84 (F := F) x1 i) (val_main_v86 (F := F) x1 i) := rfl

def val_main_v88 (x1 : (⟨S4096x14x14x4, .f32⟩ : BufTy).Contents (Elt F)) : (⟨S4096x14x14x1, .f32⟩ : BufTy).Contents (Elt F) :=
  extractStridedSlice S4096x14x14x1 ![0, 0, 0, 3] (val_main_v58 (F := F) x1) slices_S4096x14x14x4_S4096x14x14x1_0_0_0_3

def val_main_v89 (x1 : (⟨S4096x14x14x4, .f32⟩ : BufTy).Contents (Elt F)) : (⟨S4096x14x14, .f32⟩ : BufTy).Contents (Elt F) :=
  shapeCast _ (val_main_v88 (F := F) x1) shapeCasts_S4096x14x14x1_S4096x14x14

def val_main_v90 (x1 : (⟨S4096x14x14x4, .f32⟩ : BufTy).Contents (Elt F)) : (⟨S4096x14x14x1, .f32⟩ : BufTy).Contents (Elt F) :=
  extractStridedSlice S4096x14x14x1 ![0, 0, 0, 1] (val_main_v58 (F := F) x1) slices_S4096x14x14x4_S4096x14x14x1_0_0_0_1

def val_main_v91 (x1 : (⟨S4096x14x14x4, .f32⟩ : BufTy).Contents (Elt F)) : (⟨S4096x14x14, .f32⟩ : BufTy).Contents (Elt F) :=
  shapeCast _ (val_main_v90 (F := F) x1) shapeCasts_S4096x14x14x1_S4096x14x14

def val_main_v92 (x1 : (⟨S4096x14x14x4, .f32⟩ : BufTy).Contents (Elt F)) : (⟨S4096x14x14, .f32⟩ : BufTy).Contents (Elt F) :=
  subf (val_main_v89 (F := F) x1) (val_main_v91 (F := F) x1)

theorem val_main_v92_apply (x1 : (⟨S4096x14x14x4, .f32⟩ : BufTy).Contents (Elt F)) (i : S4096x14x14.Idx) :
    val_main_v92 (F := F) x1 i = FloatOps.subf (val_main_v89 (F := F) x1 i) (val_main_v91 (F := F) x1 i) := rfl

def val_main_v93 (x1 : (⟨S4096x14x14x4, .f32⟩ : BufTy).Contents (Elt F)) : (⟨S4096x14x14, .f32⟩ : BufTy).Contents (Elt F) :=
  mulf (val_main_v87 (F := F) x1) (val_main_v92 (F := F) x1)

theorem val_main_v93_apply (x1 : (⟨S4096x14x14x4, .f32⟩ : BufTy).Contents (Elt F)) (i : S4096x14x14.Idx) :
    val_main_v93 (F := F) x1 i = FloatOps.mulf (val_main_v87 (F := F) x1 i) (val_main_v92 (F := F) x1 i) := rfl

def val_main_v94 (x0 : (⟨S4096x14x14x30, .f32⟩ : BufTy).Contents (Elt F)) (x1 : (⟨S4096x14x14x4, .f32⟩ : BufTy).Contents (Elt F)) : (⟨S4096x14x14, .f32⟩ : BufTy).Contents (Elt F) :=
  addf (val_main_v82 (F := F) x0) (val_main_v93 (F := F) x1)

theorem val_main_v94_apply (x0 : (⟨S4096x14x14x30, .f32⟩ : BufTy).Contents (Elt F)) (x1 : (⟨S4096x14x14x4, .f32⟩ : BufTy).Contents (Elt F)) (i : S4096x14x14.Idx) :
    val_main_v94 (F := F) x0 x1 i = FloatOps.addf (val_main_v82 (F := F) x0 i) (val_main_v93 (F := F) x1 i) := rfl

def val_main_v95 (x0 : (⟨S4096x14x14x30, .f32⟩ : BufTy).Contents (Elt F)) (x1 : (⟨S4096x14x14x4, .f32⟩ : BufTy).Contents (Elt F)) : (⟨S4096x14x14, .f32⟩ : BufTy).Contents (Elt F) :=
  subf (val_main_v94 (F := F) x0 x1) (val_main_v71 (F := F) x0 x1)

theorem val_main_v95_apply (x0 : (⟨S4096x14x14x30, .f32⟩ : BufTy).Contents (Elt F)) (x1 : (⟨S4096x14x14x4, .f32⟩ : BufTy).Contents (Elt F)) (i : S4096x14x14.Idx) :
    val_main_v95 (F := F) x0 x1 i = FloatOps.subf (val_main_v94 (F := F) x0 x1 i) (val_main_v71 (F := F) x0 x1 i) := rfl

def val_main_v96 (x0 : (⟨S4096x14x14x30, .f32⟩ : BufTy).Contents (Elt F)) (x1 : (⟨S4096x14x14x4, .f32⟩ : BufTy).Contents (Elt F)) : (⟨S4096x14x14, .f32⟩ : BufTy).Contents (Elt F) :=
  Host.divf (val_main_v71 (F := F) x0 x1) (val_main_v95 (F := F) x0 x1)

theorem val_main_v96_apply (x0 : (⟨S4096x14x14x30, .f32⟩ : BufTy).Contents (Elt F)) (x1 : (⟨S4096x14x14x4, .f32⟩ : BufTy).Contents (Elt F)) (i : S4096x14x14.Idx) :
    val_main_v96 (F := F) x0 x1 i = FloatOps.hostDivf (val_main_v71 (F := F) x0 x1 i) (val_main_v95 (F := F) x0 x1 i) := rfl

def val_main_v97 (x0 : (⟨S4096x14x14x30, .f32⟩ : BufTy).Contents (Elt F)) : (⟨S4096x14x14x2, .f32⟩ : BufTy).Contents (Elt F) :=
  extractStridedSlice S4096x14x14x2 ![0, 0, 0, 0] (val_main_v47 (F := F) x0) slices_S4096x14x14x4_S4096x14x14x2_0_0_0_0

def val_main_v98 (x1 : (⟨S4096x14x14x4, .f32⟩ : BufTy).Contents (Elt F)) : (⟨S4096x14x14x2, .f32⟩ : BufTy).Contents (Elt F) :=
  extractStridedSlice S4096x14x14x2 ![0, 0, 0, 0] (val_main_v58 (F := F) x1) slices_S4096x14x14x4_S4096x14x14x2_0_0_0_0

def val_main_v99 (x0 : (⟨S4096x14x14x30, .f32⟩ : BufTy).Contents (Elt F)) (x1 : (⟨S4096x14x14x4, .f32⟩ : BufTy).Contents (Elt F)) : (⟨S4096x14x14x2, .f32⟩ : BufTy).Contents (Elt F) :=
  maximumf (val_main_v97 (F := F) x0) (val_main_v98 (F := F) x1)

theorem val_main_v99_apply (x0 : (⟨S4096x14x14x30, .f32⟩ : BufTy).Contents (Elt F)) (x1 : (⟨S4096x14x14x4, .f32⟩ : BufTy).Contents (Elt F)) (i : S4096x14x14x2.Idx) :
    val_main_v99 (F := F) x0 x1 i = FloatOps.maximumf (val_main_v97 (F := F) x0 i) (val_main_v98 (F := F) x1 i) := rfl

def val_main_v100 (x0 : (⟨S4096x14x14x30, .f32⟩ : BufTy).Contents (Elt F)) : (⟨S4096x14x14x2, .f32⟩ : BufTy).Contents (Elt F) :=
  extractStridedSlice S4096x14x14x2 ![0, 0, 0, 2] (val_main_v47 (F := F) x0) slices_S4096x14x14x4_S4096x14x14x2_0_0_0_2

def val_main_v101 (x1 : (⟨S4096x14x14x4, .f32⟩ : BufTy).Contents (Elt F)) : (⟨S4096x14x14x2, .f32⟩ : BufTy).Contents (Elt F) :=
  extractStridedSlice S4096x14x14x2 ![0, 0, 0, 2] (val_main_v58 (F := F) x1) slices_S4096x14x14x4_S4096x14x14x2_0_0_0_2

def val_main_v102 (x0 : (⟨S4096x14x14x30, .f32⟩ : BufTy).Contents (Elt F)) (x1 : (⟨S4096x14x14x4, .f32⟩ : BufTy).Contents (Elt F)) : (⟨S4096x14x14x2, .f32⟩ : BufTy).Contents (Elt F) :=
  minimumf (val_main_v100 (F := F) x0) (val_main_v101 (F := F) x1)

theorem val_main_v102_apply (x0 : (⟨S4096x14x14x30, .f32⟩ : BufTy).Contents (Elt F)) (x1 : (⟨S4096x14x14x4, .f32⟩ : BufTy).Contents (Elt F)) (i : S4096x14x14x2.Idx) :
    val_main_v102 (F := F) x0 x1 i = FloatOps.minimumf (val_main_v100 (F := F) x0 i) (val_main_v101 (F := F) x1 i) := rfl

def val_main_v103 (x0 : (⟨S4096x14x14x30, .f32⟩ : BufTy).Contents (Elt F)) (x1 : (⟨S4096x14x14x4, .f32⟩ : BufTy).Contents (Elt F)) : (⟨S4096x14x14x2, .f32⟩ : BufTy).Contents (Elt F) :=
  subf (val_main_v102 (F := F) x0 x1) (val_main_v99 (F := F) x0 x1)

theorem val_main_v103_apply (x0 : (⟨S4096x14x14x30, .f32⟩ : BufTy).Contents (Elt F)) (x1 : (⟨S4096x14x14x4, .f32⟩ : BufTy).Contents (Elt F)) (i : S4096x14x14x2.Idx) :
    val_main_v103 (F := F) x0 x1 i = FloatOps.subf (val_main_v102 (F := F) x0 x1 i) (val_main_v99 (F := F) x0 x1 i) := rfl

def val_main_cst_15 : (⟨S_, .f32⟩ : BufTy).Contents (Elt F) :=
  constant S_ .f32 0x00000000#32

theorem val_main_cst_15_apply (i : S_.Idx) :
    val_main_cst_15 (F := F) i = FloatOps.ofBits .f32 0x00000000#32 := rfl

def val_main_call1_v0 : (⟨S_, .f32⟩ : BufTy).Contents (Elt F) :=
  id (val_main_cst_15 (F := F))

theorem val_main_call1_v0_apply (i : S_.Idx) :
    val_main_call1_v0 (F := F) i = (val_main_cst_15 (F := F) i) := rfl

def val_main_call1_v1 : (⟨S4096x14x14x2, .f32⟩ : BufTy).Contents (Elt F) :=
  broadcastInDim S4096x14x14x2 ![] bcast_S_S4096x14x14x2 (val_main_call1_v0 (F := F))

abbrev idx_main_call1_v1 (i : S4096x14x14x2.Idx) : S_.Idx := fun a => a.elim0

theorem val_main_call1_v1_apply (i : S4096x14x14x2.Idx) :
    val_main_call1_v1 (F := F) i = val_main_call1_v0 (F := F) (idx_main_call1_v1 i) := by
  unfold val_main_call1_v1
  generalize val_main_call1_v0 (F := F) = y
  exact broadcastInDim_apply _ bcast_S_S4096x14x14x2 y i (idx_main_call1_v1 i) (fun a => a.elim0)

def val_main_v104 (x0 : (⟨S4096x14x14x30, .f32⟩ : BufTy).Contents (Elt F)) (x1 : (⟨S4096x14x14x4, .f32⟩ : BufTy).Contents (Elt F)) : (⟨S4096x14x14x2, .f32⟩ : BufTy).Contents (Elt F) :=
  maximumf (val_main_call1_v1 (F := F)) (val_main_v103 (F := F) x0 x1)

theorem val_main_v104_apply (x0 : (⟨S4096x14x14x30, .f32⟩ : BufTy).Contents (Elt F)) (x1 : (⟨S4096x14x14x4, .f32⟩ : BufTy).Contents (Elt F)) (i : S4096x14x14x2.Idx) :
    val_main_v104 (F := F) x0 x1 i = FloatOps.maximumf (val_main_call1_v1 (F := F) i) (val_main_v103 (F := F) x0 x1 i) := rfl

def val_main_v105 (x0 : (⟨S4096x14x14x30, .f32⟩ : BufTy).Contents (Elt F)) (x1 : (⟨S4096x14x14x4, .f32⟩ : BufTy).Contents (Elt F)) : (⟨S4096x14x14x1, .f32⟩ : BufTy).Contents (Elt F) :=
  extractStridedSlice S4096x14x14x1 ![0, 0, 0, 0] (val_main_v104 (F := F) x0 x1) slices_S4096x14x14x2_S4096x14x14x1_0_0_0_0

def val_main_v106 (x0 : (⟨S4096x14x14x30, .f32⟩ : BufTy).Contents (Elt F)) (x1 : (⟨S4096x14x14x4, .f32⟩ : BufTy).Contents (Elt F)) : (⟨S4096x14x14, .f32⟩ : BufTy).Contents (Elt F) :=
  shapeCast _ (val_main_v105 (F := F) x0 x1) shapeCasts_S4096x14x14x1_S4096x14x14

def val_main_v107 (x0 : (⟨S4096x14x14x30, .f32⟩ : BufTy).Contents (Elt F)) (x1 : (⟨S4096x14x14x4, .f32⟩ : BufTy).Contents (Elt F)) : (⟨S4096x14x14x1, .f32⟩ : BufTy).Contents (Elt F) :=
  extractStridedSlice S4096x14x14x1 ![0, 0, 0, 1] (val_main_v104 (F := F) x0 x1) slices_S4096x14x14x2_S4096x14x14x1_0_0_0_1

def val_main_v108 (x0 : (⟨S4096x14x14x30, .f32⟩ : BufTy).Contents (Elt F)) (x1 : (⟨S4096x14x14x4, .f32⟩ : BufTy).Contents (Elt F)) : (⟨S4096x14x14, .f32⟩ : BufTy).Contents (Elt F) :=
  shapeCast _ (val_main_v107 (F := F) x0 x1) shapeCasts_S4096x14x14x1_S4096x14x14

def val_main_v109 (x0 : (⟨S4096x14x14x30, .f32⟩ : BufTy).Contents (Elt F)) (x1 : (⟨S4096x14x14x4, .f32⟩ : BufTy).Contents (Elt F)) : (⟨S4096x14x14, .f32⟩ : BufTy).Contents (Elt F) :=
  mulf (val_main_v106 (F := F) x0 x1) (val_main_v108 (F := F) x0 x1)

theorem val_main_v109_apply (x0 : (⟨S4096x14x14x30, .f32⟩ : BufTy).Contents (Elt F)) (x1 : (⟨S4096x14x14x4, .f32⟩ : BufTy).Contents (Elt F)) (i : S4096x14x14.Idx) :
    val_main_v109 (F := F) x0 x1 i = FloatOps.mulf (val_main_v106 (F := F) x0 x1 i) (val_main_v108 (F := F) x0 x1 i) := rfl

def val_main_v110 (x0 : (⟨S4096x14x14x30, .f32⟩ : BufTy).Contents (Elt F)) : (⟨S4096x14x14x1, .f32⟩ : BufTy).Contents (Elt F) :=
  extractStridedSlice S4096x14x14x1 ![0, 0, 0, 2] (val_main_v47 (F := F) x0) slices_S4096x14x14x4_S4096x14x14x1_0_0_0_2

def val_main_v111 (x0 : (⟨S4096x14x14x30, .f32⟩ : BufTy).Contents (Elt F)) : (⟨S4096x14x14, .f32⟩ : BufTy).Contents (Elt F) :=
  shapeCast _ (val_main_v110 (F := F) x0) shapeCasts_S4096x14x14x1_S4096x14x14

def val_main_v112 (x0 : (⟨S4096x14x14x30, .f32⟩ : BufTy).Contents (Elt F)) : (⟨S4096x14x14x1, .f32⟩ : BufTy).Contents (Elt F) :=
  extractStridedSlice S4096x14x14x1 ![0, 0, 0, 0] (val_main_v47 (F := F) x0) slices_S4096x14x14x4_S4096x14x14x1_0_0_0_0

def val_main_v113 (x0 : (⟨S4096x14x14x30, .f32⟩ : BufTy).Contents (Elt F)) : (⟨S4096x14x14, .f32⟩ : BufTy).Contents (Elt F) :=
  shapeCast _ (val_main_v112 (F := F) x0) shapeCasts_S4096x14x14x1_S4096x14x14

def val_main_v114 (x0 : (⟨S4096x14x14x30, .f32⟩ : BufTy).Contents (Elt F)) : (⟨S4096x14x14, .f32⟩ : BufTy).Contents (Elt F) :=
  subf (val_main_v111 (F := F) x0) (val_main_v113 (F := F) x0)

theorem val_main_v114_apply (x0 : (⟨S4096x14x14x30, .f32⟩ : BufTy).Contents (Elt F)) (i : S4096x14x14.Idx) :
    val_main_v114 (F := F) x0 i = FloatOps.subf (val_main_v111 (F := F) x0 i) (val_main_v113 (F := F) x0 i) := rfl

def val_main_v115 (x0 : (⟨S4096x14x14x30, .f32⟩ : BufTy).Contents (Elt F)) : (⟨S4096x14x14x1, .f32⟩ : BufTy).Contents (Elt F) :=
  extractStridedSlice S4096x14x14x1 ![0, 0, 0, 3] (val_main_v47 (F := F) x0) slices_S4096x14x14x4_S4096x14x14x1_0_0_0_3

def val_main_v116 (x0 : (⟨S4096x14x14x30, .f32⟩ : BufTy).Contents (Elt F)) : (⟨S4096x14x14, .f32⟩ : BufTy).Contents (Elt F) :=
  shapeCast _ (val_main_v115 (F := F) x0) shapeCasts_S4096x14x14x1_S4096x14x14

def val_main_v117 (x0 : (⟨S4096x14x14x30, .f32⟩ : BufTy).Contents (Elt F)) : (⟨S4096x14x14x1, .f32⟩ : BufTy).Contents (Elt F) :=
  extractStridedSlice S4096x14x14x1 ![0, 0, 0, 1] (val_main_v47 (F := F) x0) slices_S4096x14x14x4_S4096x14x14x1_0_0_0_1

def val_main_v118 (x0 : (⟨S4096x14x14x30, .f32⟩ : BufTy).Contents (Elt F)) : (⟨S4096x14x14, .f32⟩ : BufTy).Contents (Elt F) :=
  shapeCast _ (val_main_v117 (F := F) x0) shapeCasts_S4096x14x14x1_S4096x14x14

def val_main_v119 (x0 : (⟨S4096x14x14x30, .f32⟩ : BufTy).Contents (Elt F)) : (⟨S4096x14x14, .f32⟩ : BufTy).Contents (Elt F) :=
  subf (val_main_v116 (F := F) x0) (val_main_v118 (F := F) x0)

theorem val_main_v119_apply (x0 : (⟨S4096x14x14x30, .f32⟩ : BufTy).Contents (Elt F)) (i : S4096x14x14.Idx) :
    val_main_v119 (F := F) x0 i = FloatOps.subf (val_main_v116 (F := F) x0 i) (val_main_v118 (F := F) x0 i) := rfl

def val_main_v120 (x0 : (⟨S4096x14x14x30, .f32⟩ : BufTy).Contents (Elt F)) : (⟨S4096x14x14, .f32⟩ : BufTy).Contents (Elt F) :=
  mulf (val_main_v114 (F := F) x0) (val_main_v119 (F := F) x0)

theorem val_main_v120_apply (x0 : (⟨S4096x14x14x30, .f32⟩ : BufTy).Contents (Elt F)) (i : S4096x14x14.Idx) :
    val_main_v120 (F := F) x0 i = FloatOps.mulf (val_main_v114 (F := F) x0 i) (val_main_v119 (F := F) x0 i) := rfl

def val_main_v121 (x1 : (⟨S4096x14x14x4, .f32⟩ : BufTy).Contents (Elt F)) : (⟨S4096x14x14x1, .f32⟩ : BufTy).Contents (Elt F) :=
  extractStridedSlice S4096x14x14x1 ![0, 0, 0, 2] (val_main_v58 (F := F) x1) slices_S4096x14x14x4_S4096x14x14x1_0_0_0_2

def val_main_v122 (x1 : (⟨S4096x14x14x4, .f32⟩ : BufTy).Contents (Elt F)) : (⟨S4096x14x14, .f32⟩ : BufTy).Contents (Elt F) :=
  shapeCast _ (val_main_v121 (F := F) x1) shapeCasts_S4096x14x14x1_S4096x14x14

def val_main_v123 (x1 : (⟨S4096x14x14x4, .f32⟩ : BufTy).Contents (Elt F)) : (⟨S4096x14x14x1, .f32⟩ : BufTy).Contents (Elt F) :=
  extractStridedSlice S4096x14x14x1 ![0, 0, 0, 0] (val_main_v58 (F := F) x1) slices_S4096x14x14x4_S4096x14x14x1_0_0_0_0

def val_main_v124 (x1 : (⟨S4096x14x14x4, .f32⟩ : BufTy).Contents (Elt F)) : (⟨S4096x14x14, .f32⟩ : BufTy).Contents (Elt F) :=
  shapeCast _ (val_main_v123 (F := F) x1) shapeCasts_S4096x14x14x1_S4096x14x14

def val_main_v125 (x1 : (⟨S4096x14x14x4, .f32⟩ : BufTy).Contents (Elt F)) : (⟨S4096x14x14, .f32⟩ : BufTy).Contents (Elt F) :=
  subf (val_main_v122 (F := F) x1) (val_main_v124 (F := F) x1)

theorem val_main_v125_apply (x1 : (⟨S4096x14x14x4, .f32⟩ : BufTy).Contents (Elt F)) (i : S4096x14x14.Idx) :
    val_main_v125 (F := F) x1 i = FloatOps.subf (val_main_v122 (F := F) x1 i) (val_main_v124 (F := F) x1 i) := rfl

def val_main_v126 (x1 : (⟨S4096x14x14x4, .f32⟩ : BufTy).Contents (Elt F)) : (⟨S4096x14x14x1, .f32⟩ : BufTy).Contents (Elt F) :=
  extractStridedSlice S4096x14x14x1 ![0, 0, 0, 3] (val_main_v58 (F := F) x1) slices_S4096x14x14x4_S4096x14x14x1_0_0_0_3

def val_main_v127 (x1 : (⟨S4096x14x14x4, .f32⟩ : BufTy).Contents (Elt F)) : (⟨S4096x14x14, .f32⟩ : BufTy).Contents (Elt F) :=
  shapeCast _ (val_main_v126 (F := F) x1) shapeCasts_S4096x14x14x1_S4096x14x14

def val_main_v128 (x1 : (⟨S4096x14x14x4, .f32⟩ : BufTy).Contents (Elt F)) : (⟨S4096x14x14x1, .f32⟩ : BufTy).Contents (Elt F) :=
  extractStridedSlice S4096x14x14x1 ![0, 0, 0, 1] (val_main_v58 (F := F) x1) slices_S4096x14x14x4_S4096x14x14x1_0_0_0_1

def val_main_v129 (x1 : (⟨S4096x14x14x4, .f32⟩ : BufTy).Contents (Elt F)) : (⟨S4096x14x14, .f32⟩ : BufTy).Contents (Elt F) :=
  shapeCast _ (val_main_v128 (F := F) x1) shapeCasts_S4096x14x14x1_S4096x14x14

def val_main_v130 (x1 : (⟨S4096x14x14x4, .f32⟩ : BufTy).Contents (Elt F)) : (⟨S4096x14x14, .f32⟩ : BufTy).Contents (Elt F) :=
  subf (val_main_v127 (F := F) x1) (val_main_v129 (F := F) x1)

theorem val_main_v130_apply (x1 : (⟨S4096x14x14x4, .f32⟩ : BufTy).Contents (Elt F)) (i : S4096x14x14.Idx) :
    val_main_v130 (F := F) x1 i = FloatOps.subf (val_main_v127 (F := F) x1 i) (val_main_v129 (F := F) x1 i) := rfl

def val_main_v131 (x1 : (⟨S4096x14x14x4, .f32⟩ : BufTy).Contents (Elt F)) : (⟨S4096x14x14, .f32⟩ : BufTy).Contents (Elt F) :=
  mulf (val_main_v125 (F := F) x1) (val_main_v130 (F := F) x1)

theorem val_main_v131_apply (x1 : (⟨S4096x14x14x4, .f32⟩ : BufTy).Contents (Elt F)) (i : S4096x14x14.Idx) :
    val_main_v131 (F := F) x1 i = FloatOps.mulf (val_main_v125 (F := F) x1 i) (val_main_v130 (F := F) x1 i) := rfl

def val_main_v132 (x0 : (⟨S4096x14x14x30, .f32⟩ : BufTy).Contents (Elt F)) (x1 : (⟨S4096x14x14x4, .f32⟩ : BufTy).Contents (Elt F)) : (⟨S4096x14x14, .f32⟩ : BufTy).Contents (Elt F) :=
  addf (val_main_v120 (F := F) x0) (val_main_v131 (F := F) x1)

theorem val_main_v132_apply (x0 : (⟨S4096x14x14x30, .f32⟩ : BufTy).Contents (Elt F)) (x1 : (⟨S4096x14x14x4, .f32⟩ : BufTy).Contents (Elt F)) (i : S4096x14x14.Idx) :
    val_main_v132 (F := F) x0 x1 i = FloatOps.addf (val_main_v120 (F := F) x0 i) (val_main_v131 (F := F) x1 i) := rfl

def val_main_v133 (x0 : (⟨S4096x14x14x30, .f32⟩ : BufTy).Contents (Elt F)) (x1 : (⟨S4096x14x14x4, .f32⟩ : BufTy).Contents (Elt F)) : (⟨S4096x14x14, .f32⟩ : BufTy).Contents (Elt F) :=
  subf (val_main_v132 (F := F) x0 x1) (val_main_v109 (F := F) x0 x1)

theorem val_main_v133_apply (x0 : (⟨S4096x14x14x30, .f32⟩ : BufTy).Contents (Elt F)) (x1 : (⟨S4096x14x14x4, .f32⟩ : BufTy).Contents (Elt F)) (i : S4096x14x14.Idx) :
    val_main_v133 (F := F) x0 x1 i = FloatOps.subf (val_main_v132 (F := F) x0 x1 i) (val_main_v109 (F := F) x0 x1 i) := rfl

def val_main_v134 (x0 : (⟨S4096x14x14x30, .f32⟩ : BufTy).Contents (Elt F)) (x1 : (⟨S4096x14x14x4, .f32⟩ : BufTy).Contents (Elt F)) : (⟨S4096x14x14, .f32⟩ : BufTy).Contents (Elt F) :=
  Host.divf (val_main_v109 (F := F) x0 x1) (val_main_v133 (F := F) x0 x1)

theorem val_main_v134_apply (x0 : (⟨S4096x14x14x30, .f32⟩ : BufTy).Contents (Elt F)) (x1 : (⟨S4096x14x14x4, .f32⟩ : BufTy).Contents (Elt F)) (i : S4096x14x14.Idx) :
    val_main_v134 (F := F) x0 x1 i = FloatOps.hostDivf (val_main_v109 (F := F) x0 x1 i) (val_main_v133 (F := F) x0 x1 i) := rfl

def val_main_v135 (x0 : (⟨S4096x14x14x30, .f32⟩ : BufTy).Contents (Elt F)) (x1 : (⟨S4096x14x14x4, .f32⟩ : BufTy).Contents (Elt F)) : (⟨S4096x14x14, .i1⟩ : BufTy).Contents (Elt F) :=
  cmpf .oge (val_main_v96 (F := F) x0 x1) (val_main_v134 (F := F) x0 x1)

theorem val_main_v135_apply (x0 : (⟨S4096x14x14x30, .f32⟩ : BufTy).Contents (Elt F)) (x1 : (⟨S4096x14x14x4, .f32⟩ : BufTy).Contents (Elt F)) (i : S4096x14x14.Idx) :
    val_main_v135 (F := F) x0 x1 i = FloatOps.cmpf .oge (val_main_v96 (F := F) x0 x1 i) (val_main_v134 (F := F) x0 x1 i) := rfl

def val_main_v136 (x0 : (⟨S4096x14x14x30, .f32⟩ : BufTy).Contents (Elt F)) (x1 : (⟨S4096x14x14x4, .f32⟩ : BufTy).Contents (Elt F)) : (⟨S4096x14x14x1, .i1⟩ : BufTy).Contents (Elt F) :=
  broadcastInDim S4096x14x14x1 ![0, 1, 2] bcast_S4096x14x14_S4096x14x14x1_0_1_2 (val_main_v135 (F := F) x0 x1)

def val_main_call2_v0 (x0 : (⟨S4096x14x14x30, .f32⟩ : BufTy).Contents (Elt F)) (x1 : (⟨S4096x14x14x4, .f32⟩ : BufTy).Contents (Elt F)) : (⟨S4096x14x14x5, .i1⟩ : BufTy).Contents (Elt F) :=
  broadcastInDim S4096x14x14x5 ![0, 1, 2, 3] bcast_S4096x14x14x1_S4096x14x14x5_0_1_2_3 (val_main_v136 (F := F) x0 x1)

def val_main_v137 (x0 : (⟨S4096x14x14x30, .f32⟩ : BufTy).Contents (Elt F)) (x1 : (⟨S4096x14x14x4, .f32⟩ : BufTy).Contents (Elt F)) : (⟨S4096x14x14x5, .f32⟩ : BufTy).Contents (Elt F) :=
  select (val_main_call2_v0 (F := F) x0 x1) (val_main_v0 (F := F) x0) (val_main_v1 (F := F) x0)

theorem val_main_v137_apply (x0 : (⟨S4096x14x14x30, .f32⟩ : BufTy).Contents (Elt F)) (x1 : (⟨S4096x14x14x4, .f32⟩ : BufTy).Contents (Elt F)) (i : S4096x14x14x5.Idx) :
    val_main_v137 (F := F) x0 x1 i = Scalar.select (val_main_call2_v0 (F := F) x0 x1 i) (val_main_v0 (F := F) x0 i) (val_main_v1 (F := F) x0 i) := rfl

def val_main_v138 (x0 : (⟨S4096x14x14x30, .f32⟩ : BufTy).Contents (Elt F)) (x1 : (⟨S4096x14x14x4, .f32⟩ : BufTy).Contents (Elt F)) : (⟨S4096x14x14, .f32⟩ : BufTy).Contents (Elt F) :=
  select (val_main_v135 (F := F) x0 x1) (val_main_v96 (F := F) x0 x1) (val_main_v134 (F := F) x0 x1)

theorem val_main_v138_apply (x0 : (⟨S4096x14x14x30, .f32⟩ : BufTy).Contents (Elt F)) (x1 : (⟨S4096x14x14x4, .f32⟩ : BufTy).Contents (Elt F)) (i : S4096x14x14.Idx) :
    val_main_v138 (F := F) x0 x1 i = Scalar.select (val_main_v135 (F := F) x0 x1 i) (val_main_v96 (F := F) x0 x1 i) (val_main_v134 (F := F) x0 x1 i) := rfl

def val_main_v139 (x0 : (⟨S4096x14x14x30, .f32⟩ : BufTy).Contents (Elt F)) (x1 : (⟨S4096x14x14x4, .f32⟩ : BufTy).Contents (Elt F)) : (⟨S4096x14x14x1, .f32⟩ : BufTy).Contents (Elt F) :=
  extractStridedSlice S4096x14x14x1 ![0, 0, 0, 0] (val_main_v137 (F := F) x0 x1) slices_S4096x14x14x5_S4096x14x14x1_0_0_0_0

def val_main_v140 (x0 : (⟨S4096x14x14x30, .f32⟩ : BufTy).Contents (Elt F)) (x1 : (⟨S4096x14x14x4, .f32⟩ : BufTy).Contents (Elt F)) : (⟨S4096x14x14, .f32⟩ : BufTy).Contents (Elt F) :=
  shapeCast _ (val_main_v139 (F := F) x0 x1) shapeCasts_S4096x14x14x1_S4096x14x14

def val_main_v141 (x0 : (⟨S4096x14x14x30, .f32⟩ : BufTy).Contents (Elt F)) (x1 : (⟨S4096x14x14x4, .f32⟩ : BufTy).Contents (Elt F)) : (⟨S4096x14x14x1, .f32⟩ : BufTy).Contents (Elt F) :=
  extractStridedSlice S4096x14x14x1 ![0, 0, 0, 1] (val_main_v137 (F := F) x0 x1) slices_S4096x14x14x5_S4096x14x14x1_0_0_0_1

def val_main_v142 (x0 : (⟨S4096x14x14x30, .f32⟩ : BufTy).Contents (Elt F)) (x1 : (⟨S4096x14x14x4, .f32⟩ : BufTy).Contents (Elt F)) : (⟨S4096x14x14, .f32⟩ : BufTy).Contents (Elt F) :=
  shapeCast _ (val_main_v141 (F := F) x0 x1) shapeCasts_S4096x14x14x1_S4096x14x14

def val_main_v143 (x0 : (⟨S4096x14x14x30, .f32⟩ : BufTy).Contents (Elt F)) (x1 : (⟨S4096x14x14x4, .f32⟩ : BufTy).Contents (Elt F)) : (⟨S4096x14x14x1, .f32⟩ : BufTy).Contents (Elt F) :=
  extractStridedSlice S4096x14x14x1 ![0, 0, 0, 2] (val_main_v137 (F := F) x0 x1) slices_S4096x14x14x5_S4096x14x14x1_0_0_0_2

def val_main_v144 (x0 : (⟨S4096x14x14x30, .f32⟩ : BufTy).Contents (Elt F)) (x1 : (⟨S4096x14x14x4, .f32⟩ : BufTy).Contents (Elt F)) : (⟨S4096x14x14, .f32⟩ : BufTy).Contents (Elt F) :=
  shapeCast _ (val_main_v143 (F := F) x0 x1) shapeCasts_S4096x14x14x1_S4096x14x14

def val_main_v145 (x0 : (⟨S4096x14x14x30, .f32⟩ : BufTy).Contents (Elt F)) (x1 : (⟨S4096x14x14x4, .f32⟩ : BufTy).Contents (Elt F)) : (⟨S4096x14x14x1, .f32⟩ : BufTy).Contents (Elt F) :=
  extractStridedSlice S4096x14x14x1 ![0, 0, 0, 3] (val_main_v137 (F := F) x0 x1) slices_S4096x14x14x5_S4096x14x14x1_0_0_0_3

def val_main_v146 (x0 : (⟨S4096x14x14x30, .f32⟩ : BufTy).Contents (Elt F)) (x1 : (⟨S4096x14x14x4, .f32⟩ : BufTy).Contents (Elt F)) : (⟨S4096x14x14, .f32⟩ : BufTy).Contents (Elt F) :=
  shapeCast _ (val_main_v145 (F := F) x0 x1) shapeCasts_S4096x14x14x1_S4096x14x14

def val_main_v147 (x1 : (⟨S4096x14x14x4, .f32⟩ : BufTy).Contents (Elt F)) : (⟨S4096x14x14x1, .f32⟩ : BufTy).Contents (Elt F) :=
  extractStridedSlice S4096x14x14x1 ![0, 0, 0, 0] (x1) slices_S4096x14x14x4_S4096x14x14x1_0_0_0_0

def val_main_v148 (x1 : (⟨S4096x14x14x4, .f32⟩ : BufTy).Contents (Elt F)) : (⟨S4096x14x14, .f32⟩ : BufTy).Contents (Elt F) :=
  shapeCast _ (val_main_v147 (F := F) x1) shapeCasts_S4096x14x14x1_S4096x14x14

def val_main_v149 (x1 : (⟨S4096x14x14x4, .f32⟩ : BufTy).Contents (Elt F)) : (⟨S4096x14x14x1, .f32⟩ : BufTy).Contents (Elt F) :=
  extractStridedSlice S4096x14x14x1 ![0, 0, 0, 1] (x1) slices_S4096x14x14x4_S4096x14x14x1_0_0_0_1

def val_main_v150 (x1 : (⟨S4096x14x14x4, .f32⟩ : BufTy).Contents (Elt F)) : (⟨S4096x14x14, .f32⟩ : BufTy).Contents (Elt F) :=
  shapeCast _ (val_main_v149 (F := F) x1) shapeCasts_S4096x14x14x1_S4096x14x14

def val_main_v151 (x1 : (⟨S4096x14x14x4, .f32⟩ : BufTy).Contents (Elt F)) : (⟨S4096x14x14x1, .f32⟩ : BufTy).Contents (Elt F) :=
  extractStridedSlice S4096x14x14x1 ![0, 0, 0, 2] (x1) slices_S4096x14x14x4_S4096x14x14x1_0_0_0_2

def val_main_v152 (x1 : (⟨S4096x14x14x4, .f32⟩ : BufTy).Contents (Elt F)) : (⟨S4096x14x14, .f32⟩ : BufTy).Contents (Elt F) :=
  shapeCast _ (val_main_v151 (F := F) x1) shapeCasts_S4096x14x14x1_S4096x14x14

def val_main_v153 (x1 : (⟨S4096x14x14x4, .f32⟩ : BufTy).Contents (Elt F)) : (⟨S4096x14x14x1, .f32⟩ : BufTy).Contents (Elt F) :=
  extractStridedSlice S4096x14x14x1 ![0, 0, 0, 3] (x1) slices_S4096x14x14x4_S4096x14x14x1_0_0_0_3

def val_main_v154 (x1 : (⟨S4096x14x14x4, .f32⟩ : BufTy).Contents (Elt F)) : (⟨S4096x14x14, .f32⟩ : BufTy).Contents (Elt F) :=
  shapeCast _ (val_main_v153 (F := F) x1) shapeCasts_S4096x14x14x1_S4096x14x14

def val_main_v155 (x0 : (⟨S4096x14x14x30, .f32⟩ : BufTy).Contents (Elt F)) (x1 : (⟨S4096x14x14x4, .f32⟩ : BufTy).Contents (Elt F)) : (⟨S4096x14x14, .f32⟩ : BufTy).Contents (Elt F) :=
  subf (val_main_v140 (F := F) x0 x1) (val_main_v148 (F := F) x1)

theorem val_main_v155_apply (x0 : (⟨S4096x14x14x30, .f32⟩ : BufTy).Contents (Elt F)) (x1 : (⟨S4096x14x14x4, .f32⟩ : BufTy).Contents (Elt F)) (i : S4096x14x14.Idx) :
    val_main_v155 (F := F) x0 x1 i = FloatOps.subf (val_main_v140 (F := F) x0 x1 i) (val_main_v148 (F := F) x1 i) := rfl

def val_main_v156 (x0 : (⟨S4096x14x14x30, .f32⟩ : BufTy).Contents (Elt F)) (x1 : (⟨S4096x14x14x4, .f32⟩ : BufTy).Contents (Elt F)) : (⟨S4096x14x14, .f32⟩ : BufTy).Contents (Elt F) :=
  mulf (val_main_v155 (F := F) x0 x1) (val_main_v155 (F := F) x0 x1)

theorem val_main_v156_apply (x0 : (⟨S4096x14x14x30, .f32⟩ : BufTy).Contents (Elt F)) (x1 : (⟨S4096x14x14x4, .f32⟩ : BufTy).Contents (Elt F)) (i : S4096x14x14.Idx) :
    val_main_v156 (F := F) x0 x1 i = FloatOps.mulf (val_main_v155 (F := F) x0 x1 i) (val_main_v155 (F := F) x0 x1 i) := rfl

def val_main_v157 (x0 : (⟨S4096x14x14x30, .f32⟩ : BufTy).Contents (Elt F)) (x1 : (⟨S4096x14x14x4, .f32⟩ : BufTy).Contents (Elt F)) : (⟨S4096x14x14, .f32⟩ : BufTy).Contents (Elt F) :=
  subf (val_main_v142 (F := F) x0 x1) (val_main_v150 (F := F) x1)

theorem val_main_v157_apply (x0 : (⟨S4096x14x14x30, .f32⟩ : BufTy).Contents (Elt F)) (x1 : (⟨S4096x14x14x4, .f32⟩ : BufTy).Contents (Elt F)) (i : S4096x14x14.Idx) :
    val_main_v157 (F := F) x0 x1 i = FloatOps.subf (val_main_v142 (F := F) x0 x1 i) (val_main_v150 (F := F) x1 i) := rfl

def val_main_v158 (x0 : (⟨S4096x14x14x30, .f32⟩ : BufTy).Contents (Elt F)) (x1 : (⟨S4096x14x14x4, .f32⟩ : BufTy).Contents (Elt F)) : (⟨S4096x14x14, .f32⟩ : BufTy).Contents (Elt F) :=
  mulf (val_main_v157 (F := F) x0 x1) (val_main_v157 (F := F) x0 x1)

theorem val_main_v158_apply (x0 : (⟨S4096x14x14x30, .f32⟩ : BufTy).Contents (Elt F)) (x1 : (⟨S4096x14x14x4, .f32⟩ : BufTy).Contents (Elt F)) (i : S4096x14x14.Idx) :
    val_main_v158 (F := F) x0 x1 i = FloatOps.mulf (val_main_v157 (F := F) x0 x1 i) (val_main_v157 (F := F) x0 x1 i) := rfl

def val_main_v159 (x0 : (⟨S4096x14x14x30, .f32⟩ : BufTy).Contents (Elt F)) (x1 : (⟨S4096x14x14x4, .f32⟩ : BufTy).Contents (Elt F)) : (⟨S4096x14x14, .f32⟩ : BufTy).Contents (Elt F) :=
  addf (val_main_v156 (F := F) x0 x1) (val_main_v158 (F := F) x0 x1)

theorem val_main_v159_apply (x0 : (⟨S4096x14x14x30, .f32⟩ : BufTy).Contents (Elt F)) (x1 : (⟨S4096x14x14x4, .f32⟩ : BufTy).Contents (Elt F)) (i : S4096x14x14.Idx) :
    val_main_v159 (F := F) x0 x1 i = FloatOps.addf (val_main_v156 (F := F) x0 x1 i) (val_main_v158 (F := F) x0 x1 i) := rfl

def val_main_v160 (x0 : (⟨S4096x14x14x30, .f32⟩ : BufTy).Contents (Elt F)) (x1 : (⟨S4096x14x14x4, .f32⟩ : BufTy).Contents (Elt F)) : (⟨S4096x14x14, .f32⟩ : BufTy).Contents (Elt F) :=
  Host.sqrt (val_main_v144 (F := F) x0 x1)

theorem val_main_v160_apply (x0 : (⟨S4096x14x14x30, .f32⟩ : BufTy).Contents (Elt F)) (x1 : (⟨S4096x14x14x4, .f32⟩ : BufTy).Contents (Elt F)) (i : S4096x14x14.Idx) :
    val_main_v160 (F := F) x0 x1 i = FloatOps.hostUnary .sqrt (val_main_v144 (F := F) x0 x1 i) := rfl

def val_main_v161 (x1 : (⟨S4096x14x14x4, .f32⟩ : BufTy).Contents (Elt F)) : (⟨S4096x14x14, .f32⟩ : BufTy).Contents (Elt F) :=
  Host.sqrt (val_main_v152 (F := F) x1)

theorem val_main_v161_apply (x1 : (⟨S4096x14x14x4, .f32⟩ : BufTy).Contents (Elt F)) (i : S4096x14x14.Idx) :
    val_main_v161 (F := F) x1 i = FloatOps.hostUnary .sqrt (val_main_v152 (F := F) x1 i) := rfl

def val_main_v162 (x0 : (⟨S4096x14x14x30, .f32⟩ : BufTy).Contents (Elt F)) (x1 : (⟨S4096x14x14x4, .f32⟩ : BufTy).Contents (Elt F)) : (⟨S4096x14x14, .f32⟩ : BufTy).Contents (Elt F) :=
  subf (val_main_v160 (F := F) x0 x1) (val_main_v161 (F := F) x1)

theorem val_main_v162_apply (x0 : (⟨S4096x14x14x30, .f32⟩ : BufTy).Contents (Elt F)) (x1 : (⟨S4096x14x14x4, .f32⟩ : BufTy).Contents (Elt F)) (i : S4096x14x14.Idx) :
    val_main_v162 (F := F) x0 x1 i = FloatOps.subf (val_main_v160 (F := F) x0 x1 i) (val_main_v161 (F := F) x1 i) := rfl

def val_main_v163 (x0 : (⟨S4096x14x14x30, .f32⟩ : BufTy).Contents (Elt F)) (x1 : (⟨S4096x14x14x4, .f32⟩ : BufTy).Contents (Elt F)) : (⟨S4096x14x14, .f32⟩ : BufTy).Contents (Elt F) :=
  mulf (val_main_v162 (F := F) x0 x1) (val_main_v162 (F := F) x0 x1)

theorem val_main_v163_apply (x0 : (⟨S4096x14x14x30, .f32⟩ : BufTy).Contents (Elt F)) (x1 : (⟨S4096x14x14x4, .f32⟩ : BufTy).Contents (Elt F)) (i : S4096x14x14.Idx) :
    val_main_v163 (F := F) x0 x1 i = FloatOps.mulf (val_main_v162 (F := F) x0 x1 i) (val_main_v162 (F := F) x0 x1 i) := rfl

def val_main_v164 (x0 : (⟨S4096x14x14x30, .f32⟩ : BufTy).Contents (Elt F)) (x1 : (⟨S4096x14x14x4, .f32⟩ : BufTy).Contents (Elt F)) : (⟨S4096x14x14, .f32⟩ : BufTy).Contents (Elt F) :=
  addf (val_main_v159 (F := F) x0 x1) (val_main_v163 (F := F) x0 x1)

theorem val_main_v164_apply (x0 : (⟨S4096x14x14x30, .f32⟩ : BufTy).Contents (Elt F)) (x1 : (⟨S4096x14x14x4, .f32⟩ : BufTy).Contents (Elt F)) (i : S4096x14x14.Idx) :
    val_main_v164 (F := F) x0 x1 i = FloatOps.addf (val_main_v159 (F := F) x0 x1 i) (val_main_v163 (F := F) x0 x1 i) := rfl

def val_main_v165 (x0 : (⟨S4096x14x14x30, .f32⟩ : BufTy).Contents (Elt F)) (x1 : (⟨S4096x14x14x4, .f32⟩ : BufTy).Contents (Elt F)) : (⟨S4096x14x14, .f32⟩ : BufTy).Contents (Elt F) :=
  Host.sqrt (val_main_v146 (F := F) x0 x1)

theorem val_main_v165_apply (x0 : (⟨S4096x14x14x30, .f32⟩ : BufTy).Contents (Elt F)) (x1 : (⟨S4096x14x14x4, .f32⟩ : BufTy).Contents (Elt F)) (i : S4096x14x14.Idx) :
    val_main_v165 (F := F) x0 x1 i = FloatOps.hostUnary .sqrt (val_main_v146 (F := F) x0 x1 i) := rfl

def val_main_v166 (x1 : (⟨S4096x14x14x4, .f32⟩ : BufTy).Contents (Elt F)) : (⟨S4096x14x14, .f32⟩ : BufTy).Contents (Elt F) :=
  Host.sqrt (val_main_v154 (F := F) x1)

theorem val_main_v166_apply (x1 : (⟨S4096x14x14x4, .f32⟩ : BufTy).Contents (Elt F)) (i : S4096x14x14.Idx) :
    val_main_v166 (F := F) x1 i = FloatOps.hostUnary .sqrt (val_main_v154 (F := F) x1 i) := rfl

def val_main_v167 (x0 : (⟨S4096x14x14x30, .f32⟩ : BufTy).Contents (Elt F)) (x1 : (⟨S4096x14x14x4, .f32⟩ : BufTy).Contents (Elt F)) : (⟨S4096x14x14, .f32⟩ : BufTy).Contents (Elt F) :=
  subf (val_main_v165 (F := F) x0 x1) (val_main_v166 (F := F) x1)

theorem val_main_v167_apply (x0 : (⟨S4096x14x14x30, .f32⟩ : BufTy).Contents (Elt F)) (x1 : (⟨S4096x14x14x4, .f32⟩ : BufTy).Contents (Elt F)) (i : S4096x14x14.Idx) :
    val_main_v167 (F := F) x0 x1 i = FloatOps.subf (val_main_v165 (F := F) x0 x1 i) (val_main_v166 (F := F) x1 i) := rfl

def val_main_v168 (x0 : (⟨S4096x14x14x30, .f32⟩ : BufTy).Contents (Elt F)) (x1 : (⟨S4096x14x14x4, .f32⟩ : BufTy).Contents (Elt F)) : (⟨S4096x14x14, .f32⟩ : BufTy).Contents (Elt F) :=
  mulf (val_main_v167 (F := F) x0 x1) (val_main_v167 (F := F) x0 x1)

theorem val_main_v168_apply (x0 : (⟨S4096x14x14x30, .f32⟩ : BufTy).Contents (Elt F)) (x1 : (⟨S4096x14x14x4, .f32⟩ : BufTy).Contents (Elt F)) (i : S4096x14x14.Idx) :
    val_main_v168 (F := F) x0 x1 i = FloatOps.mulf (val_main_v167 (F := F) x0 x1 i) (val_main_v167 (F := F) x0 x1 i) := rfl

def val_main_v169 (x0 : (⟨S4096x14x14x30, .f32⟩ : BufTy).Contents (Elt F)) (x1 : (⟨S4096x14x14x4, .f32⟩ : BufTy).Contents (Elt F)) : (⟨S4096x14x14, .f32⟩ : BufTy).Contents (Elt F) :=
  addf (val_main_v164 (F := F) x0 x1) (val_main_v168 (F := F) x0 x1)

theorem val_main_v169_apply (x0 : (⟨S4096x14x14x30, .f32⟩ : BufTy).Contents (Elt F)) (x1 : (⟨S4096x14x14x4, .f32⟩ : BufTy).Contents (Elt F)) (i : S4096x14x14.Idx) :
    val_main_v169 (F := F) x0 x1 i = FloatOps.addf (val_main_v164 (F := F) x0 x1 i) (val_main_v168 (F := F) x0 x1 i) := rfl

def val_main_v170 (x0 : (⟨S4096x14x14x30, .f32⟩ : BufTy).Contents (Elt F)) (x1 : (⟨S4096x14x14x4, .f32⟩ : BufTy).Contents (Elt F)) (x3 : (⟨S4096x14x14, .i1⟩ : BufTy).Contents (Elt F)) : (⟨S4096x14x14, .f32⟩ : BufTy).Contents (Elt F) :=
  mulf (val_main_v3 (F := F) x3) (val_main_v169 (F := F) x0 x1)

theorem val_main_v170_apply (x0 : (⟨S4096x14x14x30, .f32⟩ : BufTy).Contents (Elt F)) (x1 : (⟨S4096x14x14x4, .f32⟩ : BufTy).Contents (Elt F)) (x3 : (⟨S4096x14x14, .i1⟩ : BufTy).Contents (Elt F)) (i : S4096x14x14.Idx) :
    val_main_v170 (F := F) x0 x1 x3 i = FloatOps.mulf (val_main_v3 (F := F) x3 i) (val_main_v169 (F := F) x0 x1 i) := rfl

def val_main_cst_16 : (⟨S_, .f32⟩ : BufTy).Contents (Elt F) :=
  constant S_ .f32 0x00000000#32

theorem val_main_cst_16_apply (i : S_.Idx) :
    val_main_cst_16 (F := F) i = FloatOps.ofBits .f32 0x00000000#32 := rfl

def val_main_v171 (x0 : (⟨S4096x14x14x30, .f32⟩ : BufTy).Contents (Elt F)) (x1 : (⟨S4096x14x14x4, .f32⟩ : BufTy).Contents (Elt F)) (x3 : (⟨S4096x14x14, .i1⟩ : BufTy).Contents (Elt F)) : (⟨S_, .f32⟩ : BufTy).Contents (Elt F) :=
  Host.reduceAdd (val_main_v170 (F := F) x0 x1 x3) (val_main_cst_16 (F := F)) reducesTo_S4096x14x14_S_d0_1_2 h_S_

theorem val_main_v171_apply (x0 : (⟨S4096x14x14x30, .f32⟩ : BufTy).Contents (Elt Ideal)) (x1 : (⟨S4096x14x14x4, .f32⟩ : BufTy).Contents (Elt Ideal)) (x3 : (⟨S4096x14x14, .i1⟩ : BufTy).Contents (Elt Ideal)) (i : S_.Idx) :
    val_main_v171 (F := Ideal) x0 x1 x3 i = (val_main_cst_16 (F := Ideal)) (Shape.Idx.first h_S_) + ∑ j : S4096x14x14.Idx, (val_main_v170 (F := Ideal) x0 x1 x3) j := by
  unfold val_main_v171
  generalize val_main_v170 (F := Ideal) x0 x1 x3 = y0
  simp only [Host.reduceAdd, Ideal.hostReduceAdd_def]
  exact Ideal.hostReduceAdd_total reducesTo_S4096x14x14_S_d0_1_2 (fun b => b.elim0) y0 _ i

def val_main_v172 (x0 : (⟨S4096x14x14x30, .f32⟩ : BufTy).Contents (Elt F)) (x1 : (⟨S4096x14x14x4, .f32⟩ : BufTy).Contents (Elt F)) : (⟨S4096x14x14x1, .f32⟩ : BufTy).Contents (Elt F) :=
  extractStridedSlice S4096x14x14x1 ![0, 0, 0, 4] (val_main_v137 (F := F) x0 x1) slices_S4096x14x14x5_S4096x14x14x1_0_0_0_4

def val_main_v173 (x0 : (⟨S4096x14x14x30, .f32⟩ : BufTy).Contents (Elt F)) (x1 : (⟨S4096x14x14x4, .f32⟩ : BufTy).Contents (Elt F)) : (⟨S4096x14x14, .f32⟩ : BufTy).Contents (Elt F) :=
  shapeCast _ (val_main_v172 (F := F) x0 x1) shapeCasts_S4096x14x14x1_S4096x14x14

def val_main_v174 (x0 : (⟨S4096x14x14x30, .f32⟩ : BufTy).Contents (Elt F)) (x1 : (⟨S4096x14x14x4, .f32⟩ : BufTy).Contents (Elt F)) : (⟨S4096x14x14, .f32⟩ : BufTy).Contents (Elt F) :=
  subf (val_main_v173 (F := F) x0 x1) (val_main_v138 (F := F) x0 x1)

theorem val_main_v174_apply (x0 : (⟨S4096x14x14x30, .f32⟩ : BufTy).Contents (Elt F)) (x1 : (⟨S4096x14x14x4, .f32⟩ : BufTy).Contents (Elt F)) (i : S4096x14x14.Idx) :
    val_main_v174 (F := F) x0 x1 i = FloatOps.subf (val_main_v173 (F := F) x0 x1 i) (val_main_v138 (F := F) x0 x1 i) := rfl

def val_main_v175 (x0 : (⟨S4096x14x14x30, .f32⟩ : BufTy).Contents (Elt F)) (x1 : (⟨S4096x14x14x4, .f32⟩ : BufTy).Contents (Elt F)) : (⟨S4096x14x14, .f32⟩ : BufTy).Contents (Elt F) :=
  mulf (val_main_v174 (F := F) x0 x1) (val_main_v174 (F := F) x0 x1)

theorem val_main_v175_apply (x0 : (⟨S4096x14x14x30, .f32⟩ : BufTy).Contents (Elt F)) (x1 : (⟨S4096x14x14x4, .f32⟩ : BufTy).Contents (Elt F)) (i : S4096x14x14.Idx) :
    val_main_v175 (F := F) x0 x1 i = FloatOps.mulf (val_main_v174 (F := F) x0 x1 i) (val_main_v174 (F := F) x0 x1 i) := rfl

def val_main_v176 (x0 : (⟨S4096x14x14x30, .f32⟩ : BufTy).Contents (Elt F)) (x1 : (⟨S4096x14x14x4, .f32⟩ : BufTy).Contents (Elt F)) (x3 : (⟨S4096x14x14, .i1⟩ : BufTy).Contents (Elt F)) : (⟨S4096x14x14, .f32⟩ : BufTy).Contents (Elt F) :=
  mulf (val_main_v3 (F := F) x3) (val_main_v175 (F := F) x0 x1)

theorem val_main_v176_apply (x0 : (⟨S4096x14x14x30, .f32⟩ : BufTy).Contents (Elt F)) (x1 : (⟨S4096x14x14x4, .f32⟩ : BufTy).Contents (Elt F)) (x3 : (⟨S4096x14x14, .i1⟩ : BufTy).Contents (Elt F)) (i : S4096x14x14.Idx) :
    val_main_v176 (F := F) x0 x1 x3 i = FloatOps.mulf (val_main_v3 (F := F) x3 i) (val_main_v175 (F := F) x0 x1 i) := rfl

def val_main_cst_17 : (⟨S_, .f32⟩ : BufTy).Contents (Elt F) :=
  constant S_ .f32 0x00000000#32

theorem val_main_cst_17_apply (i : S_.Idx) :
    val_main_cst_17 (F := F) i = FloatOps.ofBits .f32 0x00000000#32 := rfl

def val_main_v177 (x0 : (⟨S4096x14x14x30, .f32⟩ : BufTy).Contents (Elt F)) (x1 : (⟨S4096x14x14x4, .f32⟩ : BufTy).Contents (Elt F)) (x3 : (⟨S4096x14x14, .i1⟩ : BufTy).Contents (Elt F)) : (⟨S_, .f32⟩ : BufTy).Contents (Elt F) :=
  Host.reduceAdd (val_main_v176 (F := F) x0 x1 x3) (val_main_cst_17 (F := F)) reducesTo_S4096x14x14_S_d0_1_2 h_S_

theorem val_main_v177_apply (x0 : (⟨S4096x14x14x30, .f32⟩ : BufTy).Contents (Elt Ideal)) (x1 : (⟨S4096x14x14x4, .f32⟩ : BufTy).Contents (Elt Ideal)) (x3 : (⟨S4096x14x14, .i1⟩ : BufTy).Contents (Elt Ideal)) (i : S_.Idx) :
    val_main_v177 (F := Ideal) x0 x1 x3 i = (val_main_cst_17 (F := Ideal)) (Shape.Idx.first h_S_) + ∑ j : S4096x14x14.Idx, (val_main_v176 (F := Ideal) x0 x1 x3) j := by
  unfold val_main_v177
  generalize val_main_v176 (F := Ideal) x0 x1 x3 = y0
  simp only [Host.reduceAdd, Ideal.hostReduceAdd_def]
  exact Ideal.hostReduceAdd_total reducesTo_S4096x14x14_S_d0_1_2 (fun b => b.elim0) y0 _ i

def val_main_cst_18 : (⟨S_, .f32⟩ : BufTy).Contents (Elt F) :=
  constant S_ .f32 0x3F000000#32

theorem val_main_cst_18_apply (i : S_.Idx) :
    val_main_cst_18 (F := F) i = FloatOps.ofBits .f32 0x3F000000#32 := rfl

def val_main_v178 (x0 : (⟨S4096x14x14x30, .f32⟩ : BufTy).Contents (Elt F)) (x3 : (⟨S4096x14x14, .i1⟩ : BufTy).Contents (Elt F)) : (⟨S_, .f32⟩ : BufTy).Contents (Elt F) :=
  mulf (val_main_cst_18 (F := F)) (val_main_v23 (F := F) x0 x3)

theorem val_main_v178_apply (x0 : (⟨S4096x14x14x30, .f32⟩ : BufTy).Contents (Elt F)) (x3 : (⟨S4096x14x14, .i1⟩ : BufTy).Contents (Elt F)) (i : S_.Idx) :
    val_main_v178 (F := F) x0 x3 i = FloatOps.mulf (val_main_cst_18 (F := F) i) (val_main_v23 (F := F) x0 x3 i) := rfl

def val_main_v179 (x0 : (⟨S4096x14x14x30, .f32⟩ : BufTy).Contents (Elt F)) (x2 : (⟨S4096x14x14x20, .f32⟩ : BufTy).Contents (Elt F)) (x3 : (⟨S4096x14x14, .i1⟩ : BufTy).Contents (Elt F)) : (⟨S_, .f32⟩ : BufTy).Contents (Elt F) :=
  addf (val_main_v8 (F := F) x0 x2 x3) (val_main_v178 (F := F) x0 x3)

theorem val_main_v179_apply (x0 : (⟨S4096x14x14x30, .f32⟩ : BufTy).Contents (Elt F)) (x2 : (⟨S4096x14x14x20, .f32⟩ : BufTy).Contents (Elt F)) (x3 : (⟨S4096x14x14, .i1⟩ : BufTy).Contents (Elt F)) (i : S_.Idx) :
    val_main_v179 (F := F) x0 x2 x3 i = FloatOps.addf (val_main_v8 (F := F) x0 x2 x3 i) (val_main_v178 (F := F) x0 x3 i) := rfl

def val_main_cst_19 : (⟨S_, .f32⟩ : BufTy).Contents (Elt F) :=
  constant S_ .f32 0x40A00000#32

theorem val_main_cst_19_apply (i : S_.Idx) :
    val_main_cst_19 (F := F) i = FloatOps.ofBits .f32 0x40A00000#32 := rfl

def val_main_v180 (x0 : (⟨S4096x14x14x30, .f32⟩ : BufTy).Contents (Elt F)) (x1 : (⟨S4096x14x14x4, .f32⟩ : BufTy).Contents (Elt F)) (x3 : (⟨S4096x14x14, .i1⟩ : BufTy).Contents (Elt F)) : (⟨S_, .f32⟩ : BufTy).Contents (Elt F) :=
  mulf (val_main_cst_19 (F := F)) (val_main_v171 (F := F) x0 x1 x3)

theorem val_main_v180_apply (x0 : (⟨S4096x14x14x30, .f32⟩ : BufTy).Contents (Elt F)) (x1 : (⟨S4096x14x14x4, .f32⟩ : BufTy).Contents (Elt F)) (x3 : (⟨S4096x14x14, .i1⟩ : BufTy).Contents (Elt F)) (i : S_.Idx) :
    val_main_v180 (F := F) x0 x1 x3 i = FloatOps.mulf (val_main_cst_19 (F := F) i) (val_main_v171 (F := F) x0 x1 x3 i) := rfl

def val_main_v181 (x0 : (⟨S4096x14x14x30, .f32⟩ : BufTy).Contents (Elt F)) (x1 : (⟨S4096x14x14x4, .f32⟩ : BufTy).Contents (Elt F)) (x2 : (⟨S4096x14x14x20, .f32⟩ : BufTy).Contents (Elt F)) (x3 : (⟨S4096x14x14, .i1⟩ : BufTy).Contents (Elt F)) : (⟨S_, .f32⟩ : BufTy).Contents (Elt F) :=
  addf (val_main_v179 (F := F) x0 x2 x3) (val_main_v180 (F := F) x0 x1 x3)

theorem val_main_v181_apply (x0 : (⟨S4096x14x14x30, .f32⟩ : BufTy).Contents (Elt F)) (x1 : (⟨S4096x14x14x4, .f32⟩ : BufTy).Contents (Elt F)) (x2 : (⟨S4096x14x14x20, .f32⟩ : BufTy).Contents (Elt F)) (x3 : (⟨S4096x14x14, .i1⟩ : BufTy).Contents (Elt F)) (i : S_.Idx) :
    val_main_v181 (F := F) x0 x1 x2 x3 i = FloatOps.addf (val_main_v179 (F := F) x0 x2 x3 i) (val_main_v180 (F := F) x0 x1 x3 i) := rfl

def val_main_v182 (x0 : (⟨S4096x14x14x30, .f32⟩ : BufTy).Contents (Elt F)) (x1 : (⟨S4096x14x14x4, .f32⟩ : BufTy).Contents (Elt F)) (x2 : (⟨S4096x14x14x20, .f32⟩ : BufTy).Contents (Elt F)) (x3 : (⟨S4096x14x14, .i1⟩ : BufTy).Contents (Elt F)) : (⟨S_, .f32⟩ : BufTy).Contents (Elt F) :=
  addf (val_main_v181 (F := F) x0 x1 x2 x3) (val_main_v177 (F := F) x0 x1 x3)

theorem val_main_v182_apply (x0 : (⟨S4096x14x14x30, .f32⟩ : BufTy).Contents (Elt F)) (x1 : (⟨S4096x14x14x4, .f32⟩ : BufTy).Contents (Elt F)) (x2 : (⟨S4096x14x14x20, .f32⟩ : BufTy).Contents (Elt F)) (x3 : (⟨S4096x14x14, .i1⟩ : BufTy).Contents (Elt F)) (i : S_.Idx) :
    val_main_v182 (F := F) x0 x1 x2 x3 i = FloatOps.addf (val_main_v181 (F := F) x0 x1 x2 x3 i) (val_main_v177 (F := F) x0 x1 x3 i) := rfl

def val_main_v183 (x0 : (⟨S4096x14x14x30, .f32⟩ : BufTy).Contents (Elt F)) (x1 : (⟨S4096x14x14x4, .f32⟩ : BufTy).Contents (Elt F)) (x2 : (⟨S4096x14x14x20, .f32⟩ : BufTy).Contents (Elt F)) (x3 : (⟨S4096x14x14, .i1⟩ : BufTy).Contents (Elt F)) : (⟨S1, .f32⟩ : BufTy).Contents (Elt F) :=
  broadcastInDim S1 ![] bcast_S_S1 (val_main_v182 (F := F) x0 x1 x2 x3)

abbrev idx_main_v183 (i : S1.Idx) : S_.Idx := fun a => a.elim0

theorem val_main_v183_apply (x0 : (⟨S4096x14x14x30, .f32⟩ : BufTy).Contents (Elt F)) (x1 : (⟨S4096x14x14x4, .f32⟩ : BufTy).Contents (Elt F)) (x2 : (⟨S4096x14x14x20, .f32⟩ : BufTy).Contents (Elt F)) (x3 : (⟨S4096x14x14, .i1⟩ : BufTy).Contents (Elt F)) (i : S1.Idx) :
    val_main_v183 (F := F) x0 x1 x2 x3 i = val_main_v182 (F := F) x0 x1 x2 x3 (idx_main_v183 i) := by
  unfold val_main_v183
  generalize val_main_v182 (F := F) x0 x1 x2 x3 = y
  exact broadcastInDim_apply _ bcast_S_S1 y i (idx_main_v183 i) (fun a => a.elim0)

def val_main_v184 (x0 : (⟨S4096x14x14x30, .f32⟩ : BufTy).Contents (Elt F)) (x1 : (⟨S4096x14x14x4, .f32⟩ : BufTy).Contents (Elt F)) (x3 : (⟨S4096x14x14, .i1⟩ : BufTy).Contents (Elt F)) : (⟨S1, .f32⟩ : BufTy).Contents (Elt F) :=
  broadcastInDim S1 ![] bcast_S_S1 (val_main_v171 (F := F) x0 x1 x3)

abbrev idx_main_v184 (i : S1.Idx) : S_.Idx := fun a => a.elim0

theorem val_main_v184_apply (x0 : (⟨S4096x14x14x30, .f32⟩ : BufTy).Contents (Elt F)) (x1 : (⟨S4096x14x14x4, .f32⟩ : BufTy).Contents (Elt F)) (x3 : (⟨S4096x14x14, .i1⟩ : BufTy).Contents (Elt F)) (i : S1.Idx) :
    val_main_v184 (F := F) x0 x1 x3 i = val_main_v171 (F := F) x0 x1 x3 (idx_main_v184 i) := by
  unfold val_main_v184
  generalize val_main_v171 (F := F) x0 x1 x3 = y
  exact broadcastInDim_apply _ bcast_S_S1 y i (idx_main_v184 i) (fun a => a.elim0)

def val_main_v185 (x0 : (⟨S4096x14x14x30, .f32⟩ : BufTy).Contents (Elt F)) (x1 : (⟨S4096x14x14x4, .f32⟩ : BufTy).Contents (Elt F)) (x3 : (⟨S4096x14x14, .i1⟩ : BufTy).Contents (Elt F)) : (⟨S1, .f32⟩ : BufTy).Contents (Elt F) :=
  broadcastInDim S1 ![] bcast_S_S1 (val_main_v177 (F := F) x0 x1 x3)

abbrev idx_main_v185 (i : S1.Idx) : S_.Idx := fun a => a.elim0

theorem val_main_v185_apply (x0 : (⟨S4096x14x14x30, .f32⟩ : BufTy).Contents (Elt F)) (x1 : (⟨S4096x14x14x4, .f32⟩ : BufTy).Contents (Elt F)) (x3 : (⟨S4096x14x14, .i1⟩ : BufTy).Contents (Elt F)) (i : S1.Idx) :
    val_main_v185 (F := F) x0 x1 x3 i = val_main_v177 (F := F) x0 x1 x3 (idx_main_v185 i) := by
  unfold val_main_v185
  generalize val_main_v177 (F := F) x0 x1 x3 = y
  exact broadcastInDim_apply _ bcast_S_S1 y i (idx_main_v185 i) (fun a => a.elim0)

def val_main_v186 (x0 : (⟨S4096x14x14x30, .f32⟩ : BufTy).Contents (Elt F)) (x3 : (⟨S4096x14x14, .i1⟩ : BufTy).Contents (Elt F)) : (⟨S1, .f32⟩ : BufTy).Contents (Elt F) :=
  broadcastInDim S1 ![] bcast_S_S1 (val_main_v23 (F := F) x0 x3)

abbrev idx_main_v186 (i : S1.Idx) : S_.Idx := fun a => a.elim0

theorem val_main_v186_apply (x0 : (⟨S4096x14x14x30, .f32⟩ : BufTy).Contents (Elt F)) (x3 : (⟨S4096x14x14, .i1⟩ : BufTy).Contents (Elt F)) (i : S1.Idx) :
    val_main_v186 (F := F) x0 x3 i = val_main_v23 (F := F) x0 x3 (idx_main_v186 i) := by
  unfold val_main_v186
  generalize val_main_v23 (F := F) x0 x3 = y
  exact broadcastInDim_apply _ bcast_S_S1 y i (idx_main_v186 i) (fun a => a.elim0)

def val_main_v187 (x0 : (⟨S4096x14x14x30, .f32⟩ : BufTy).Contents (Elt F)) (x2 : (⟨S4096x14x14x20, .f32⟩ : BufTy).Contents (Elt F)) (x3 : (⟨S4096x14x14, .i1⟩ : BufTy).Contents (Elt F)) : (⟨S1, .f32⟩ : BufTy).Contents (Elt F) :=
  broadcastInDim S1 ![] bcast_S_S1 (val_main_v8 (F := F) x0 x2 x3)

abbrev idx_main_v187 (i : S1.Idx) : S_.Idx := fun a => a.elim0

theorem val_main_v187_apply (x0 : (⟨S4096x14x14x30, .f32⟩ : BufTy).Contents (Elt F)) (x2 : (⟨S4096x14x14x20, .f32⟩ : BufTy).Contents (Elt F)) (x3 : (⟨S4096x14x14, .i1⟩ : BufTy).Contents (Elt F)) (i : S1.Idx) :
    val_main_v187 (F := F) x0 x2 x3 i = val_main_v8 (F := F) x0 x2 x3 (idx_main_v187 i) := by
  unfold val_main_v187
  generalize val_main_v8 (F := F) x0 x2 x3 = y
  exact broadcastInDim_apply _ bcast_S_S1 y i (idx_main_v187 i) (fun a => a.elim0)

def val_main_v188 (x0 : (⟨S4096x14x14x30, .f32⟩ : BufTy).Contents (Elt F)) (x1 : (⟨S4096x14x14x4, .f32⟩ : BufTy).Contents (Elt F)) (x2 : (⟨S4096x14x14x20, .f32⟩ : BufTy).Contents (Elt F)) (x3 : (⟨S4096x14x14, .i1⟩ : BufTy).Contents (Elt F)) : (⟨S5, .f32⟩ : BufTy).Contents (Elt F) :=
  concatenate S5 0 [⟨S1, (val_main_v183 (F := F) x0 x1 x2 x3)⟩, ⟨S1, (val_main_v184 (F := F) x0 x1 x3)⟩, ⟨S1, (val_main_v185 (F := F) x0 x1 x3)⟩, ⟨S1, (val_main_v186 (F := F) x0 x3)⟩, ⟨S1, (val_main_v187 (F := F) x0 x2 x3)⟩] concatenates_S1_S1_S1_S1_S1_S5_d0

def val_main_cst_20 : (⟨S_, .f32⟩ : BufTy).Contents (Elt F) :=
  constant S_ .f32 0x45800000#32

theorem val_main_cst_20_apply (i : S_.Idx) :
    val_main_cst_20 (F := F) i = FloatOps.ofBits .f32 0x45800000#32 := rfl

def val_main_v189 : (⟨S5, .f32⟩ : BufTy).Contents (Elt F) :=
  broadcastInDim S5 ![] bcast_S_S5 (val_main_cst_20 (F := F))

abbrev idx_main_v189 (i : S5.Idx) : S_.Idx := fun a => a.elim0

theorem val_main_v189_apply (i : S5.Idx) :
    val_main_v189 (F := F) i = val_main_cst_20 (F := F) (idx_main_v189 i) := by
  unfold val_main_v189
  generalize val_main_cst_20 (F := F) = y
  exact broadcastInDim_apply _ bcast_S_S5 y i (idx_main_v189 i) (fun a => a.elim0)

def val_main_v190 (x0 : (⟨S4096x14x14x30, .f32⟩ : BufTy).Contents (Elt F)) (x1 : (⟨S4096x14x14x4, .f32⟩ : BufTy).Contents (Elt F)) (x2 : (⟨S4096x14x14x20, .f32⟩ : BufTy).Contents (Elt F)) (x3 : (⟨S4096x14x14, .i1⟩ : BufTy).Contents (Elt F)) : (⟨S5, .f32⟩ : BufTy).Contents (Elt F) :=
  Host.divf (val_main_v188 (F := F) x0 x1 x2 x3) (val_main_v189 (F := F))

theorem val_main_v190_apply (x0 : (⟨S4096x14x14x30, .f32⟩ : BufTy).Contents (Elt F)) (x1 : (⟨S4096x14x14x4, .f32⟩ : BufTy).Contents (Elt F)) (x2 : (⟨S4096x14x14x20, .f32⟩ : BufTy).Contents (Elt F)) (x3 : (⟨S4096x14x14, .i1⟩ : BufTy).Contents (Elt F)) (i : S5.Idx) :
    val_main_v190 (F := F) x0 x1 x2 x3 i = FloatOps.hostDivf (val_main_v188 (F := F) x0 x1 x2 x3 i) (val_main_v189 (F := F) i) := rfl

end Cert.ReferenceIdeal.ReadP

end
-- ==== Proof.Line.lean ====
import Idealize.ShloMosaic.Lib.StableHlo.Run

namespace Idealize.ShloMosaic.StableHlo

open Idealize.ShloMosaic Idealize.ShloMosaic.TcCoe Idealize.SL.Sem

variable {τ : Topo} {sig : RefSig} {Val : EltTy → Type}

/-- The operations write the listed references, one each and in order, at indices increasing from `n` on. -/
def WritesFrom : Nat → List (HloOp τ sig Val) → List (Ref sig .tc) → Prop
  | _, [], [] => True
  | n, op :: ops, r :: rs =>
    (n ≤ r.idx.val ∧ op.writes = {Proc.devRef .tc r} ∧ op.fresh = ∅ ∧ op.bufs ⊆ tcRefs τ sig) ∧ WritesFrom (r.idx.val + 1) ops rs
  | _, _, _ => False

/-- `E` holds at `r` what `op` makes of contents that agree with `E` at every reference of smaller index. -/
def StepAt (E : Valuation τ sig Val) (op : HloOp τ sig Val) (r : Ref sig .tc) : Prop :=
  ∃ P : Valuation τ sig Val, (∀ s : Ref sig .tc, s.idx.val < r.idx.val → P (Proc.devRef .tc s) = E (Proc.devRef .tc s)) ∧
    E (Proc.devRef .tc r) = op.result P (Proc.devRef .tc r)

def Steps (E : Valuation τ sig Val) : List (HloOp τ sig Val) → List (Ref sig .tc) → Prop
  | op :: ops, r :: rs => StepAt E op r ∧ Steps E ops rs
  | _, _ => True

theorem WritesFrom.not_written {n : Nat} {ops : List (HloOp τ sig Val)} {rs : List (Ref sig .tc)} (hw : WritesFrom n ops rs)
    {s : Ref sig .tc} (hs : s.idx.val < n) : ∀ op ∈ ops, Proc.devRef (τ := τ) .tc s ∉ op.writes := by
  induction ops generalizing n rs with
  | nil => intro op h; exact nomatch h
  | cons o ops ih =>
    cases rs with
    | nil => exact hw.elim
    | cons r rs =>
      intro op h
      rcases List.mem_cons.1 h with rfl | h
      · rw [hw.1.2.1, Finset.mem_singleton]
        intro e
        have e' := Proc.devRef_injective _ e
        subst e'
        exact absurd hs (Nat.not_lt.2 hw.1.1)
      · exact ih hw.2 (Nat.lt_succ_of_lt (Nat.lt_of_lt_of_le hs hw.1.1)) op h

theorem WritesFrom.sub {n : Nat} {ops : List (HloOp τ sig Val)} {rs : List (Ref sig .tc)} (hw : WritesFrom n ops rs) :
    ops.Forall fun op => op.bufs ⊆ tcRefs τ sig := by
  induction ops generalizing n rs with
  | nil => trivial
  | cons o ops ih =>
    cases rs with
    | nil => exact hw.elim
    | cons r rs => exact (List.forall_cons _ _ _).2 ⟨hw.1.2.2.2, ih hw.2⟩

theorem WritesFrom.fresh {n : Nat} {ops : List (HloOp τ sig Val)} {rs : List (Ref sig .tc)} (hw : WritesFrom n ops rs) :
    ∀ op ∈ ops, op.fresh = ∅ := by
  induction ops generalizing n rs with
  | nil => intro op h; exact nomatch h
  | cons o ops ih =>
    cases rs with
    | nil => exact hw.elim
    | cons r rs =>
      intro op h
      rcases List.mem_cons.1 h with rfl | h
      · exact hw.1.2.2.1
      · exact ih hw.2 op h

/-- Nothing later writes at or below an operation's reference, so the final contents there are that operation's result. -/
theorem WritesFrom.steps {n : Nat} {ops : List (HloOp τ sig Val)} {rs : List (Ref sig .tc)} (hw : WritesFrom n ops rs)
    (V : Valuation τ sig Val) : Steps (after ops V) ops rs := by
  induction ops generalizing n rs V with
  | nil => cases rs <;> trivial
  | cons o ops ih =>
    cases rs with
    | nil => exact hw.elim
    | cons r rs =>
      have hr : WritesFrom r.idx.val (o :: ops) (r :: rs) := ⟨⟨Nat.le_refl _, hw.1.2⟩, hw.2⟩
      exact ⟨⟨V, fun s hs => (after_of_forall_not_mem _ V (hr.not_written hs)).symm,
        after_of_forall_not_mem ops _ (WritesFrom.not_written hw.2 (Nat.lt_succ_self _))⟩, ih hw.2 _⟩

variable {E : Valuation τ sig Val}

theorem StepAt.nullary {y : Ref sig .tc} {v : y.ty.Contents Val} {hy} (h : StepAt E (nullary y v hy) y) :
    E (Proc.devRef .tc y) = v := by
  obtain ⟨P, -, e⟩ := h
  exact e.trans (nullary_result y v hy P)

theorem StepAt.unary {x y : Ref sig .tc} {f : x.ty.Contents Val → y.ty.Contents Val} {hx hy}
    (h : StepAt E (unary x y f hx hy) y) {vx : x.ty.Contents Val} (ex : E (Proc.devRef .tc x) = vx)
    (nx : x.idx.val < y.idx.val := by decide) : E (Proc.devRef .tc y) = f vx := by
  obtain ⟨P, hP, e⟩ := h
  exact e.trans ((unary_result x y f hx hy P).trans (congrArg f ((hP x nx).trans ex)))

theorem StepAt.reshape {x y : Ref sig .tc} {he : x.ty.elt = y.ty.elt} {hn : x.ty.shape.ShapeCasts y.ty.shape} {hx hy}
    (h : StepAt E (reshape x y he hn hx hy) y) {vx : x.ty.Contents Val} (ex : E (Proc.devRef .tc x) = vx)
    (nx : x.idx.val < y.idx.val := by decide) : E (Proc.devRef .tc y) = fun i => he ▸ shapeCast y.ty.shape vx hn i := by
  obtain ⟨P, hP, e⟩ := h
  exact e.trans ((reshape_result x y he hn hx hy P).trans (by rw [← ex, ← hP x nx]))

theorem StepAt.binary {a b y : Ref sig .tc} {f : a.ty.Contents Val → b.ty.Contents Val → y.ty.Contents Val} {ha hb hy}
    (h : StepAt E (binary a b y f ha hb hy) y) {va : a.ty.Contents Val} {vb : b.ty.Contents Val}
    (ea : E (Proc.devRef .tc a) = va) (eb : E (Proc.devRef .tc b) = vb)
    (na : a.idx.val < y.idx.val := by decide) (nb : b.idx.val < y.idx.val := by decide) :
    E (Proc.devRef .tc y) = f va vb := by
  obtain ⟨P, hP, e⟩ := h
  exact e.trans ((binary_result a b y f ha hb hy P).trans (congrArg₂ f ((hP a na).trans ea) ((hP b nb).trans eb)))

theorem StepAt.ternary {c a b y : Ref sig .tc}
    {f : c.ty.Contents Val → a.ty.Contents Val → b.ty.Contents Val → y.ty.Contents Val} {hc ha hb hy}
    (h : StepAt E (ternary c a b y f hc ha hb hy) y) {vc : c.ty.Contents Val} {va : a.ty.Contents Val}
    {vb : b.ty.Contents Val} (ec : E (Proc.devRef .tc c) = vc) (ea : E (Proc.devRef .tc a) = va)
    (eb : E (Proc.devRef .tc b) = vb) (nc : c.idx.val < y.idx.val := by decide) (na : a.idx.val < y.idx.val := by decide)
    (nb : b.idx.val < y.idx.val := by decide) : E (Proc.devRef .tc y) = f vc va vb := by
  obtain ⟨P, hP, e⟩ := h
  rw [e, ternary_result, hP c nc, hP a na, hP b nb, ec, ea, eb]

end Idealize.ShloMosaic.StableHlo
-- ==== Proof.RefChain.lean ====
import proofs.«404733_j85177791414999_3_alg».proof.Proof.RefOps
import proofs.«404733_j85177791414999_3_alg».proof.Proof.RefRead
import proofs.«404733_j85177791414999_3_alg».proof.Proof.Line

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- The references the operations write, in order. -/
abbrev dst : List (Ref sig .tc) :=
  [main_v0, main_v1, main_v2, main_v3, main_v4, main_v5, main_cst, main_v6, main_v7, main_cst_0, main_v8, main_cst_1,
   main_v9, main_v10, main_v11, main_v12, main_v13, main_v14, main_cst_2, main_v15, main_cst_3, main_v16, main_v17, main_v18,
   main_v19, main_v20, main_v21, main_cst_4, main_v22, main_v23, main_v24, main_v25, main_cst_5, main_v26, main_v27, main_v28,
   main_cst_6, main_v29, main_v30, main_v31, main_cst_7, main_v32, main_v33, main_v34, main_v35, main_v36, main_v37, main_cst_8,
   main_v38, main_v39, main_v40, main_cst_9, main_v41, main_v42, main_v43, main_cst_10, main_v44, main_v45, main_v46, main_v47,
   main_v48, main_cst_11, main_v49, main_v50, main_v51, main_cst_12, main_v52, main_v53, main_v54, main_cst_13, main_v55, main_v56,
   main_v57, main_v58, main_v59, main_v60, main_v61, main_v62, main_v63, main_v64, main_v65, main_cst_14, main_call0_v0, main_call0_v1,
   main_v66, main_v67, main_v68, main_v69, main_v70, main_v71, main_v72, main_v73, main_v74, main_v75, main_v76, main_v77,
   main_v78, main_v79, main_v80, main_v81, main_v82, main_v83, main_v84, main_v85, main_v86, main_v87, main_v88, main_v89,
   main_v90, main_v91, main_v92, main_v93, main_v94, main_v95, main_v96, main_v97, main_v98, main_v99, main_v100, main_v101,
   main_v102, main_v103, main_cst_15, main_call1_v0, main_call1_v1, main_v104, main_v105, main_v106, main_v107, main_v108, main_v109, main_v110,
   main_v111, main_v112, main_v113, main_v114, main_v115, main_v116, main_v117, main_v118, main_v119, main_v120, main_v121, main_v122,
   main_v123, main_v124, main_v125, main_v126, main_v127, main_v128, main_v129, main_v130, main_v131, main_v132, main_v133, main_v134,
   main_v135, main_v136, main_call2_v0, main_v137, main_v138, main_v139, main_v140, main_v141, main_v142, main_v143, main_v144, main_v145,
   main_v146, main_v147, main_v148, main_v149, main_v150, main_v151, main_v152, main_v153, main_v154, main_v155, main_v156, main_v157,
   main_v158, main_v159, main_v160, main_v161, main_v162, main_v163, main_v164, main_v165, main_v166, main_v167, main_v168, main_v169,
   main_v170, main_cst_16, main_v171, main_v172, main_v173, main_v174, main_v175, main_v176, main_cst_17, main_v177, main_cst_18, main_v178,
   main_v179, main_cst_19, main_v180, main_v181, main_v182, main_v183, main_v184, main_v185, main_v186, main_v187, main_v188, main_cst_20,
   main_v189, main_v190]

/-- Contents that hold the arguments and that every operation leaves at its own result hold each staged value. -/
theorem val_of_steps {E : Valuation τ sig (Elt F)} {x0 : (⟨S4096x14x14x30, .f32⟩ : BufTy).Contents (Elt F)} {x1 : (⟨S4096x14x14x4, .f32⟩ : BufTy).Contents (Elt F)} {x2 : (⟨S4096x14x14x20, .f32⟩ : BufTy).Contents (Elt F)} {x3 : (⟨S4096x14x14, .i1⟩ : BufTy).Contents (Elt F)}
    (arg0 : E (Proc.devRef .tc main_arg0) = x0) (arg1 : E (Proc.devRef .tc main_arg1) = x1) (arg2 : E (Proc.devRef .tc main_arg2) = x2) (arg3 : E (Proc.devRef .tc main_arg3) = x3)
    (h : Steps E (ops (F := F)) dst) : E (Proc.devRef .tc main_v190) = ReadP.val_main_v190 x0 x1 x2 x3 := by
  have v0 : E (Proc.devRef .tc main_v0) = ReadP.val_main_v0 x0 := (h.1.unary arg0).trans rfl
  replace h := h.2
  have v1 : E (Proc.devRef .tc main_v1) = ReadP.val_main_v1 x0 := (h.1.unary arg0).trans rfl
  replace h := h.2
  have v2 : E (Proc.devRef .tc main_v2) = ReadP.val_main_v2 x0 := (h.1.unary arg0).trans rfl
  replace h := h.2
  have v3 : E (Proc.devRef .tc main_v3) = ReadP.val_main_v3 x3 := (h.1.unary arg3).trans rfl
  replace h := h.2
  have v4 : E (Proc.devRef .tc main_v4) = ReadP.val_main_v4 x0 x2 := (h.1.binary v2 arg2).trans rfl
  replace h := h.2
  have v5 : E (Proc.devRef .tc main_v5) = ReadP.val_main_v5 x0 x2 := (h.1.binary v4 v4).trans rfl
  replace h := h.2
  have cst : E (Proc.devRef .tc main_cst) = ReadP.val_main_cst := (h.1.nullary).trans rfl
  replace h := h.2
  have v6 : E (Proc.devRef .tc main_v6) = ReadP.val_main_v6 x0 x2 := (h.1.binary v5 cst).trans rfl
  replace h := h.2
  have v7 : E (Proc.devRef .tc main_v7) = ReadP.val_main_v7 x0 x2 x3 := (h.1.binary v3 v6).trans rfl
  replace h := h.2
  have cst_0 : E (Proc.devRef .tc main_cst_0) = ReadP.val_main_cst_0 := (h.1.nullary).trans rfl
  replace h := h.2
  have v8 : E (Proc.devRef .tc main_v8) = ReadP.val_main_v8 x0 x2 x3 := (h.1.binary v7 cst_0).trans rfl
  replace h := h.2
  have cst_1 : E (Proc.devRef .tc main_cst_1) = ReadP.val_main_cst_1 := (h.1.nullary).trans rfl
  replace h := h.2
  have v9 : E (Proc.devRef .tc main_v9) = ReadP.val_main_v9 := (h.1.unary cst_1).trans rfl
  replace h := h.2
  have v10 : E (Proc.devRef .tc main_v10) = ReadP.val_main_v10 x3 := (h.1.binary v9 v3).trans rfl
  replace h := h.2
  have v11 : E (Proc.devRef .tc main_v11) = ReadP.val_main_v11 x0 := (h.1.unary v0).trans rfl
  replace h := h.2
  have v12 : E (Proc.devRef .tc main_v12) = ReadP.val_main_v12 x0 := (h.1.reshape v11).trans rfl
  replace h := h.2
  have v13 : E (Proc.devRef .tc main_v13) = ReadP.val_main_v13 x0 x3 := (h.1.binary v10 v12).trans rfl
  replace h := h.2
  have v14 : E (Proc.devRef .tc main_v14) = ReadP.val_main_v14 x0 x3 := (h.1.binary v13 v13).trans rfl
  replace h := h.2
  have cst_2 : E (Proc.devRef .tc main_cst_2) = ReadP.val_main_cst_2 := (h.1.nullary).trans rfl
  replace h := h.2
  have v15 : E (Proc.devRef .tc main_v15) = ReadP.val_main_v15 x0 x3 := (h.1.binary v14 cst_2).trans rfl
  replace h := h.2
  have cst_3 : E (Proc.devRef .tc main_cst_3) = ReadP.val_main_cst_3 := (h.1.nullary).trans rfl
  replace h := h.2
  have v16 : E (Proc.devRef .tc main_v16) = ReadP.val_main_v16 := (h.1.unary cst_3).trans rfl
  replace h := h.2
  have v17 : E (Proc.devRef .tc main_v17) = ReadP.val_main_v17 x3 := (h.1.binary v16 v3).trans rfl
  replace h := h.2
  have v18 : E (Proc.devRef .tc main_v18) = ReadP.val_main_v18 x0 := (h.1.unary v1).trans rfl
  replace h := h.2
  have v19 : E (Proc.devRef .tc main_v19) = ReadP.val_main_v19 x0 := (h.1.reshape v18).trans rfl
  replace h := h.2
  have v20 : E (Proc.devRef .tc main_v20) = ReadP.val_main_v20 x0 x3 := (h.1.binary v17 v19).trans rfl
  replace h := h.2
  have v21 : E (Proc.devRef .tc main_v21) = ReadP.val_main_v21 x0 x3 := (h.1.binary v20 v20).trans rfl
  replace h := h.2
  have cst_4 : E (Proc.devRef .tc main_cst_4) = ReadP.val_main_cst_4 := (h.1.nullary).trans rfl
  replace h := h.2
  have v22 : E (Proc.devRef .tc main_v22) = ReadP.val_main_v22 x0 x3 := (h.1.binary v21 cst_4).trans rfl
  replace h := h.2
  have v23 : E (Proc.devRef .tc main_v23) = ReadP.val_main_v23 x0 x3 := (h.1.binary v15 v22).trans rfl
  replace h := h.2
  have v24 : E (Proc.devRef .tc main_v24) = ReadP.val_main_v24 x0 := (h.1.unary v0).trans rfl
  replace h := h.2
  have v25 : E (Proc.devRef .tc main_v25) = ReadP.val_main_v25 x0 := (h.1.unary v24).trans rfl
  replace h := h.2
  have cst_5 : E (Proc.devRef .tc main_cst_5) = ReadP.val_main_cst_5 := (h.1.nullary).trans rfl
  replace h := h.2
  have v26 : E (Proc.devRef .tc main_v26) = ReadP.val_main_v26 := (h.1.unary cst_5).trans rfl
  replace h := h.2
  have v27 : E (Proc.devRef .tc main_v27) = ReadP.val_main_v27 x0 := (h.1.binary v25 v26).trans rfl
  replace h := h.2
  have v28 : E (Proc.devRef .tc main_v28) = ReadP.val_main_v28 x0 := (h.1.unary v24).trans rfl
  replace h := h.2
  have cst_6 : E (Proc.devRef .tc main_cst_6) = ReadP.val_main_cst_6 := (h.1.nullary).trans rfl
  replace h := h.2
  have v29 : E (Proc.devRef .tc main_v29) = ReadP.val_main_v29 := (h.1.unary cst_6).trans rfl
  replace h := h.2
  have v30 : E (Proc.devRef .tc main_v30) = ReadP.val_main_v30 x0 := (h.1.binary v29 v28).trans rfl
  replace h := h.2
  have v31 : E (Proc.devRef .tc main_v31) = ReadP.val_main_v31 x0 := (h.1.binary v27 v30).trans rfl
  replace h := h.2
  have cst_7 : E (Proc.devRef .tc main_cst_7) = ReadP.val_main_cst_7 := (h.1.nullary).trans rfl
  replace h := h.2
  have v32 : E (Proc.devRef .tc main_v32) = ReadP.val_main_v32 := (h.1.unary cst_7).trans rfl
  replace h := h.2
  have v33 : E (Proc.devRef .tc main_v33) = ReadP.val_main_v33 x0 := (h.1.binary v32 v28).trans rfl
  replace h := h.2
  have v34 : E (Proc.devRef .tc main_v34) = ReadP.val_main_v34 x0 := (h.1.binary v27 v33).trans rfl
  replace h := h.2
  have v35 : E (Proc.devRef .tc main_v35) = ReadP.val_main_v35 x0 := (h.1.binary v31 v34).trans rfl
  replace h := h.2
  have v36 : E (Proc.devRef .tc main_v36) = ReadP.val_main_v36 x0 := (h.1.unary v1).trans rfl
  replace h := h.2
  have v37 : E (Proc.devRef .tc main_v37) = ReadP.val_main_v37 x0 := (h.1.unary v36).trans rfl
  replace h := h.2
  have cst_8 : E (Proc.devRef .tc main_cst_8) = ReadP.val_main_cst_8 := (h.1.nullary).trans rfl
  replace h := h.2
  have v38 : E (Proc.devRef .tc main_v38) = ReadP.val_main_v38 := (h.1.unary cst_8).trans rfl
  replace h := h.2
  have v39 : E (Proc.devRef .tc main_v39) = ReadP.val_main_v39 x0 := (h.1.binary v37 v38).trans rfl
  replace h := h.2
  have v40 : E (Proc.devRef .tc main_v40) = ReadP.val_main_v40 x0 := (h.1.unary v36).trans rfl
  replace h := h.2
  have cst_9 : E (Proc.devRef .tc main_cst_9) = ReadP.val_main_cst_9 := (h.1.nullary).trans rfl
  replace h := h.2
  have v41 : E (Proc.devRef .tc main_v41) = ReadP.val_main_v41 := (h.1.unary cst_9).trans rfl
  replace h := h.2
  have v42 : E (Proc.devRef .tc main_v42) = ReadP.val_main_v42 x0 := (h.1.binary v41 v40).trans rfl
  replace h := h.2
  have v43 : E (Proc.devRef .tc main_v43) = ReadP.val_main_v43 x0 := (h.1.binary v39 v42).trans rfl
  replace h := h.2
  have cst_10 : E (Proc.devRef .tc main_cst_10) = ReadP.val_main_cst_10 := (h.1.nullary).trans rfl
  replace h := h.2
  have v44 : E (Proc.devRef .tc main_v44) = ReadP.val_main_v44 := (h.1.unary cst_10).trans rfl
  replace h := h.2
  have v45 : E (Proc.devRef .tc main_v45) = ReadP.val_main_v45 x0 := (h.1.binary v44 v40).trans rfl
  replace h := h.2
  have v46 : E (Proc.devRef .tc main_v46) = ReadP.val_main_v46 x0 := (h.1.binary v39 v45).trans rfl
  replace h := h.2
  have v47 : E (Proc.devRef .tc main_v47) = ReadP.val_main_v47 x0 := (h.1.binary v43 v46).trans rfl
  replace h := h.2
  have v48 : E (Proc.devRef .tc main_v48) = ReadP.val_main_v48 x1 := (h.1.unary arg1).trans rfl
  replace h := h.2
  have cst_11 : E (Proc.devRef .tc main_cst_11) = ReadP.val_main_cst_11 := (h.1.nullary).trans rfl
  replace h := h.2
  have v49 : E (Proc.devRef .tc main_v49) = ReadP.val_main_v49 := (h.1.unary cst_11).trans rfl
  replace h := h.2
  have v50 : E (Proc.devRef .tc main_v50) = ReadP.val_main_v50 x1 := (h.1.binary v48 v49).trans rfl
  replace h := h.2
  have v51 : E (Proc.devRef .tc main_v51) = ReadP.val_main_v51 x1 := (h.1.unary arg1).trans rfl
  replace h := h.2
  have cst_12 : E (Proc.devRef .tc main_cst_12) = ReadP.val_main_cst_12 := (h.1.nullary).trans rfl
  replace h := h.2
  have v52 : E (Proc.devRef .tc main_v52) = ReadP.val_main_v52 := (h.1.unary cst_12).trans rfl
  replace h := h.2
  have v53 : E (Proc.devRef .tc main_v53) = ReadP.val_main_v53 x1 := (h.1.binary v52 v51).trans rfl
  replace h := h.2
  have v54 : E (Proc.devRef .tc main_v54) = ReadP.val_main_v54 x1 := (h.1.binary v50 v53).trans rfl
  replace h := h.2
  have cst_13 : E (Proc.devRef .tc main_cst_13) = ReadP.val_main_cst_13 := (h.1.nullary).trans rfl
  replace h := h.2
  have v55 : E (Proc.devRef .tc main_v55) = ReadP.val_main_v55 := (h.1.unary cst_13).trans rfl
  replace h := h.2
  have v56 : E (Proc.devRef .tc main_v56) = ReadP.val_main_v56 x1 := (h.1.binary v55 v51).trans rfl
  replace h := h.2
  have v57 : E (Proc.devRef .tc main_v57) = ReadP.val_main_v57 x1 := (h.1.binary v50 v56).trans rfl
  replace h := h.2
  have v58 : E (Proc.devRef .tc main_v58) = ReadP.val_main_v58 x1 := (h.1.binary v54 v57).trans rfl
  replace h := h.2
  have v59 : E (Proc.devRef .tc main_v59) = ReadP.val_main_v59 x0 := (h.1.unary v35).trans rfl
  replace h := h.2
  have v60 : E (Proc.devRef .tc main_v60) = ReadP.val_main_v60 x1 := (h.1.unary v58).trans rfl
  replace h := h.2
  have v61 : E (Proc.devRef .tc main_v61) = ReadP.val_main_v61 x0 x1 := (h.1.binary v59 v60).trans rfl
  replace h := h.2
  have v62 : E (Proc.devRef .tc main_v62) = ReadP.val_main_v62 x0 := (h.1.unary v35).trans rfl
  replace h := h.2
  have v63 : E (Proc.devRef .tc main_v63) = ReadP.val_main_v63 x1 := (h.1.unary v58).trans rfl
  replace h := h.2
  have v64 : E (Proc.devRef .tc main_v64) = ReadP.val_main_v64 x0 x1 := (h.1.binary v62 v63).trans rfl
  replace h := h.2
  have v65 : E (Proc.devRef .tc main_v65) = ReadP.val_main_v65 x0 x1 := (h.1.binary v64 v61).trans rfl
  replace h := h.2
  have cst_14 : E (Proc.devRef .tc main_cst_14) = ReadP.val_main_cst_14 := (h.1.nullary).trans rfl
  replace h := h.2
  have call0_v0 : E (Proc.devRef .tc main_call0_v0) = ReadP.val_main_call0_v0 := (h.1.unary cst_14).trans rfl
  replace h := h.2
  have call0_v1 : E (Proc.devRef .tc main_call0_v1) = ReadP.val_main_call0_v1 := (h.1.unary call0_v0).trans rfl
  replace h := h.2
  have v66 : E (Proc.devRef .tc main_v66) = ReadP.val_main_v66 x0 x1 := (h.1.binary call0_v1 v65).trans rfl
  replace h := h.2
  have v67 : E (Proc.devRef .tc main_v67) = ReadP.val_main_v67 x0 x1 := (h.1.unary v66).trans rfl
  replace h := h.2
  have v68 : E (Proc.devRef .tc main_v68) = ReadP.val_main_v68 x0 x1 := (h.1.reshape v67).trans rfl
  replace h := h.2
  have v69 : E (Proc.devRef .tc main_v69) = ReadP.val_main_v69 x0 x1 := (h.1.unary v66).trans rfl
  replace h := h.2
  have v70 : E (Proc.devRef .tc main_v70) = ReadP.val_main_v70 x0 x1 := (h.1.reshape v69).trans rfl
  replace h := h.2
  have v71 : E (Proc.devRef .tc main_v71) = ReadP.val_main_v71 x0 x1 := (h.1.binary v68 v70).trans rfl
  replace h := h.2
  have v72 : E (Proc.devRef .tc main_v72) = ReadP.val_main_v72 x0 := (h.1.unary v35).trans rfl
  replace h := h.2
  have v73 : E (Proc.devRef .tc main_v73) = ReadP.val_main_v73 x0 := (h.1.reshape v72).trans rfl
  replace h := h.2
  have v74 : E (Proc.devRef .tc main_v74) = ReadP.val_main_v74 x0 := (h.1.unary v35).trans rfl
  replace h := h.2
  have v75 : E (Proc.devRef .tc main_v75) = ReadP.val_main_v75 x0 := (h.1.reshape v74).trans rfl
  replace h := h.2
  have v76 : E (Proc.devRef .tc main_v76) = ReadP.val_main_v76 x0 := (h.1.binary v73 v75).trans rfl
  replace h := h.2
  have v77 : E (Proc.devRef .tc main_v77) = ReadP.val_main_v77 x0 := (h.1.unary v35).trans rfl
  replace h := h.2
  have v78 : E (Proc.devRef .tc main_v78) = ReadP.val_main_v78 x0 := (h.1.reshape v77).trans rfl
  replace h := h.2
  have v79 : E (Proc.devRef .tc main_v79) = ReadP.val_main_v79 x0 := (h.1.unary v35).trans rfl
  replace h := h.2
  have v80 : E (Proc.devRef .tc main_v80) = ReadP.val_main_v80 x0 := (h.1.reshape v79).trans rfl
  replace h := h.2
  have v81 : E (Proc.devRef .tc main_v81) = ReadP.val_main_v81 x0 := (h.1.binary v78 v80).trans rfl
  replace h := h.2
  have v82 : E (Proc.devRef .tc main_v82) = ReadP.val_main_v82 x0 := (h.1.binary v76 v81).trans rfl
  replace h := h.2
  have v83 : E (Proc.devRef .tc main_v83) = ReadP.val_main_v83 x1 := (h.1.unary v58).trans rfl
  replace h := h.2
  have v84 : E (Proc.devRef .tc main_v84) = ReadP.val_main_v84 x1 := (h.1.reshape v83).trans rfl
  replace h := h.2
  have v85 : E (Proc.devRef .tc main_v85) = ReadP.val_main_v85 x1 := (h.1.unary v58).trans rfl
  replace h := h.2
  have v86 : E (Proc.devRef .tc main_v86) = ReadP.val_main_v86 x1 := (h.1.reshape v85).trans rfl
  replace h := h.2
  have v87 : E (Proc.devRef .tc main_v87) = ReadP.val_main_v87 x1 := (h.1.binary v84 v86).trans rfl
  replace h := h.2
  have v88 : E (Proc.devRef .tc main_v88) = ReadP.val_main_v88 x1 := (h.1.unary v58).trans rfl
  replace h := h.2
  have v89 : E (Proc.devRef .tc main_v89) = ReadP.val_main_v89 x1 := (h.1.reshape v88).trans rfl
  replace h := h.2
  have v90 : E (Proc.devRef .tc main_v90) = ReadP.val_main_v90 x1 := (h.1.unary v58).trans rfl
  replace h := h.2
  have v91 : E (Proc.devRef .tc main_v91) = ReadP.val_main_v91 x1 := (h.1.reshape v90).trans rfl
  replace h := h.2
  have v92 : E (Proc.devRef .tc main_v92) = ReadP.val_main_v92 x1 := (h.1.binary v89 v91).trans rfl
  replace h := h.2
  have v93 : E (Proc.devRef .tc main_v93) = ReadP.val_main_v93 x1 := (h.1.binary v87 v92).trans rfl
  replace h := h.2
  have v94 : E (Proc.devRef .tc main_v94) = ReadP.val_main_v94 x0 x1 := (h.1.binary v82 v93).trans rfl
  replace h := h.2
  have v95 : E (Proc.devRef .tc main_v95) = ReadP.val_main_v95 x0 x1 := (h.1.binary v94 v71).trans rfl
  replace h := h.2
  have v96 : E (Proc.devRef .tc main_v96) = ReadP.val_main_v96 x0 x1 := (h.1.binary v71 v95).trans rfl
  replace h := h.2
  have v97 : E (Proc.devRef .tc main_v97) = ReadP.val_main_v97 x0 := (h.1.unary v47).trans rfl
  replace h := h.2
  have v98 : E (Proc.devRef .tc main_v98) = ReadP.val_main_v98 x1 := (h.1.unary v58).trans rfl
  replace h := h.2
  have v99 : E (Proc.devRef .tc main_v99) = ReadP.val_main_v99 x0 x1 := (h.1.binary v97 v98).trans rfl
  replace h := h.2
  have v100 : E (Proc.devRef .tc main_v100) = ReadP.val_main_v100 x0 := (h.1.unary v47).trans rfl
  replace h := h.2
  have v101 : E (Proc.devRef .tc main_v101) = ReadP.val_main_v101 x1 := (h.1.unary v58).trans rfl
  replace h := h.2
  have v102 : E (Proc.devRef .tc main_v102) = ReadP.val_main_v102 x0 x1 := (h.1.binary v100 v101).trans rfl
  replace h := h.2
  have v103 : E (Proc.devRef .tc main_v103) = ReadP.val_main_v103 x0 x1 := (h.1.binary v102 v99).trans rfl
  replace h := h.2
  have cst_15 : E (Proc.devRef .tc main_cst_15) = ReadP.val_main_cst_15 := (h.1.nullary).trans rfl
  replace h := h.2
  have call1_v0 : E (Proc.devRef .tc main_call1_v0) = ReadP.val_main_call1_v0 := (h.1.unary cst_15).trans rfl
  replace h := h.2
  have call1_v1 : E (Proc.devRef .tc main_call1_v1) = ReadP.val_main_call1_v1 := (h.1.unary call1_v0).trans rfl
  replace h := h.2
  have v104 : E (Proc.devRef .tc main_v104) = ReadP.val_main_v104 x0 x1 := (h.1.binary call1_v1 v103).trans rfl
  replace h := h.2
  have v105 : E (Proc.devRef .tc main_v105) = ReadP.val_main_v105 x0 x1 := (h.1.unary v104).trans rfl
  replace h := h.2
  have v106 : E (Proc.devRef .tc main_v106) = ReadP.val_main_v106 x0 x1 := (h.1.reshape v105).trans rfl
  replace h := h.2
  have v107 : E (Proc.devRef .tc main_v107) = ReadP.val_main_v107 x0 x1 := (h.1.unary v104).trans rfl
  replace h := h.2
  have v108 : E (Proc.devRef .tc main_v108) = ReadP.val_main_v108 x0 x1 := (h.1.reshape v107).trans rfl
  replace h := h.2
  have v109 : E (Proc.devRef .tc main_v109) = ReadP.val_main_v109 x0 x1 := (h.1.binary v106 v108).trans rfl
  replace h := h.2
  have v110 : E (Proc.devRef .tc main_v110) = ReadP.val_main_v110 x0 := (h.1.unary v47).trans rfl
  replace h := h.2
  have v111 : E (Proc.devRef .tc main_v111) = ReadP.val_main_v111 x0 := (h.1.reshape v110).trans rfl
  replace h := h.2
  have v112 : E (Proc.devRef .tc main_v112) = ReadP.val_main_v112 x0 := (h.1.unary v47).trans rfl
  replace h := h.2
  have v113 : E (Proc.devRef .tc main_v113) = ReadP.val_main_v113 x0 := (h.1.reshape v112).trans rfl
  replace h := h.2
  have v114 : E (Proc.devRef .tc main_v114) = ReadP.val_main_v114 x0 := (h.1.binary v111 v113).trans rfl
  replace h := h.2
  have v115 : E (Proc.devRef .tc main_v115) = ReadP.val_main_v115 x0 := (h.1.unary v47).trans rfl
  replace h := h.2
  have v116 : E (Proc.devRef .tc main_v116) = ReadP.val_main_v116 x0 := (h.1.reshape v115).trans rfl
  replace h := h.2
  have v117 : E (Proc.devRef .tc main_v117) = ReadP.val_main_v117 x0 := (h.1.unary v47).trans rfl
  replace h := h.2
  have v118 : E (Proc.devRef .tc main_v118) = ReadP.val_main_v118 x0 := (h.1.reshape v117).trans rfl
  replace h := h.2
  have v119 : E (Proc.devRef .tc main_v119) = ReadP.val_main_v119 x0 := (h.1.binary v116 v118).trans rfl
  replace h := h.2
  have v120 : E (Proc.devRef .tc main_v120) = ReadP.val_main_v120 x0 := (h.1.binary v114 v119).trans rfl
  replace h := h.2
  have v121 : E (Proc.devRef .tc main_v121) = ReadP.val_main_v121 x1 := (h.1.unary v58).trans rfl
  replace h := h.2
  have v122 : E (Proc.devRef .tc main_v122) = ReadP.val_main_v122 x1 := (h.1.reshape v121).trans rfl
  replace h := h.2
  have v123 : E (Proc.devRef .tc main_v123) = ReadP.val_main_v123 x1 := (h.1.unary v58).trans rfl
  replace h := h.2
  have v124 : E (Proc.devRef .tc main_v124) = ReadP.val_main_v124 x1 := (h.1.reshape v123).trans rfl
  replace h := h.2
  have v125 : E (Proc.devRef .tc main_v125) = ReadP.val_main_v125 x1 := (h.1.binary v122 v124).trans rfl
  replace h := h.2
  have v126 : E (Proc.devRef .tc main_v126) = ReadP.val_main_v126 x1 := (h.1.unary v58).trans rfl
  replace h := h.2
  have v127 : E (Proc.devRef .tc main_v127) = ReadP.val_main_v127 x1 := (h.1.reshape v126).trans rfl
  replace h := h.2
  have v128 : E (Proc.devRef .tc main_v128) = ReadP.val_main_v128 x1 := (h.1.unary v58).trans rfl
  replace h := h.2
  have v129 : E (Proc.devRef .tc main_v129) = ReadP.val_main_v129 x1 := (h.1.reshape v128).trans rfl
  replace h := h.2
  have v130 : E (Proc.devRef .tc main_v130) = ReadP.val_main_v130 x1 := (h.1.binary v127 v129).trans rfl
  replace h := h.2
  have v131 : E (Proc.devRef .tc main_v131) = ReadP.val_main_v131 x1 := (h.1.binary v125 v130).trans rfl
  replace h := h.2
  have v132 : E (Proc.devRef .tc main_v132) = ReadP.val_main_v132 x0 x1 := (h.1.binary v120 v131).trans rfl
  replace h := h.2
  have v133 : E (Proc.devRef .tc main_v133) = ReadP.val_main_v133 x0 x1 := (h.1.binary v132 v109).trans rfl
  replace h := h.2
  have v134 : E (Proc.devRef .tc main_v134) = ReadP.val_main_v134 x0 x1 := (h.1.binary v109 v133).trans rfl
  replace h := h.2
  have v135 : E (Proc.devRef .tc main_v135) = ReadP.val_main_v135 x0 x1 := (h.1.binary v96 v134).trans rfl
  replace h := h.2
  have v136 : E (Proc.devRef .tc main_v136) = ReadP.val_main_v136 x0 x1 := (h.1.unary v135).trans rfl
  replace h := h.2
  have call2_v0 : E (Proc.devRef .tc main_call2_v0) = ReadP.val_main_call2_v0 x0 x1 := (h.1.unary v136).trans rfl
  replace h := h.2
  have v137 : E (Proc.devRef .tc main_v137) = ReadP.val_main_v137 x0 x1 := (h.1.ternary call2_v0 v0 v1).trans rfl
  replace h := h.2
  have v138 : E (Proc.devRef .tc main_v138) = ReadP.val_main_v138 x0 x1 := (h.1.ternary v135 v96 v134).trans rfl
  replace h := h.2
  have v139 : E (Proc.devRef .tc main_v139) = ReadP.val_main_v139 x0 x1 := (h.1.unary v137).trans rfl
  replace h := h.2
  have v140 : E (Proc.devRef .tc main_v140) = ReadP.val_main_v140 x0 x1 := (h.1.reshape v139).trans rfl
  replace h := h.2
  have v141 : E (Proc.devRef .tc main_v141) = ReadP.val_main_v141 x0 x1 := (h.1.unary v137).trans rfl
  replace h := h.2
  have v142 : E (Proc.devRef .tc main_v142) = ReadP.val_main_v142 x0 x1 := (h.1.reshape v141).trans rfl
  replace h := h.2
  have v143 : E (Proc.devRef .tc main_v143) = ReadP.val_main_v143 x0 x1 := (h.1.unary v137).trans rfl
  replace h := h.2
  have v144 : E (Proc.devRef .tc main_v144) = ReadP.val_main_v144 x0 x1 := (h.1.reshape v143).trans rfl
  replace h := h.2
  have v145 : E (Proc.devRef .tc main_v145) = ReadP.val_main_v145 x0 x1 := (h.1.unary v137).trans rfl
  replace h := h.2
  have v146 : E (Proc.devRef .tc main_v146) = ReadP.val_main_v146 x0 x1 := (h.1.reshape v145).trans rfl
  replace h := h.2
  have v147 : E (Proc.devRef .tc main_v147) = ReadP.val_main_v147 x1 := (h.1.unary arg1).trans rfl
  replace h := h.2
  have v148 : E (Proc.devRef .tc main_v148) = ReadP.val_main_v148 x1 := (h.1.reshape v147).trans rfl
  replace h := h.2
  have v149 : E (Proc.devRef .tc main_v149) = ReadP.val_main_v149 x1 := (h.1.unary arg1).trans rfl
  replace h := h.2
  have v150 : E (Proc.devRef .tc main_v150) = ReadP.val_main_v150 x1 := (h.1.reshape v149).trans rfl
  replace h := h.2
  have v151 : E (Proc.devRef .tc main_v151) = ReadP.val_main_v151 x1 := (h.1.unary arg1).trans rfl
  replace h := h.2
  have v152 : E (Proc.devRef .tc main_v152) = ReadP.val_main_v152 x1 := (h.1.reshape v151).trans rfl
  replace h := h.2
  have v153 : E (Proc.devRef .tc main_v153) = ReadP.val_main_v153 x1 := (h.1.unary arg1).trans rfl
  replace h := h.2
  have v154 : E (Proc.devRef .tc main_v154) = ReadP.val_main_v154 x1 := (h.1.reshape v153).trans rfl
  replace h := h.2
  have v155 : E (Proc.devRef .tc main_v155) = ReadP.val_main_v155 x0 x1 := (h.1.binary v140 v148).trans rfl
  replace h := h.2
  have v156 : E (Proc.devRef .tc main_v156) = ReadP.val_main_v156 x0 x1 := (h.1.binary v155 v155).trans rfl
  replace h := h.2
  have v157 : E (Proc.devRef .tc main_v157) = ReadP.val_main_v157 x0 x1 := (h.1.binary v142 v150).trans rfl
  replace h := h.2
  have v158 : E (Proc.devRef .tc main_v158) = ReadP.val_main_v158 x0 x1 := (h.1.binary v157 v157).trans rfl
  replace h := h.2
  have v159 : E (Proc.devRef .tc main_v159) = ReadP.val_main_v159 x0 x1 := (h.1.binary v156 v158).trans rfl
  replace h := h.2
  have v160 : E (Proc.devRef .tc main_v160) = ReadP.val_main_v160 x0 x1 := (h.1.unary v144).trans rfl
  replace h := h.2
  have v161 : E (Proc.devRef .tc main_v161) = ReadP.val_main_v161 x1 := (h.1.unary v152).trans rfl
  replace h := h.2
  have v162 : E (Proc.devRef .tc main_v162) = ReadP.val_main_v162 x0 x1 := (h.1.binary v160 v161).trans rfl
  replace h := h.2
  have v163 : E (Proc.devRef .tc main_v163) = ReadP.val_main_v163 x0 x1 := (h.1.binary v162 v162).trans rfl
  replace h := h.2
  have v164 : E (Proc.devRef .tc main_v164) = ReadP.val_main_v164 x0 x1 := (h.1.binary v159 v163).trans rfl
  replace h := h.2
  have v165 : E (Proc.devRef .tc main_v165) = ReadP.val_main_v165 x0 x1 := (h.1.unary v146).trans rfl
  replace h := h.2
  have v166 : E (Proc.devRef .tc main_v166) = ReadP.val_main_v166 x1 := (h.1.unary v154).trans rfl
  replace h := h.2
  have v167 : E (Proc.devRef .tc main_v167) = ReadP.val_main_v167 x0 x1 := (h.1.binary v165 v166).trans rfl
  replace h := h.2
  have v168 : E (Proc.devRef .tc main_v168) = ReadP.val_main_v168 x0 x1 := (h.1.binary v167 v167).trans rfl
  replace h := h.2
  have v169 : E (Proc.devRef .tc main_v169) = ReadP.val_main_v169 x0 x1 := (h.1.binary v164 v168).trans rfl
  replace h := h.2
  have v170 : E (Proc.devRef .tc main_v170) = ReadP.val_main_v170 x0 x1 x3 := (h.1.binary v3 v169).trans rfl
  replace h := h.2
  have cst_16 : E (Proc.devRef .tc main_cst_16) = ReadP.val_main_cst_16 := (h.1.nullary).trans rfl
  replace h := h.2
  have v171 : E (Proc.devRef .tc main_v171) = ReadP.val_main_v171 x0 x1 x3 := (h.1.binary v170 cst_16).trans rfl
  replace h := h.2
  have v172 : E (Proc.devRef .tc main_v172) = ReadP.val_main_v172 x0 x1 := (h.1.unary v137).trans rfl
  replace h := h.2
  have v173 : E (Proc.devRef .tc main_v173) = ReadP.val_main_v173 x0 x1 := (h.1.reshape v172).trans rfl
  replace h := h.2
  have v174 : E (Proc.devRef .tc main_v174) = ReadP.val_main_v174 x0 x1 := (h.1.binary v173 v138).trans rfl
  replace h := h.2
  have v175 : E (Proc.devRef .tc main_v175) = ReadP.val_main_v175 x0 x1 := (h.1.binary v174 v174).trans rfl
  replace h := h.2
  have v176 : E (Proc.devRef .tc main_v176) = ReadP.val_main_v176 x0 x1 x3 := (h.1.binary v3 v175).trans rfl
  replace h := h.2
  have cst_17 : E (Proc.devRef .tc main_cst_17) = ReadP.val_main_cst_17 := (h.1.nullary).trans rfl
  replace h := h.2
  have v177 : E (Proc.devRef .tc main_v177) = ReadP.val_main_v177 x0 x1 x3 := (h.1.binary v176 cst_17).trans rfl
  replace h := h.2
  have cst_18 : E (Proc.devRef .tc main_cst_18) = ReadP.val_main_cst_18 := (h.1.nullary).trans rfl
  replace h := h.2
  have v178 : E (Proc.devRef .tc main_v178) = ReadP.val_main_v178 x0 x3 := (h.1.binary cst_18 v23).trans rfl
  replace h := h.2
  have v179 : E (Proc.devRef .tc main_v179) = ReadP.val_main_v179 x0 x2 x3 := (h.1.binary v8 v178).trans rfl
  replace h := h.2
  have cst_19 : E (Proc.devRef .tc main_cst_19) = ReadP.val_main_cst_19 := (h.1.nullary).trans rfl
  replace h := h.2
  have v180 : E (Proc.devRef .tc main_v180) = ReadP.val_main_v180 x0 x1 x3 := (h.1.binary cst_19 v171).trans rfl
  replace h := h.2
  have v181 : E (Proc.devRef .tc main_v181) = ReadP.val_main_v181 x0 x1 x2 x3 := (h.1.binary v179 v180).trans rfl
  replace h := h.2
  have v182 : E (Proc.devRef .tc main_v182) = ReadP.val_main_v182 x0 x1 x2 x3 := (h.1.binary v181 v177).trans rfl
  replace h := h.2
  have v183 : E (Proc.devRef .tc main_v183) = ReadP.val_main_v183 x0 x1 x2 x3 := (h.1.unary v182).trans rfl
  replace h := h.2
  have v184 : E (Proc.devRef .tc main_v184) = ReadP.val_main_v184 x0 x1 x3 := (h.1.unary v171).trans rfl
  replace h := h.2
  have v185 : E (Proc.devRef .tc main_v185) = ReadP.val_main_v185 x0 x1 x3 := (h.1.unary v177).trans rfl
  replace h := h.2
  have v186 : E (Proc.devRef .tc main_v186) = ReadP.val_main_v186 x0 x3 := (h.1.unary v23).trans rfl
  replace h := h.2
  have v187 : E (Proc.devRef .tc main_v187) = ReadP.val_main_v187 x0 x2 x3 := (h.1.unary v8).trans rfl
  replace h := h.2
  have v188 : E (Proc.devRef .tc main_v188) = ReadP.val_main_v188 x0 x1 x2 x3 := by
    obtain ⟨P, hP, e⟩ := h.1
    refine e.trans ((nary_result _ _ _ _ _ _).trans ?_)
    show concatenate S5 0 [⟨S1, P (Proc.devRef .tc main_v183)⟩, ⟨S1, P (Proc.devRef .tc main_v184)⟩, ⟨S1, P (Proc.devRef .tc main_v185)⟩, ⟨S1, P (Proc.devRef .tc main_v186)⟩, ⟨S1, P (Proc.devRef .tc main_v187)⟩] concatenates_S1_S1_S1_S1_S1_S5_d0 = _
    rw [hP main_v183 (by decide), hP main_v184 (by decide), hP main_v185 (by decide), hP main_v186 (by decide), hP main_v187 (by decide), v183, v184, v185, v186, v187]; rfl
  replace h := h.2
  have cst_20 : E (Proc.devRef .tc main_cst_20) = ReadP.val_main_cst_20 := (h.1.nullary).trans rfl
  replace h := h.2
  have v189 : E (Proc.devRef .tc main_v189) = ReadP.val_main_v189 := (h.1.unary cst_20).trans rfl
  replace h := h.2
  have v190 : E (Proc.devRef .tc main_v190) = ReadP.val_main_v190 x0 x1 x2 x3 := (h.1.binary v188 v189).trans rfl
  exact v190

end Cert.ReferenceIdeal.ValueP

end
-- ==== Proof.RefRun.lean ====
import proofs.«404733_j85177791414999_3_alg».proof.Proof.RefChain

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

theorem ops_writes : WritesFrom 4 (ops (F := F)) dst := by
  repeat first
    | exact trivial
    | refine And.intro ⟨Nat.le_refl _, rfl, rfl, by
        simp only [nullary_bufs_sub, unary_bufs_sub, binary_bufs_sub, ternary_bufs_sub, reshape_bufs_sub, nary_bufs_sub]⟩ ?_

/-- The operations write the references after the four arguments, each once: the result is the staged value. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v190) = Cert.ReferenceIdeal.ReadP.val_main_v190 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
      have kept : ∀ s : Ref sig .tc, s.idx.val < 4 →
          after (ops (F := F)) (launchContents m c) (Proc.devRef .tc s) = m ((c.tc : Thread nD τ).loc s) :=
        fun s hs => after_of_forall_not_mem _ _ (ops_writes.not_written hs)
      exact ⟨(h c main_v190).trans (val_of_steps (kept _ (by decide)) (kept _ (by decide)) (kept _ (by decide))
          (kept _ (by decide)) (ops_writes.steps _)),
        (h c main_arg0).trans (kept _ (by decide)), (h c main_arg1).trans (kept _ (by decide)),
        (h c main_arg2).trans (kept _ (by decide)), (h c main_arg3).trans (kept _ (by decide))⟩)
    (run_seq scopedRefs_eq scopedSems_eq defs main (fun _ => ops) main_eq (fun _ => ops_writes.sub) m ρ
      (fun _ => ops_writes.fresh))

end Cert.ReferenceIdeal.ValueP

end
-- ==== Proof.RefValue.lean ====
import proofs.«404733_j85177791414999_3_alg».proof.Proof.RefRead
import proofs.«404733_j85177791414999_3_alg».proof.Proof.Cell
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx

section Layout
variable {α : Type}

theorem slice_lt {K M o : Nat} (h : (⟨4, ![4096, 14, 14, K]⟩ : Shape).Slices ![0, 0, 0, o] ⟨4, ![4096, 14, 14, M]⟩)
    (c : Fin M) : o + c.val < K :=
  Nat.lt_of_lt_of_le (Nat.add_lt_add_left c.isLt _) (h.2 3)

theorem slice4_at {K M o : Nat} (y : (⟨4, ![4096, 14, 14, K]⟩ : Shape).Idx → α)
    (h : (⟨4, ![4096, 14, 14, K]⟩ : Shape).Slices ![0, 0, 0, o] ⟨4, ![4096, 14, 14, M]⟩)
    (n : Fin 4096) (a b : Fin 14) (c : Fin M) :
    extractStridedSlice ⟨4, ![4096, 14, 14, M]⟩ ![0, 0, 0, o] y h (ix4 n a b c)
      = y (ix4 n a b ⟨o + c.val, slice_lt h c⟩) :=
  extractStridedSlice_apply ![0, 0, 0, o] y h (ix4 n a b c) (ix4 n a b ⟨o + c.val, slice_lt h c⟩) (fun e => match e with
    | ⟨0, _⟩ => by show n.val = 0 + n.val; omega
    | ⟨1, _⟩ => by show a.val = 0 + a.val; omega
    | ⟨2, _⟩ => by show b.val = 0 + b.val; omega
    | ⟨3, _⟩ => rfl)

theorem cast3_at (y : (⟨4, ![4096, 14, 14, 1]⟩ : Shape).Idx → α)
    (h : (⟨4, ![4096, 14, 14, 1]⟩ : Shape).ShapeCasts ⟨3, ![4096, 14, 14]⟩) (n : Fin 4096) (a b : Fin 14) :
    shapeCast ⟨3, ![4096, 14, 14]⟩ y h (ix3 n a b) = y (ix4 n a b (⟨0, Nat.one_pos⟩ : Fin 1)) :=
  shapeCast_apply y h (ix3 n a b) (ix4 n a b (⟨0, Nat.one_pos⟩ : Fin 1))
    (by rewrite [Shape.rowMajor_val_four, Shape.rowMajor_val_three]
        show ((n.val * 14 + a.val) * 14 + b.val) * 1 + 0 = (n.val * 14 + a.val) * 14 + b.val; omega)

theorem bcast0_at {t : Shape} (h : (⟨0, ![]⟩ : Shape).BroadcastsInDim t (![] : Fin 0 → Fin t.rank))
    (y : (⟨0, ![]⟩ : Shape).Idx → α) (j : t.Idx) : broadcastInDim t ![] h y j = y ix0 :=
  broadcastInDim_apply _ h y j ix0 (fun e => e.elim0)

theorem bcast34_at (h : (⟨3, ![4096, 14, 14]⟩ : Shape).BroadcastsInDim ⟨4, ![4096, 14, 14, 1]⟩ ![0, 1, 2])
    (y : (⟨3, ![4096, 14, 14]⟩ : Shape).Idx → α) (n : Fin 4096) (a b : Fin 14) (c : Fin 1) :
    broadcastInDim ⟨4, ![4096, 14, 14, 1]⟩ ![0, 1, 2] h y (ix4 n a b c) = y (ix3 n a b) :=
  broadcastInDim_apply _ h y (ix4 n a b c) (ix3 n a b) (fun e => match e with
    | ⟨0, _⟩ => by show n.val = if (4096 : Nat) = 1 then 0 else n.val; rw [if_neg (by decide)]
    | ⟨1, _⟩ => by show a.val = if (14 : Nat) = 1 then 0 else a.val; rw [if_neg (by decide)]
    | ⟨2, _⟩ => by show b.val = if (14 : Nat) = 1 then 0 else b.val; rw [if_neg (by decide)])

theorem bcast45_at (h : (⟨4, ![4096, 14, 14, 1]⟩ : Shape).BroadcastsInDim ⟨4, ![4096, 14, 14, 5]⟩ ![0, 1, 2, 3])
    (y : (⟨4, ![4096, 14, 14, 1]⟩ : Shape).Idx → α) (n : Fin 4096) (a b : Fin 14) (c : Fin 5) :
    broadcastInDim ⟨4, ![4096, 14, 14, 5]⟩ ![0, 1, 2, 3] h y (ix4 n a b c) = y (ix4 n a b (⟨0, Nat.one_pos⟩ : Fin 1)) :=
  broadcastInDim_apply _ h y (ix4 n a b c) (ix4 n a b (⟨0, Nat.one_pos⟩ : Fin 1)) (fun e => match e with
    | ⟨0, _⟩ => by show n.val = if (4096 : Nat) = 1 then 0 else n.val; rw [if_neg (by decide)]
    | ⟨1, _⟩ => by show a.val = if (14 : Nat) = 1 then 0 else a.val; rw [if_neg (by decide)]
    | ⟨2, _⟩ => by show b.val = if (14 : Nat) = 1 then 0 else b.val; rw [if_neg (by decide)]
    | ⟨3, _⟩ => by show 0 = if (1 : Nat) = 1 then 0 else c.val; rw [if_pos rfl])

theorem concat_lo_at (x₁ x₂ : (⟨4, ![4096, 14, 14, 2]⟩ : Shape).Idx → α)
    (h : Shape.Concatenates [(⟨4, ![4096, 14, 14, 2]⟩ : Shape), ⟨4, ![4096, 14, 14, 2]⟩] ⟨4, ![4096, 14, 14, 4]⟩ 3)
    (n : Fin 4096) (a b : Fin 14) (c : Fin 2) :
    concatenate ⟨4, ![4096, 14, 14, 4]⟩ 3 [⟨⟨4, ![4096, 14, 14, 2]⟩, x₁⟩, ⟨⟨4, ![4096, 14, 14, 2]⟩, x₂⟩] h
      (ix4 n a b (⟨c.val, by omega⟩ : Fin 4)) = x₁ (ix4 n a b c) :=
  concatenate_pair_apply_left 3 x₁ x₂ h _ rfl (ix4 n a b c) (fun e => match e with
    | ⟨0, _⟩ => rfl | ⟨1, _⟩ => rfl | ⟨2, _⟩ => rfl | ⟨3, _⟩ => rfl)

theorem concat_hi_at (x₁ x₂ : (⟨4, ![4096, 14, 14, 2]⟩ : Shape).Idx → α)
    (h : Shape.Concatenates [(⟨4, ![4096, 14, 14, 2]⟩ : Shape), ⟨4, ![4096, 14, 14, 2]⟩] ⟨4, ![4096, 14, 14, 4]⟩ 3)
    (n : Fin 4096) (a b : Fin 14) (c : Fin 2) :
    concatenate ⟨4, ![4096, 14, 14, 4]⟩ 3 [⟨⟨4, ![4096, 14, 14, 2]⟩, x₁⟩, ⟨⟨4, ![4096, 14, 14, 2]⟩, x₂⟩] h
      (ix4 n a b (⟨2 + c.val, by omega⟩ : Fin 4)) = x₂ (ix4 n a b c) :=
  concatenate_pair_apply_right 3 x₁ x₂ h _ rfl rfl (ix4 n a b c) (fun e => match e with
    | ⟨0, _⟩ => fun _ => rfl | ⟨1, _⟩ => fun _ => rfl | ⟨2, _⟩ => fun _ => rfl | ⟨3, _⟩ => fun hne => absurd rfl hne)
    (by show c.val + 2 = 2 + c.val; omega)

end Layout

section Cells

theorem uitofp_bit (b : BitVec 1) : FloatOps.uitofp (F := Ideal) .f32 b = ((b.toNat : ℝ) : EReal) := rfl

variable (a0 : FVec Ideal S4096x14x14x30 .f32) (a1 : FVec Ideal S4096x14x14x4 .f32)
  (a2 : FVec Ideal S4096x14x14x20 .f32) (a3 : IVec S4096x14x14 1)

theorem v0_at (n : Fin 4096) (a b : Fin 14) (c : Fin 5) :
    val_main_v0 (F := Ideal) a0 (ix4 n a b c) = Cert.Yolo.argP a0 (ix3 n a b) ⟨c.val, by omega⟩ := by
  simp only [val_main_v0, slice4_at, Nat.zero_add]
  rfl

theorem v1_at (n : Fin 4096) (a b : Fin 14) (c : Fin 5) :
    val_main_v1 (F := Ideal) a0 (ix4 n a b c) = Cert.Yolo.argP a0 (ix3 n a b) ⟨5 + c.val, by omega⟩ := by
  simp only [val_main_v1, slice4_at]
  rfl

theorem v2_at (n : Fin 4096) (a b : Fin 14) (c : Fin 20) :
    val_main_v2 (F := Ideal) a0 (ix4 n a b c) = Cert.Yolo.argP a0 (ix3 n a b) (Cert.Yolo.ch10 c) := by
  simp only [val_main_v2, slice4_at]
  rfl

theorem v3_at (i : S4096x14x14.Idx) : val_main_v3 (F := Ideal) a3 i = Cert.Yolo.argM a3 i := rfl

theorem v7_at (n : Fin 4096) (a b : Fin 14) :
    val_main_v7 (F := Ideal) a0 a2 a3 (ix3 n a b)
      = Cert.Yolo.clsCell (Cert.Yolo.argP a0 (ix3 n a b)) (Cert.Yolo.argQ a2 (ix3 n a b)) (Cert.Yolo.argM a3 (ix3 n a b)) := by
  rw [val_main_v7_apply, val_main_v6_apply, v3_at]
  simp only [val_main_v5_apply, val_main_v4_apply, val_main_cst_apply, Ideal.mulf_def, Ideal.subf_def, Ideal.ofBits_def,
    Ideal.ofBits_zero_f32]
  unfold Cert.Yolo.clsCell
  refine congrArg (fun s => _ * (0 + s)) (Finset.sum_congr rfl fun k _ => ?_)
  have hk : idx_main_v6 (ix3 n a b) k = ix4 n a b k := by
    funext e; match e with | ⟨0, _⟩ => rfl | ⟨1, _⟩ => rfl | ⟨2, _⟩ => rfl | ⟨3, _⟩ => rfl
  rw [hk, v2_at]
  rfl

end Cells

section Cells2

variable (a0 : FVec Ideal S4096x14x14x30 .f32) (a1 : FVec Ideal S4096x14x14x4 .f32)
  (a2 : FVec Ideal S4096x14x14x20 .f32) (a3 : IVec S4096x14x14 1)

theorem ofBits14 : Ideal.ofBits .f32 0x41600000#32 = ((14 : ℝ) : EReal) := by
  simp [Ideal.ofBits, Ideal.ieee, -EReal.coe_mul]; norm_num

theorem div14 (x : EReal) : Ideal.div x (Ideal.ofBits .f32 0x41600000#32) = x * Cert.Yolo.inv14 := by
  rw [ofBits14]
  exact Ideal.div_coe (by norm_num) x

theorem v14_at (n : Fin 4096) (a b : Fin 14) :
    val_main_v14 (F := Ideal) a0 a3 (ix3 n a b) = Cert.Yolo.no1Cell (Cert.Yolo.argP a0 (ix3 n a b)) (Cert.Yolo.argM a3 (ix3 n a b)) := by
  simp only [val_main_v9_apply, val_main_v10_apply, val_main_v13_apply, val_main_v14_apply, val_main_v11, val_main_v12, slice4_at, cast3_at, bcast34_at, bcast45_at, v0_at, v3_at, Ideal.ofBits_def, Ideal.addf_def, Ideal.subf_def, Ideal.mulf_def, Ideal.maximumf_def, Ideal.minimumf_def, Ideal.hostDivf_def, Ideal.hostUnary_sqrt_def, Ideal.cmpf_def, Nat.zero_add, Nat.add_zero, Nat.reduceAdd]
  rfl

theorem v21_at (n : Fin 4096) (a b : Fin 14) :
    val_main_v21 (F := Ideal) a0 a3 (ix3 n a b) = Cert.Yolo.no2Cell (Cert.Yolo.argP a0 (ix3 n a b)) (Cert.Yolo.argM a3 (ix3 n a b)) := by
  simp only [val_main_v16_apply, val_main_v17_apply, val_main_v20_apply, val_main_v21_apply, val_main_v18, val_main_v19, slice4_at, cast3_at, bcast34_at, bcast45_at, v1_at, v3_at, Ideal.ofBits_def, Ideal.addf_def, Ideal.subf_def, Ideal.mulf_def, Ideal.maximumf_def, Ideal.minimumf_def, Ideal.hostDivf_def, Ideal.hostUnary_sqrt_def, Ideal.cmpf_def, Nat.zero_add, Nat.add_zero, Nat.reduceAdd]
  rfl

theorem v31_at (n : Fin 4096) (a b : Fin 14) (c : Fin 2) :
    val_main_v31 (F := Ideal) a0 (ix4 n a b c) = Cert.Yolo.lo (Cert.Yolo.argP a0 (ix3 n a b) ⟨c.val, by omega⟩) (Cert.Yolo.argP a0 (ix3 n a b) ⟨2 + c.val, by omega⟩) := by
  simp only [val_main_cst_5_apply, val_main_v26_apply, val_main_v27_apply, val_main_cst_6_apply, val_main_v29_apply, val_main_v30_apply, val_main_v31_apply, val_main_cst_7_apply, val_main_v32_apply, val_main_v33_apply, val_main_v34_apply, val_main_v24, val_main_v25, val_main_v28, slice4_at, cast3_at, bcast34_at, bcast45_at, v0_at, div14, Ideal.ofBits_def, Ideal.addf_def, Ideal.subf_def, Ideal.mulf_def, Ideal.maximumf_def, Ideal.minimumf_def, Ideal.hostDivf_def, Ideal.hostUnary_sqrt_def, Ideal.cmpf_def, Nat.zero_add, Nat.add_zero, Nat.reduceAdd]
  rfl

theorem v34_at (n : Fin 4096) (a b : Fin 14) (c : Fin 2) :
    val_main_v34 (F := Ideal) a0 (ix4 n a b c) = Cert.Yolo.hi (Cert.Yolo.argP a0 (ix3 n a b) ⟨c.val, by omega⟩) (Cert.Yolo.argP a0 (ix3 n a b) ⟨2 + c.val, by omega⟩) := by
  simp only [val_main_cst_5_apply, val_main_v26_apply, val_main_v27_apply, val_main_cst_6_apply, val_main_v29_apply, val_main_v30_apply, val_main_v31_apply, val_main_cst_7_apply, val_main_v32_apply, val_main_v33_apply, val_main_v34_apply, val_main_v24, val_main_v25, val_main_v28, slice4_at, cast3_at, bcast34_at, bcast45_at, v0_at, div14, Ideal.ofBits_def, Ideal.addf_def, Ideal.subf_def, Ideal.mulf_def, Ideal.maximumf_def, Ideal.minimumf_def, Ideal.hostDivf_def, Ideal.hostUnary_sqrt_def, Ideal.cmpf_def, Nat.zero_add, Nat.add_zero, Nat.reduceAdd]
  rfl

theorem v35_0 (n : Fin 4096) (a b : Fin 14) (h : 0 < 4) :
    val_main_v35 (F := Ideal) a0 (ix4 n a b (⟨0, h⟩ : Fin 4)) = Cert.Yolo.lo (Cert.Yolo.argP a0 (ix3 n a b) 0) (Cert.Yolo.argP a0 (ix3 n a b) 2) := by
  unfold val_main_v35
  exact (concat_lo_at _ _ _ n a b (0 : Fin 2)).trans (v31_at a0 n a b 0)
theorem v35_1 (n : Fin 4096) (a b : Fin 14) (h : 1 < 4) :
    val_main_v35 (F := Ideal) a0 (ix4 n a b (⟨1, h⟩ : Fin 4)) = Cert.Yolo.lo (Cert.Yolo.argP a0 (ix3 n a b) 1) (Cert.Yolo.argP a0 (ix3 n a b) 3) := by
  unfold val_main_v35
  exact (concat_lo_at _ _ _ n a b (1 : Fin 2)).trans (v31_at a0 n a b 1)
theorem v35_2 (n : Fin 4096) (a b : Fin 14) (h : 2 < 4) :
    val_main_v35 (F := Ideal) a0 (ix4 n a b (⟨2, h⟩ : Fin 4)) = Cert.Yolo.hi (Cert.Yolo.argP a0 (ix3 n a b) 0) (Cert.Yolo.argP a0 (ix3 n a b) 2) := by
  unfold val_main_v35
  exact (concat_hi_at _ _ _ n a b (0 : Fin 2)).trans (v34_at a0 n a b 0)
theorem v35_3 (n : Fin 4096) (a b : Fin 14) (h : 3 < 4) :
    val_main_v35 (F := Ideal) a0 (ix4 n a b (⟨3, h⟩ : Fin 4)) = Cert.Yolo.hi (Cert.Yolo.argP a0 (ix3 n a b) 1) (Cert.Yolo.argP a0 (ix3 n a b) 3) := by
  unfold val_main_v35
  exact (concat_hi_at _ _ _ n a b (1 : Fin 2)).trans (v34_at a0 n a b 1)

theorem v43_at (n : Fin 4096) (a b : Fin 14) (c : Fin 2) :
    val_main_v43 (F := Ideal) a0 (ix4 n a b c) = Cert.Yolo.lo (Cert.Yolo.argP a0 (ix3 n a b) ⟨5 + c.val, by omega⟩) (Cert.Yolo.argP a0 (ix3 n a b) ⟨5 + (2 + c.val), by omega⟩) := by
  simp only [val_main_cst_8_apply, val_main_v38_apply, val_main_v39_apply, val_main_cst_9_apply, val_main_v41_apply, val_main_v42_apply, val_main_v43_apply, val_main_cst_10_apply, val_main_v44_apply, val_main_v45_apply, val_main_v46_apply, val_main_v36, val_main_v37, val_main_v40, slice4_at, cast3_at, bcast34_at, bcast45_at, v1_at, div14, Ideal.ofBits_def, Ideal.addf_def, Ideal.subf_def, Ideal.mulf_def, Ideal.maximumf_def, Ideal.minimumf_def, Ideal.hostDivf_def, Ideal.hostUnary_sqrt_def, Ideal.cmpf_def, Nat.zero_add, Nat.add_zero, Nat.reduceAdd]
  rfl

theorem v46_at (n : Fin 4096) (a b : Fin 14) (c : Fin 2) :
    val_main_v46 (F := Ideal) a0 (ix4 n a b c) = Cert.Yolo.hi (Cert.Yolo.argP a0 (ix3 n a b) ⟨5 + c.val, by omega⟩) (Cert.Yolo.argP a0 (ix3 n a b) ⟨5 + (2 + c.val), by omega⟩) := by
  simp only [val_main_cst_8_apply, val_main_v38_apply, val_main_v39_apply, val_main_cst_9_apply, val_main_v41_apply, val_main_v42_apply, val_main_v43_apply, val_main_cst_10_apply, val_main_v44_apply, val_main_v45_apply, val_main_v46_apply, val_main_v36, val_main_v37, val_main_v40, slice4_at, cast3_at, bcast34_at, bcast45_at, v1_at, div14, Ideal.ofBits_def, Ideal.addf_def, Ideal.subf_def, Ideal.mulf_def, Ideal.maximumf_def, Ideal.minimumf_def, Ideal.hostDivf_def, Ideal.hostUnary_sqrt_def, Ideal.cmpf_def, Nat.zero_add, Nat.add_zero, Nat.reduceAdd]
  rfl

theorem v47_0 (n : Fin 4096) (a b : Fin 14) (h : 0 < 4) :
    val_main_v47 (F := Ideal) a0 (ix4 n a b (⟨0, h⟩ : Fin 4)) = Cert.Yolo.lo (Cert.Yolo.argP a0 (ix3 n a b) 5) (Cert.Yolo.argP a0 (ix3 n a b) 7) := by
  unfold val_main_v47
  exact (concat_lo_at _ _ _ n a b (0 : Fin 2)).trans (v43_at a0 n a b 0)
theorem v47_1 (n : Fin 4096) (a b : Fin 14) (h : 1 < 4) :
    val_main_v47 (F := Ideal) a0 (ix4 n a b (⟨1, h⟩ : Fin 4)) = Cert.Yolo.lo (Cert.Yolo.argP a0 (ix3 n a b) 6) (Cert.Yolo.argP a0 (ix3 n a b) 8) := by
  unfold val_main_v47
  exact (concat_lo_at _ _ _ n a b (1 : Fin 2)).trans (v43_at a0 n a b 1)
theorem v47_2 (n : Fin 4096) (a b : Fin 14) (h : 2 < 4) :
    val_main_v47 (F := Ideal) a0 (ix4 n a b (⟨2, h⟩ : Fin 4)) = Cert.Yolo.hi (Cert.Yolo.argP a0 (ix3 n a b) 5) (Cert.Yolo.argP a0 (ix3 n a b) 7) := by
  unfold val_main_v47
  exact (concat_hi_at _ _ _ n a b (0 : Fin 2)).trans (v46_at a0 n a b 0)
theorem v47_3 (n : Fin 4096) (a b : Fin 14) (h : 3 < 4) :
    val_main_v47 (F := Ideal) a0 (ix4 n a b (⟨3, h⟩ : Fin 4)) = Cert.Yolo.hi (Cert.Yolo.argP a0 (ix3 n a b) 6) (Cert.Yolo.argP a0 (ix3 n a b) 8) := by
  unfold val_main_v47
  exact (concat_hi_at _ _ _ n a b (1 : Fin 2)).trans (v46_at a0 n a b 1)

theorem v54_at (n : Fin 4096) (a b : Fin 14) (c : Fin 2) :
    val_main_v54 (F := Ideal) a1 (ix4 n a b c) = Cert.Yolo.lo (Cert.Yolo.argTB a1 (ix3 n a b) ⟨c.val, by omega⟩) (Cert.Yolo.argTB a1 (ix3 n a b) ⟨2 + c.val, by omega⟩) := by
  simp only [val_main_cst_11_apply, val_main_v49_apply, val_main_v50_apply, val_main_cst_12_apply, val_main_v52_apply, val_main_v53_apply, val_main_v54_apply, val_main_cst_13_apply, val_main_v55_apply, val_main_v56_apply, val_main_v57_apply, val_main_v48, val_main_v51, slice4_at, cast3_at, bcast34_at, bcast45_at, div14, Ideal.ofBits_def, Ideal.addf_def, Ideal.subf_def, Ideal.mulf_def, Ideal.maximumf_def, Ideal.minimumf_def, Ideal.hostDivf_def, Ideal.hostUnary_sqrt_def, Ideal.cmpf_def, Nat.zero_add, Nat.add_zero, Nat.reduceAdd]
  rfl

theorem v57_at (n : Fin 4096) (a b : Fin 14) (c : Fin 2) :
    val_main_v57 (F := Ideal) a1 (ix4 n a b c) = Cert.Yolo.hi (Cert.Yolo.argTB a1 (ix3 n a b) ⟨c.val, by omega⟩) (Cert.Yolo.argTB a1 (ix3 n a b) ⟨2 + c.val, by omega⟩) := by
  simp only [val_main_cst_11_apply, val_main_v49_apply, val_main_v50_apply, val_main_cst_12_apply, val_main_v52_apply, val_main_v53_apply, val_main_v54_apply, val_main_cst_13_apply, val_main_v55_apply, val_main_v56_apply, val_main_v57_apply, val_main_v48, val_main_v51, slice4_at, cast3_at, bcast34_at, bcast45_at, div14, Ideal.ofBits_def, Ideal.addf_def, Ideal.subf_def, Ideal.mulf_def, Ideal.maximumf_def, Ideal.minimumf_def, Ideal.hostDivf_def, Ideal.hostUnary_sqrt_def, Ideal.cmpf_def, Nat.zero_add, Nat.add_zero, Nat.reduceAdd]
  rfl

theorem v58_0 (n : Fin 4096) (a b : Fin 14) (h : 0 < 4) :
    val_main_v58 (F := Ideal) a1 (ix4 n a b (⟨0, h⟩ : Fin 4)) = Cert.Yolo.lo (Cert.Yolo.argTB a1 (ix3 n a b) 0) (Cert.Yolo.argTB a1 (ix3 n a b) 2) := by
  unfold val_main_v58
  exact (concat_lo_at _ _ _ n a b (0 : Fin 2)).trans (v54_at a1 n a b 0)
theorem v58_1 (n : Fin 4096) (a b : Fin 14) (h : 1 < 4) :
    val_main_v58 (F := Ideal) a1 (ix4 n a b (⟨1, h⟩ : Fin 4)) = Cert.Yolo.lo (Cert.Yolo.argTB a1 (ix3 n a b) 1) (Cert.Yolo.argTB a1 (ix3 n a b) 3) := by
  unfold val_main_v58
  exact (concat_lo_at _ _ _ n a b (1 : Fin 2)).trans (v54_at a1 n a b 1)
theorem v58_2 (n : Fin 4096) (a b : Fin 14) (h : 2 < 4) :
    val_main_v58 (F := Ideal) a1 (ix4 n a b (⟨2, h⟩ : Fin 4)) = Cert.Yolo.hi (Cert.Yolo.argTB a1 (ix3 n a b) 0) (Cert.Yolo.argTB a1 (ix3 n a b) 2) := by
  unfold val_main_v58
  exact (concat_hi_at _ _ _ n a b (0 : Fin 2)).trans (v57_at a1 n a b 0)
theorem v58_3 (n : Fin 4096) (a b : Fin 14) (h : 3 < 4) :
    val_main_v58 (F := Ideal) a1 (ix4 n a b (⟨3, h⟩ : Fin 4)) = Cert.Yolo.hi (Cert.Yolo.argTB a1 (ix3 n a b) 1) (Cert.Yolo.argTB a1 (ix3 n a b) 3) := by
  unfold val_main_v58
  exact (concat_hi_at _ _ _ n a b (1 : Fin 2)).trans (v57_at a1 n a b 1)

end Cells2

section Cells3

variable (a0 : FVec Ideal S4096x14x14x30 .f32) (a1 : FVec Ideal S4096x14x14x4 .f32)
  (a2 : FVec Ideal S4096x14x14x20 .f32) (a3 : IVec S4096x14x14 1)

theorem clip0 (x : EReal) : max (Ideal.ofBits .f32 0x00000000#32) x = max x 0 := by
  rw [Ideal.ofBits_zero_f32, max_comm]

theorem v96_at (n : Fin 4096) (a b : Fin 14) :
    val_main_v96 (F := Ideal) a0 a1 (ix3 n a b) = Cert.Yolo.iou1 (Cert.Yolo.argP a0 (ix3 n a b)) (Cert.Yolo.argTB a1 (ix3 n a b)) := by
  simp only [val_main_v61_apply, val_main_v64_apply, val_main_v65_apply, val_main_cst_14_apply, val_main_call0_v0_apply, val_main_call0_v1_apply, val_main_v66_apply, val_main_v71_apply, val_main_v76_apply, val_main_v81_apply, val_main_v82_apply, val_main_v87_apply, val_main_v92_apply, val_main_v93_apply, val_main_v94_apply, val_main_v95_apply, val_main_v96_apply, val_main_v59, val_main_v60, val_main_v62, val_main_v63, val_main_v67, val_main_v68, val_main_v69, val_main_v70, val_main_v72, val_main_v73, val_main_v74, val_main_v75, val_main_v77, val_main_v78, val_main_v79, val_main_v80, val_main_v83, val_main_v84, val_main_v85, val_main_v86, val_main_v88, val_main_v89, val_main_v90, val_main_v91, slice4_at, cast3_at, bcast34_at, bcast45_at, v35_0, v35_1, v35_2, v35_3, v58_0, v58_1, v58_2, v58_3, clip0, Ideal.ofBits_def, Ideal.addf_def, Ideal.subf_def, Ideal.mulf_def, Ideal.maximumf_def, Ideal.minimumf_def, Ideal.hostDivf_def, Ideal.hostUnary_sqrt_def, Ideal.cmpf_def, Nat.zero_add, Nat.add_zero, Nat.reduceAdd]
  rfl

theorem v134_at (n : Fin 4096) (a b : Fin 14) :
    val_main_v134 (F := Ideal) a0 a1 (ix3 n a b) = Cert.Yolo.iou2 (Cert.Yolo.argP a0 (ix3 n a b)) (Cert.Yolo.argTB a1 (ix3 n a b)) := by
  simp only [val_main_v99_apply, val_main_v102_apply, val_main_v103_apply, val_main_cst_15_apply, val_main_call1_v0_apply, val_main_call1_v1_apply, val_main_v104_apply, val_main_v109_apply, val_main_v114_apply, val_main_v119_apply, val_main_v120_apply, val_main_v125_apply, val_main_v130_apply, val_main_v131_apply, val_main_v132_apply, val_main_v133_apply, val_main_v134_apply, val_main_v97, val_main_v98, val_main_v100, val_main_v101, val_main_v105, val_main_v106, val_main_v107, val_main_v108, val_main_v110, val_main_v111, val_main_v112, val_main_v113, val_main_v115, val_main_v116, val_main_v117, val_main_v118, val_main_v121, val_main_v122, val_main_v123, val_main_v124, val_main_v126, val_main_v127, val_main_v128, val_main_v129, slice4_at, cast3_at, bcast34_at, bcast45_at, v47_0, v47_1, v47_2, v47_3, v58_0, v58_1, v58_2, v58_3, clip0, Ideal.ofBits_def, Ideal.addf_def, Ideal.subf_def, Ideal.mulf_def, Ideal.maximumf_def, Ideal.minimumf_def, Ideal.hostDivf_def, Ideal.hostUnary_sqrt_def, Ideal.cmpf_def, Nat.zero_add, Nat.add_zero, Nat.reduceAdd]
  rfl

theorem v135_at (n : Fin 4096) (a b : Fin 14) :
    val_main_v135 (F := Ideal) a0 a1 (ix3 n a b) = Cert.Yolo.sel (Cert.Yolo.argP a0 (ix3 n a b)) (Cert.Yolo.argTB a1 (ix3 n a b)) := by
  rw [val_main_v135_apply, v96_at, v134_at]
  rfl

theorem v137_at (n : Fin 4096) (a b : Fin 14) (c : Fin 5) :
    val_main_v137 (F := Ideal) a0 a1 (ix4 n a b c) = Cert.Yolo.best (Cert.Yolo.argP a0 (ix3 n a b)) (Cert.Yolo.argTB a1 (ix3 n a b)) c := by
  have hc : val_main_call2_v0 (F := Ideal) a0 a1 (ix4 n a b c) = val_main_v135 (F := Ideal) a0 a1 (ix3 n a b) := by
    unfold val_main_call2_v0 val_main_v136
    exact (bcast45_at _ _ n a b c).trans (bcast34_at _ _ n a b _)
  rw [val_main_v137_apply, hc, v135_at, v0_at, v1_at]
  rfl

theorem v138_at (n : Fin 4096) (a b : Fin 14) :
    val_main_v138 (F := Ideal) a0 a1 (ix3 n a b) = Cert.Yolo.bestIou (Cert.Yolo.argP a0 (ix3 n a b)) (Cert.Yolo.argTB a1 (ix3 n a b)) := by
  rw [val_main_v138_apply, v135_at, v96_at, v134_at]
  rfl

theorem v170_at (n : Fin 4096) (a b : Fin 14) :
    val_main_v170 (F := Ideal) a0 a1 a3 (ix3 n a b) = Cert.Yolo.regCell (Cert.Yolo.argP a0 (ix3 n a b)) (Cert.Yolo.argTB a1 (ix3 n a b)) (Cert.Yolo.argM a3 (ix3 n a b)) := by
  simp only [val_main_v155_apply, val_main_v156_apply, val_main_v157_apply, val_main_v158_apply, val_main_v159_apply, val_main_v160_apply, val_main_v161_apply, val_main_v162_apply, val_main_v163_apply, val_main_v164_apply, val_main_v165_apply, val_main_v166_apply, val_main_v167_apply, val_main_v168_apply, val_main_v169_apply, val_main_v170_apply, val_main_v139, val_main_v140, val_main_v141, val_main_v142, val_main_v143, val_main_v144, val_main_v145, val_main_v146, val_main_v147, val_main_v148, val_main_v149, val_main_v150, val_main_v151, val_main_v152, val_main_v153, val_main_v154, slice4_at, cast3_at, bcast34_at, bcast45_at, v137_at, v3_at, Ideal.ofBits_def, Ideal.addf_def, Ideal.subf_def, Ideal.mulf_def, Ideal.maximumf_def, Ideal.minimumf_def, Ideal.hostDivf_def, Ideal.hostUnary_sqrt_def, Ideal.cmpf_def, Nat.zero_add, Nat.add_zero, Nat.reduceAdd]
  rfl

theorem v176_at (n : Fin 4096) (a b : Fin 14) :
    val_main_v176 (F := Ideal) a0 a1 a3 (ix3 n a b) = Cert.Yolo.objCell (Cert.Yolo.argP a0 (ix3 n a b)) (Cert.Yolo.argTB a1 (ix3 n a b)) (Cert.Yolo.argM a3 (ix3 n a b)) := by
  simp only [val_main_v174_apply, val_main_v175_apply, val_main_v176_apply, val_main_v172, val_main_v173, slice4_at, cast3_at, bcast34_at, bcast45_at, v137_at, v138_at, v3_at, Ideal.ofBits_def, Ideal.addf_def, Ideal.subf_def, Ideal.mulf_def, Ideal.maximumf_def, Ideal.minimumf_def, Ideal.hostDivf_def, Ideal.hostUnary_sqrt_def, Ideal.cmpf_def, Nat.zero_add, Nat.add_zero, Nat.reduceAdd]
  rfl

end Cells3

section Totals

variable (a0 : FVec Ideal S4096x14x14x30 .f32) (a1 : FVec Ideal S4096x14x14x4 .f32)
  (a2 : FVec Ideal S4096x14x14x20 .f32) (a3 : IVec S4096x14x14 1)

theorem exists_ix3 (j : S4096x14x14.Idx) : ∃ (n : Fin 4096) (a b : Fin 14), j = ix3 n a b :=
  ⟨j 0, j 1, j 2, eq_ix3 j⟩

theorem tot_cls (i : S_.Idx) :
    val_main_v8 (F := Ideal) a0 a2 a3 i = Cert.Yolo.totCls (Cert.Yolo.argP a0) (Cert.Yolo.argQ a2) (Cert.Yolo.argM a3) := by
  rw [val_main_v8_apply, val_main_cst_0_apply]
  simp only [Ideal.ofBits_def, Ideal.ofBits_zero_f32]
  unfold Cert.Yolo.totCls
  refine congrArg (fun s => 0 + s) (Finset.sum_congr rfl fun j _ => ?_)
  obtain ⟨n, a, b, rfl⟩ := exists_ix3 j
  exact v7_at a0 a2 a3 n a b

theorem tot_no (i : S_.Idx) :
    val_main_v23 (F := Ideal) a0 a3 i = Cert.Yolo.totNo (Cert.Yolo.argP a0) (Cert.Yolo.argM a3) := by
  rw [val_main_v23_apply, val_main_v15_apply, val_main_v22_apply, val_main_cst_2_apply, val_main_cst_4_apply]
  simp only [Ideal.addf_def, Ideal.ofBits_def, Ideal.ofBits_zero_f32]
  unfold Cert.Yolo.totNo
  refine congrArg₂ (fun s t => (0 + s) + (0 + t)) (Finset.sum_congr rfl fun j _ => ?_) (Finset.sum_congr rfl fun j _ => ?_)
  · obtain ⟨n, a, b, rfl⟩ := exists_ix3 j
    exact v14_at a0 a3 n a b
  · obtain ⟨n, a, b, rfl⟩ := exists_ix3 j
    exact v21_at a0 a3 n a b

theorem tot_reg (i : S_.Idx) :
    val_main_v171 (F := Ideal) a0 a1 a3 i
      = Cert.Yolo.totReg (Cert.Yolo.argP a0) (Cert.Yolo.argTB a1) (Cert.Yolo.argM a3) := by
  rw [val_main_v171_apply, val_main_cst_16_apply]
  simp only [Ideal.ofBits_def, Ideal.ofBits_zero_f32]
  unfold Cert.Yolo.totReg
  refine congrArg (fun s => 0 + s) (Finset.sum_congr rfl fun j _ => ?_)
  obtain ⟨n, a, b, rfl⟩ := exists_ix3 j
  exact v170_at a0 a1 a3 n a b

theorem tot_obj (i : S_.Idx) :
    val_main_v177 (F := Ideal) a0 a1 a3 i
      = Cert.Yolo.totObj (Cert.Yolo.argP a0) (Cert.Yolo.argTB a1) (Cert.Yolo.argM a3) := by
  rw [val_main_v177_apply, val_main_cst_17_apply]
  simp only [Ideal.ofBits_def, Ideal.ofBits_zero_f32]
  unfold Cert.Yolo.totObj
  refine congrArg (fun s => 0 + s) (Finset.sum_congr rfl fun j _ => ?_)
  obtain ⟨n, a, b, rfl⟩ := exists_ix3 j
  exact v176_at a0 a1 a3 n a b

end Totals

section Result

variable (a0 : FVec Ideal S4096x14x14x30 .f32) (a1 : FVec Ideal S4096x14x14x4 .f32)
  (a2 : FVec Ideal S4096x14x14x20 .f32) (a3 : IVec S4096x14x14 1)

theorem v188_0 (h : 0 < 5) :
    val_main_v188 (F := Ideal) a0 a1 a2 a3 (ix1 (⟨0, h⟩ : Fin 5)) = val_main_v183 (F := Ideal) a0 a1 a2 a3 (ix1 (⟨0, Nat.one_pos⟩ : Fin 1)) := by
  unfold val_main_v188
  exact concatenate_apply_piece 0 _ _ (ix1 (⟨0, h⟩ : Fin 5)) 0 (by show 0 < 5; decide) S1 _ rfl rfl 0 rfl
    (ix1 (⟨0, Nat.one_pos⟩ : Fin 1)) (fun e he => absurd (Subsingleton.elim _ _) he) rfl

theorem v188_1 (h : 1 < 5) :
    val_main_v188 (F := Ideal) a0 a1 a2 a3 (ix1 (⟨1, h⟩ : Fin 5)) = val_main_v184 (F := Ideal) a0 a1 a3 (ix1 (⟨0, Nat.one_pos⟩ : Fin 1)) := by
  unfold val_main_v188
  exact concatenate_apply_piece 0 _ _ (ix1 (⟨1, h⟩ : Fin 5)) 1 (by show 1 < 5; decide) S1 _ rfl rfl 1 rfl
    (ix1 (⟨0, Nat.one_pos⟩ : Fin 1)) (fun e he => absurd (Subsingleton.elim _ _) he) rfl

theorem v188_2 (h : 2 < 5) :
    val_main_v188 (F := Ideal) a0 a1 a2 a3 (ix1 (⟨2, h⟩ : Fin 5)) = val_main_v185 (F := Ideal) a0 a1 a3 (ix1 (⟨0, Nat.one_pos⟩ : Fin 1)) := by
  unfold val_main_v188
  exact concatenate_apply_piece 0 _ _ (ix1 (⟨2, h⟩ : Fin 5)) 2 (by show 2 < 5; decide) S1 _ rfl rfl 2 rfl
    (ix1 (⟨0, Nat.one_pos⟩ : Fin 1)) (fun e he => absurd (Subsingleton.elim _ _) he) rfl

theorem v188_3 (h : 3 < 5) :
    val_main_v188 (F := Ideal) a0 a1 a2 a3 (ix1 (⟨3, h⟩ : Fin 5)) = val_main_v186 (F := Ideal) a0 a3 (ix1 (⟨0, Nat.one_pos⟩ : Fin 1)) := by
  unfold val_main_v188
  exact concatenate_apply_piece 0 _ _ (ix1 (⟨3, h⟩ : Fin 5)) 3 (by show 3 < 5; decide) S1 _ rfl rfl 3 rfl
    (ix1 (⟨0, Nat.one_pos⟩ : Fin 1)) (fun e he => absurd (Subsingleton.elim _ _) he) rfl

theorem v188_4 (h : 4 < 5) :
    val_main_v188 (F := Ideal) a0 a1 a2 a3 (ix1 (⟨4, h⟩ : Fin 5)) = val_main_v187 (F := Ideal) a0 a2 a3 (ix1 (⟨0, Nat.one_pos⟩ : Fin 1)) := by
  unfold val_main_v188
  exact concatenate_apply_piece 0 _ _ (ix1 (⟨4, h⟩ : Fin 5)) 4 (by show 4 < 5; decide) S1 _ rfl rfl 4 rfl
    (ix1 (⟨0, Nat.one_pos⟩ : Fin 1)) (fun e he => absurd (Subsingleton.elim _ _) he) rfl

theorem v182_at (i : S_.Idx) :
    val_main_v182 (F := Ideal) a0 a1 a2 a3 i
      = ((Cert.Yolo.totCls (Cert.Yolo.argP a0) (Cert.Yolo.argQ a2) (Cert.Yolo.argM a3)
          + Cert.Yolo.half * Cert.Yolo.totNo (Cert.Yolo.argP a0) (Cert.Yolo.argM a3))
          + Ideal.ofBits .f32 0x40A00000#32 * Cert.Yolo.totReg (Cert.Yolo.argP a0) (Cert.Yolo.argTB a1) (Cert.Yolo.argM a3))
          + Cert.Yolo.totObj (Cert.Yolo.argP a0) (Cert.Yolo.argTB a1) (Cert.Yolo.argM a3) := by
  rw [val_main_v182_apply, val_main_v181_apply, val_main_v179_apply, val_main_v178_apply, val_main_v180_apply,
    val_main_cst_18_apply, val_main_cst_19_apply, tot_cls, tot_no, tot_reg, tot_obj]
  rfl

theorem ref_result (i : Fin 5) :
    val_main_v190 (F := Ideal) a0 a1 a2 a3 (ix1 i)
      = Cert.Yolo.loss (Cert.Yolo.argP a0) (Cert.Yolo.argTB a1) (Cert.Yolo.argQ a2) (Cert.Yolo.argM a3) i := by
  rw [val_main_v190_apply, val_main_v189_apply, val_main_cst_20_apply]
  unfold Cert.Yolo.loss Cert.Yolo.result
  refine congrArg (fun s => Ideal.div s (Ideal.ofBits .f32 0x45800000#32)) ?_
  match i with
  | ⟨0, h⟩ => rw [v188_0 a0 a1 a2 a3 h, val_main_v183_apply, v182_at]
  | ⟨1, h⟩ => rw [v188_1 a0 a1 a2 a3 h, val_main_v184_apply, tot_reg]
  | ⟨2, h⟩ => rw [v188_2 a0 a1 a2 a3 h, val_main_v185_apply, tot_obj]
  | ⟨3, h⟩ => rw [v188_3 a0 a1 a2 a3 h, val_main_v186_apply, tot_no]
  | ⟨4, h⟩ => rw [v188_4 a0 a1 a2 a3 h, val_main_v187_apply, tot_cls]

end Result

end Cert.ReferenceIdeal.RefValue

end
-- ==== Proof.RefRunValue.lean ====
import proofs.«404733_j85177791414999_3_alg».proof.Proof.RefRun
import proofs.«404733_j85177791414999_3_alg».proof.Proof.RefValue

noncomputable section

namespace Cert.ReferenceIdeal.RefValue

open Cert.ReferenceIdeal Cert.ReferenceIdeal.Gen Idealize.ShloMosaic Idealize.ShloMosaic.TcCoe Idealize.SL.Sem Idealize.ShloMosaic.StableHlo

theorem run_value (m : (ℓ : Loc nD τ sig) → Buf (Elt Ideal) ℓ) (ρ : Dev nD → PrngReg) :
    θ_run Cert.ReferenceIdeal.defs (onTc (τ := τ) (main (F := Ideal))) ⟨m, fun _ => 0, ρ⟩ (fun r => ∀ c : Dev nD,
      (∀ i : Fin 5, r.2.mem ((c.tc : Thread nD τ).loc main_v190) (ValueIdx.ix1 i)
          = Cert.Yolo.loss (Cert.Yolo.argP (m ((c.tc : Thread nD τ).loc main_arg0)))
              (Cert.Yolo.argTB (m ((c.tc : Thread nD τ).loc main_arg1)))
              (Cert.Yolo.argQ (m ((c.tc : Thread nD τ).loc main_arg2)))
              (Cert.Yolo.argM (m ((c.tc : Thread nD τ).loc main_arg3))) i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run Cert.ReferenceIdeal.defs _ _).mono
    (fun _ h c => ⟨fun i => (congrFun (h c).1 (ValueIdx.ix1 i)).trans (ref_result _ _ _ _ i), (h c).2⟩)
    (Cert.ReferenceIdeal.ValueP.run (F := Ideal) m ρ)

end Cert.ReferenceIdeal.RefValue

end
-- ==== Proof.lean ====
import proofs.«404733_j85177791414999_3_alg».proof.Defs
import proofs.«404733_j85177791414999_3_alg».proof.Proof.Gen.Kernel
import proofs.«404733_j85177791414999_3_alg».proof.Proof.Gen.KernelIdeal
import proofs.«404733_j85177791414999_3_alg».proof.Proof.Gen.ReferenceIdeal
import proofs.«404733_j85177791414999_3_alg».proof.Proof.Gen.Pre_finite_inputs
import proofs.«404733_j85177791414999_3_alg».proof.Proof.Kernel.Frame
import proofs.«404733_j85177791414999_3_alg».proof.Proof.KernelIdeal.Value
import proofs.«404733_j85177791414999_3_alg».proof.Proof.RefRunValue
import Idealize.ShloMosaic.Adequacy
import Idealize.ShloMosaic.Init

noncomputable section

namespace Cert.Proof

open Idealize.ShloMosaic Idealize.SL.Sem

theorem frame_p : Cert.frame_Kernel := fun m ρ _ => Cert.Kernel.Hand.frame m ρ

theorem frame_pi : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.RefValue.run_value m ρ)

theorem preserves : Cert.preserves_Kernel_KernelIdeal :=
  have s := IdealRules.named_const.statement Cert.KernelIdeal.κ "inv_14" .f32 0x3D924925#32 ((1 / 14 : ℝ) : EReal) rfl
  ⟨s, s, s, s, s, s⟩

/-- Both programs end at the detection loss vector of the cells read off the four arguments. -/
theorem algebraic : Cert.algebraic_KernelIdeal_ReferenceIdeal := by
  intro m ρ m' ρ' _ hagree
  refine ⟨fun c => fun j => Cert.Yolo.loss
      (Cert.Yolo.argP (m ((c.tc : Thread Cert.KernelIdeal.nD Cert.KernelIdeal.τ).loc Cert.KernelIdeal.main_arg0)))
      (Cert.Yolo.argTB (m ((c.tc : Thread Cert.KernelIdeal.nD Cert.KernelIdeal.τ).loc Cert.KernelIdeal.main_arg1)))
      (Cert.Yolo.argQ (m ((c.tc : Thread Cert.KernelIdeal.nD Cert.KernelIdeal.τ).loc Cert.KernelIdeal.main_arg2)))
      (Cert.Yolo.argM (m ((c.tc : Thread Cert.KernelIdeal.nD Cert.KernelIdeal.τ).loc Cert.KernelIdeal.main_arg3))) (j 0), ?_, ?_⟩
  · refine (θ_run Cert.KernelIdeal.defs _ _).mono (fun _ h c => ⟨?_, (h c).2⟩) (Cert.KernelIdeal.Hand.run_value m ρ)
    funext j
    rw [ValueIdx.eq_ix1 j]
    exact (h c).1 (j 0)
  · refine (θ_run Cert.ReferenceIdeal.defs _ _).mono (fun _ h c => ⟨?_, (h c).2⟩) (Cert.ReferenceIdeal.RefValue.run_value m' ρ')
    funext j
    rw [ValueIdx.eq_ix1 j]
    refine ((h c).1 (j 0)).trans ?_
    rw [(hagree c).1, (hagree c).2.1, (hagree c).2.2.1, (hagree c).2.2.2]
    rfl

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
